-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v203)) (v1 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_v208) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S512x64 : Shape := ⟨2, ![512, 64]⟩
abbrev S2x64x512x64 : Shape := ⟨4, ![2, 64, 512, 64]⟩
abbrev S65x3x128 : Shape := ⟨3, ![65, 3, 128]⟩
abbrev S1x3x128 : Shape := ⟨3, ![1, 3, 128]⟩
abbrev S3x128 : Shape := ⟨2, ![3, 128]⟩
abbrev S3x64 : Shape := ⟨2, ![3, 64]⟩
abbrev S_ : Shape := ⟨0, ![]⟩
abbrev S3x256 : Shape := ⟨2, ![3, 256]⟩
abbrev S6x256 : Shape := ⟨2, ![6, 256]⟩
abbrev S64x1x128 : Shape := ⟨3, ![64, 1, 128]⟩
abbrev S64x128 : Shape := ⟨2, ![64, 128]⟩
abbrev S64x64 : Shape := ⟨2, ![64, 64]⟩
abbrev S64x256 : Shape := ⟨2, ![64, 256]⟩
abbrev S128x256 : Shape := ⟨2, ![128, 256]⟩
abbrev S1x128x256 : Shape := ⟨3, ![1, 128, 256]⟩
abbrev S3x128x256 : Shape := ⟨3, ![3, 128, 256]⟩
abbrev S65x3x64 : Shape := ⟨3, ![65, 3, 64]⟩
abbrev S1x3x64 : Shape := ⟨3, ![1, 3, 64]⟩
abbrev S6x128 : Shape := ⟨2, ![6, 128]⟩
abbrev S64x1x64 : Shape := ⟨3, ![64, 1, 64]⟩
abbrev S128x128 : Shape := ⟨2, ![128, 128]⟩
abbrev S1x128x128 : Shape := ⟨3, ![1, 128, 128]⟩
abbrev S3x128x128 : Shape := ⟨3, ![3, 128, 128]⟩
abbrev S128x3x128 : Shape := ⟨3, ![128, 3, 128]⟩
abbrev S128x3x64 : Shape := ⟨3, ![128, 3, 64]⟩
abbrev S256 : Shape := ⟨1, ![256]⟩
abbrev S1x256 : Shape := ⟨2, ![1, 256]⟩
abbrev S1x128 : Shape := ⟨2, ![1, 128]⟩
abbrev S64x2 : Shape := ⟨2, ![64, 2]⟩
abbrev S128x2 : Shape := ⟨2, ![128, 2]⟩
abbrev S1x1 : Shape := ⟨2, ![1, 1]⟩
abbrev S512 : Shape := ⟨1, ![512]⟩
abbrev S512x1 : Shape := ⟨2, ![512, 1]⟩
abbrev S1x512 : Shape := ⟨2, ![1, 512]⟩
abbrev S512x64x1 : Shape := ⟨3, ![512, 64, 1]⟩
abbrev S512x64x3 : Shape := ⟨3, ![512, 64, 3]⟩
abbrev S64x512x3 : Shape := ⟨3, ![64, 512, 3]⟩
abbrev S1x64x512x64 : Shape := ⟨4, ![1, 64, 512, 64]⟩
abbrev S64x512x64 : Shape := ⟨3, ![64, 512, 64]⟩
abbrev S64x512x1 : Shape := ⟨3, ![64, 512, 1]⟩
abbrev S2x512x3 : Shape := ⟨3, ![2, 512, 3]⟩
abbrev S2x512x64 : Shape := ⟨3, ![2, 512, 64]⟩
abbrev S2x512x1 : Shape := ⟨3, ![2, 512, 1]⟩
abbrev S1x512x3 : Shape := ⟨3, ![1, 512, 3]⟩
abbrev S512x3 : Shape := ⟨2, ![512, 3]⟩
abbrev S512x6 : Shape := ⟨2, ![512, 6]⟩
abbrev S1x512x64 : Shape := ⟨3, ![1, 512, 64]⟩
abbrev S512x128 : Shape := ⟨2, ![512, 128]⟩
abbrev S512x256 : Shape := ⟨2, ![512, 256]⟩
abbrev S512x2 : Shape := ⟨2, ![512, 2]⟩
abbrev S1x512x1 : Shape := ⟨3, ![1, 512, 1]⟩
abbrev S64x32768 : Shape := ⟨2, ![64, 32768]⟩
abbrev S1x64x32768 : Shape := ⟨3, ![1, 64, 32768]⟩

abbrev nBuf : Space → Nat
  | .hbm => 247
  | .vmem => 33
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x64, .f32⟩
  | 14 => ⟨S2x64x512x64, .f32⟩
  | 15 => ⟨S65x3x128, .f32⟩
  | 16 => ⟨S1x3x128, .f32⟩
  | 17 => ⟨S3x128, .f32⟩
  | 18 => ⟨S3x64, .f32⟩
  | 19 => ⟨S3x64, .f32⟩
  | 20 => ⟨S_, .f32⟩
  | 21 => ⟨S3x64, .f32⟩
  | 22 => ⟨S3x256, .f32⟩
  | 23 => ⟨S3x256, .f32⟩
  | 24 => ⟨S6x256, .f32⟩
  | 25 => ⟨S64x1x128, .f32⟩
  | 26 => ⟨S64x128, .f32⟩
  | 27 => ⟨S64x64, .f32⟩
  | 28 => ⟨S64x64, .f32⟩
  | 29 => ⟨S_, .f32⟩
  | 30 => ⟨S64x64, .f32⟩
  | 31 => ⟨S64x256, .f32⟩
  | 32 => ⟨S64x256, .f32⟩
  | 33 => ⟨S128x256, .f32⟩
  | 34 => ⟨S64x1x128, .f32⟩
  | 35 => ⟨S64x128, .f32⟩
  | 36 => ⟨S64x64, .f32⟩
  | 37 => ⟨S64x64, .f32⟩
  | 38 => ⟨S_, .f32⟩
  | 39 => ⟨S64x64, .f32⟩
  | 40 => ⟨S64x256, .f32⟩
  | 41 => ⟨S64x256, .f32⟩
  | 42 => ⟨S128x256, .f32⟩
  | 43 => ⟨S64x1x128, .f32⟩
  | 44 => ⟨S64x128, .f32⟩
  | 45 => ⟨S64x64, .f32⟩
  | 46 => ⟨S64x64, .f32⟩
  | 47 => ⟨S_, .f32⟩
  | 48 => ⟨S64x64, .f32⟩
  | 49 => ⟨S64x256, .f32⟩
  | 50 => ⟨S64x256, .f32⟩
  | 51 => ⟨S128x256, .f32⟩
  | 52 => ⟨S1x128x256, .f32⟩
  | 53 => ⟨S1x128x256, .f32⟩
  | 54 => ⟨S1x128x256, .f32⟩
  | 55 => ⟨S3x128x256, .f32⟩
  | 56 => ⟨S65x3x64, .f32⟩
  | 57 => ⟨S1x3x64, .f32⟩
  | 58 => ⟨S3x64, .f32⟩
  | 59 => ⟨S_, .f32⟩
  | 60 => ⟨S3x64, .f32⟩
  | 61 => ⟨S3x128, .f32⟩
  | 62 => ⟨S3x128, .f32⟩
  | 63 => ⟨S6x128, .f32⟩
  | 64 => ⟨S64x1x64, .f32⟩
  | 65 => ⟨S64x64, .f32⟩
  | 66 => ⟨S_, .f32⟩
  | 67 => ⟨S64x64, .f32⟩
  | 68 => ⟨S64x128, .f32⟩
  | 69 => ⟨S64x128, .f32⟩
  | 70 => ⟨S128x128, .f32⟩
  | 71 => ⟨S64x1x64, .f32⟩
  | 72 => ⟨S64x64, .f32⟩
  | 73 => ⟨S_, .f32⟩
  | 74 => ⟨S64x64, .f32⟩
  | 75 => ⟨S64x128, .f32⟩
  | 76 => ⟨S64x128, .f32⟩
  | 77 => ⟨S128x128, .f32⟩
  | 78 => ⟨S64x1x64, .f32⟩
  | 79 => ⟨S64x64, .f32⟩
  | 80 => ⟨S_, .f32⟩
  | 81 => ⟨S64x64, .f32⟩
  | 82 => ⟨S64x128, .f32⟩
  | 83 => ⟨S64x128, .f32⟩
  | 84 => ⟨S128x128, .f32⟩
  | 85 => ⟨S1x128x128, .f32⟩
  | 86 => ⟨S1x128x128, .f32⟩
  | 87 => ⟨S1x128x128, .f32⟩
  | 88 => ⟨S3x128x128, .f32⟩
  | 89 => ⟨S128x3x128, .f32⟩
  | 90 => ⟨S64x1x128, .f32⟩
  | 91 => ⟨S64x128, .f32⟩
  | 92 => ⟨S64x64, .f32⟩
  | 93 => ⟨S64x64, .f32⟩
  | 94 => ⟨S_, .f32⟩
  | 95 => ⟨S64x64, .f32⟩
  | 96 => ⟨S64x256, .f32⟩
  | 97 => ⟨S64x256, .f32⟩
  | 98 => ⟨S128x256, .f32⟩
  | 99 => ⟨S64x1x128, .f32⟩
  | 100 => ⟨S64x128, .f32⟩
  | 101 => ⟨S64x64, .f32⟩
  | 102 => ⟨S64x64, .f32⟩
  | 103 => ⟨S_, .f32⟩
  | 104 => ⟨S64x64, .f32⟩
  | 105 => ⟨S64x256, .f32⟩
  | 106 => ⟨S64x256, .f32⟩
  | 107 => ⟨S128x256, .f32⟩
  | 108 => ⟨S64x1x128, .f32⟩
  | 109 => ⟨S64x128, .f32⟩
  | 110 => ⟨S64x64, .f32⟩
  | 111 => ⟨S64x64, .f32⟩
  | 112 => ⟨S_, .f32⟩
  | 113 => ⟨S64x64, .f32⟩
  | 114 => ⟨S64x256, .f32⟩
  | 115 => ⟨S64x256, .f32⟩
  | 116 => ⟨S128x256, .f32⟩
  | 117 => ⟨S1x128x256, .f32⟩
  | 118 => ⟨S1x128x256, .f32⟩
  | 119 => ⟨S1x128x256, .f32⟩
  | 120 => ⟨S3x128x256, .f32⟩
  | 121 => ⟨S64x1x128, .f32⟩
  | 122 => ⟨S64x128, .f32⟩
  | 123 => ⟨S64x64, .f32⟩
  | 124 => ⟨S64x64, .f32⟩
  | 125 => ⟨S_, .f32⟩
  | 126 => ⟨S64x64, .f32⟩
  | 127 => ⟨S64x256, .f32⟩
  | _ => ⟨S64x512, .f32⟩

abbrev hbmTy0_1 (i : Nat) : BufTy := match i % 128 with
  | 0 => ⟨S64x256, .f32⟩
  | 1 => ⟨S128x256, .f32⟩
  | 2 => ⟨S64x1x128, .f32⟩
  | 3 => ⟨S64x128, .f32⟩
  | 4 => ⟨S64x64, .f32⟩
  | 5 => ⟨S64x64, .f32⟩
  | 6 => ⟨S_, .f32⟩
  | 7 => ⟨S64x64, .f32⟩
  | 8 => ⟨S64x256, .f32⟩
  | 9 => ⟨S64x256, .f32⟩
  | 10 => ⟨S128x256, .f32⟩
  | 11 => ⟨S64x1x128, .f32⟩
  | 12 => ⟨S64x128, .f32⟩
  | 13 => ⟨S64x64, .f32⟩
  | 14 => ⟨S64x64, .f32⟩
  | 15 => ⟨S_, .f32⟩
  | 16 => ⟨S64x64, .f32⟩
  | 17 => ⟨S64x256, .f32⟩
  | 18 => ⟨S64x256, .f32⟩
  | 19 => ⟨S128x256, .f32⟩
  | 20 => ⟨S1x128x256, .f32⟩
  | 21 => ⟨S1x128x256, .f32⟩
  | 22 => ⟨S1x128x256, .f32⟩
  | 23 => ⟨S3x128x256, .f32⟩
  | 24 => ⟨S128x3x64, .f32⟩
  | 25 => ⟨S64x1x64, .f32⟩
  | 26 => ⟨S64x64, .f32⟩
  | 27 => ⟨S_, .f32⟩
  | 28 => ⟨S64x64, .f32⟩
  | 29 => ⟨S64x128, .f32⟩
  | 30 => ⟨S64x128, .f32⟩
  | 31 => ⟨S128x128, .f32⟩
  | 32 => ⟨S64x1x64, .f32⟩
  | 33 => ⟨S64x64, .f32⟩
  | 34 => ⟨S_, .f32⟩
  | 35 => ⟨S64x64, .f32⟩
  | 36 => ⟨S64x128, .f32⟩
  | 37 => ⟨S64x128, .f32⟩
  | 38 => ⟨S128x128, .f32⟩
  | 39 => ⟨S64x1x64, .f32⟩
  | 40 => ⟨S64x64, .f32⟩
  | 41 => ⟨S_, .f32⟩
  | 42 => ⟨S64x64, .f32⟩
  | 43 => ⟨S64x128, .f32⟩
  | 44 => ⟨S64x128, .f32⟩
  | 45 => ⟨S128x128, .f32⟩
  | 46 => ⟨S1x128x128, .f32⟩
  | 47 => ⟨S1x128x128, .f32⟩
  | 48 => ⟨S1x128x128, .f32⟩
  | 49 => ⟨S3x128x128, .f32⟩
  | 50 => ⟨S64x1x64, .f32⟩
  | 51 => ⟨S64x64, .f32⟩
  | 52 => ⟨S_, .f32⟩
  | 53 => ⟨S64x64, .f32⟩
  | 54 => ⟨S64x128, .f32⟩
  | 55 => ⟨S64x128, .f32⟩
  | 56 => ⟨S128x128, .f32⟩
  | 57 => ⟨S64x1x64, .f32⟩
  | 58 => ⟨S64x64, .f32⟩
  | 59 => ⟨S_, .f32⟩
  | 60 => ⟨S64x64, .f32⟩
  | 61 => ⟨S64x128, .f32⟩
  | 62 => ⟨S64x128, .f32⟩
  | 63 => ⟨S128x128, .f32⟩
  | 64 => ⟨S64x1x64, .f32⟩
  | 65 => ⟨S64x64, .f32⟩
  | 66 => ⟨S_, .f32⟩
  | 67 => ⟨S64x64, .f32⟩
  | 68 => ⟨S64x128, .f32⟩
  | 69 => ⟨S64x128, .f32⟩
  | 70 => ⟨S128x128, .f32⟩
  | 71 => ⟨S1x128x128, .f32⟩
  | 72 => ⟨S1x128x128, .f32⟩
  | 73 => ⟨S1x128x128, .f32⟩
  | 74 => ⟨S3x128x128, .f32⟩
  | 75 => ⟨S64, .f32⟩
  | 76 => ⟨S64, .f32⟩
  | 77 => ⟨S64, .f32⟩
  | 78 => ⟨S64, .f32⟩
  | 79 => ⟨S256, .f32⟩
  | 80 => ⟨S1x256, .f32⟩
  | 81 => ⟨S128, .f32⟩
  | 82 => ⟨S1x128, .f32⟩
  | 83 => ⟨S64, .f32⟩
  | 84 => ⟨S64, .f32⟩
  | 85 => ⟨S64, .f32⟩
  | 86 => ⟨S64, .f32⟩
  | 87 => ⟨S256, .f32⟩
  | 88 => ⟨S1x256, .f32⟩
  | 89 => ⟨S128, .f32⟩
  | 90 => ⟨S1x128, .f32⟩
  | 91 => ⟨S_, .f32⟩
  | 92 => ⟨S64x1, .f32⟩
  | 93 => ⟨S64x2, .f32⟩
  | 94 => ⟨S64x2, .f32⟩
  | 95 => ⟨S128x2, .f32⟩
  | 96 => ⟨S1x1, .f32⟩
  | 97 => ⟨S512x512, .f32⟩
  | 98 => ⟨S512x512, .f32⟩
  | 99 => ⟨S512x64, .f32⟩
  | 100 => ⟨S512x64, .f32⟩
  | 101 => ⟨S512x64x1, .f32⟩
  | 102 => ⟨S512x64x1, .f32⟩
  | 103 => ⟨S512x64x1, .f32⟩
  | 104 => ⟨S512x64x3, .f32⟩
  | 105 => ⟨S64x512x3, .f32⟩
  | 106 => ⟨S1x64x512x64, .f32⟩
  | 107 => ⟨S64x512x64, .f32⟩
  | 108 => ⟨S1x64x512x64, .f32⟩
  | 109 => ⟨S64x512x64, .f32⟩
  | 110 => ⟨S64x512x1, .f32⟩
  | 111 => ⟨S64x512x64, .f32⟩
  | 112 => ⟨S64x512x64, .f32⟩
  | 113 => ⟨S64x512, .f32⟩
  | 114 => ⟨S64x32768, .f32⟩
  | 115 => ⟨S64x32768, .f32⟩
  | 116 => ⟨S1x64x32768, .f32⟩
  | 117 => ⟨S1x64x32768, .f32⟩
  | 118 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x64, .f32⟩
  | .local _ .vmem, ⟨3, _⟩ => ⟨S512x512, .f32⟩
  | .local _ .vmem, ⟨4, _⟩ => ⟨S512x64, .f32⟩
  | .local _ .vmem, ⟨5, _⟩ => ⟨S512x64, .f32⟩
  | .local _ .vmem, ⟨6, _⟩ => ⟨S512x512, .f32⟩
  | .local _ .vmem, ⟨7, _⟩ => ⟨S2x512x3, .f32⟩
  | .local _ .vmem, ⟨8, _⟩ => ⟨S2x512x3, .f32⟩
  | .local _ .vmem, ⟨9, _⟩ => ⟨S2x512x64, .f32⟩
  | .local _ .vmem, ⟨10, _⟩ => ⟨S2x512x64, .f32⟩
  | .local _ .vmem, ⟨11, _⟩ => ⟨S2x512x64, .f32⟩
  | .local _ .vmem, ⟨12, _⟩ => ⟨S2x512x64, .f32⟩
  | .local _ .vmem, ⟨13, _⟩ => ⟨S6x256, .f32⟩
  | .local _ .vmem, ⟨14, _⟩ => ⟨S3x128x256, .f32⟩
  | .local _ .vmem, ⟨15, _⟩ => ⟨S1x256, .f32⟩
  | .local _ .vmem, ⟨16, _⟩ => ⟨S6x128, .f32⟩
  | .local _ .vmem, ⟨17, _⟩ => ⟨S3x128x128, .f32⟩
  | .local _ .vmem, ⟨18, _⟩ => ⟨S1x128, .f32⟩
  | .local _ .vmem, ⟨19, _⟩ => ⟨S3x128x256, .f32⟩
  | .local _ .vmem, ⟨20, _⟩ => ⟨S3x128x256, .f32⟩
  | .local _ .vmem, ⟨21, _⟩ => ⟨S1x256, .f32⟩
  | .local _ .vmem, ⟨22, _⟩ => ⟨S3x128x128, .f32⟩
  | .local _ .vmem, ⟨23, _⟩ => ⟨S3x128x128, .f32⟩
  | .local _ .vmem, ⟨24, _⟩ => ⟨S1x128, .f32⟩
  | .local _ .vmem, ⟨25, _⟩ => ⟨S128x2, .f32⟩
  | .local _ .vmem, ⟨26, _⟩ => ⟨S1x1, .f32⟩
  | .local _ .vmem, ⟨27, _⟩ => ⟨S2x512x1, .f32⟩
  | .local _ .vmem, ⟨28, _⟩ => ⟨S2x512x1, .f32⟩
  | .local _ .vmem, ⟨29, _⟩ => ⟨S2x512x64, .f32⟩
  | .local _ .vmem, ⟨30, _⟩ => ⟨S2x512x64, .f32⟩
  | .local _ .vmem, ⟨31, _⟩ => ⟨S2x512x64, .f32⟩
  | .local _ .vmem, ⟨32, _⟩ => ⟨S2x512x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_9 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_10 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_11 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_12 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_13 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_14 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_16 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_17 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_18 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_cst_19 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192_0 : Ref sig .tc := ⟨.hbm, 226, rfl⟩
abbrev main_v192_1 : Ref sig .tc := ⟨.hbm, 227, rfl⟩
abbrev main_v192_2 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202_0 : Ref sig .tc := ⟨.hbm, 238, rfl⟩
abbrev main_v202_1 : Ref sig .tc := ⟨.hbm, 239, rfl⟩
abbrev main_v202_2 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg18_1 : Ref sig .tc := ⟨.vmem, 28, rfl⟩
abbrev cc1_stg19_0 : Ref sig .tc := ⟨.vmem, 29, rfl⟩
abbrev cc1_stg19_1 : Ref sig .tc := ⟨.vmem, 30, rfl⟩
abbrev cc1_stg20_0 : Ref sig .tc := ⟨.vmem, 31, rfl⟩
abbrev cc1_stg20_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem18_1 : DmaSem sig := 28
abbrev cc1_sem19_0 : DmaSem sig := 29
abbrev cc1_sem19_1 : DmaSem sig := 30
abbrev cc1_sem20_0 : DmaSem sig := 31
abbrev cc1_sem20_1 : DmaSem sig := 32

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S6x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S6x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S3x128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S3x128x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x2 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2x512x1 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S2x512x64 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S2x512x64 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

class Facts₀ : Prop where
  transposes_S64x512_S512x64_1_0 : S64x512.Transposes [1, 0] S512x64
  shapeCasts_S2x64x32768_S2x64x512x64 : S2x64x32768.ShapeCasts S2x64x512x64
  shapeCasts_S195x128_S65x3x128 : S195x128.ShapeCasts S65x3x128
  slices_S65x3x128_S1x3x128_0_0_0 : S65x3x128.Slices ![0, 0, 0] S1x3x128
  shapeCasts_S1x3x128_S3x128 : S1x3x128.ShapeCasts S3x128
  slices_S3x128_S3x64_0_0 : S3x128.Slices ![0, 0] S3x64
  slices_S3x128_S3x64_0_64 : S3x128.Slices ![0, 64] S3x64
  bcast_S_S3x64 : S_.BroadcastsInDim S3x64 (![] : Fin 0 → Fin S3x64.rank)
  concatenates_S3x64_S3x64_S3x64_S3x64_S3x256_d1 : Shape.Concatenates [S3x64, S3x64, S3x64, S3x64] S3x256 1
  concatenates_S3x256_S3x256_S6x256_d0 : Shape.Concatenates [S3x256, S3x256] S6x256 0
  slices_S65x3x128_S64x1x128_1_0_0 : S65x3x128.Slices ![1, 0, 0] S64x1x128
  shapeCasts_S64x1x128_S64x128 : S64x1x128.ShapeCasts S64x128
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S128x256_d0 : Shape.Concatenates [S64x256, S64x256] S128x256 0
  slices_S65x3x128_S64x1x128_1_1_0 : S65x3x128.Slices ![1, 1, 0] S64x1x128
  slices_S65x3x128_S64x1x128_1_2_0 : S65x3x128.Slices ![1, 2, 0] S64x1x128
  bcast_S128x256_S1x128x256_1_2 : S128x256.BroadcastsInDim S1x128x256 (![1, 2] : Fin 2 → Fin S1x128x256.rank)
  concatenates_S1x128x256_S1x128x256_S1x128x256_S3x128x256_d0 : Shape.Concatenates [S1x128x256, S1x128x256, S1x128x256] S3x128x256 0
  shapeCasts_S195x64_S65x3x64 : S195x64.ShapeCasts S65x3x64
  slices_S65x3x64_S1x3x64_0_0_0 : S65x3x64.Slices ![0, 0, 0] S1x3x64
  shapeCasts_S1x3x64_S3x64 : S1x3x64.ShapeCasts S3x64
  concatenates_S3x64_S3x64_S3x128_d1 : Shape.Concatenates [S3x64, S3x64] S3x128 1
  concatenates_S3x128_S3x128_S6x128_d0 : Shape.Concatenates [S3x128, S3x128] S6x128 0
  slices_S65x3x64_S64x1x64_1_0_0 : S65x3x64.Slices ![1, 0, 0] S64x1x64
  shapeCasts_S64x1x64_S64x64 : S64x1x64.ShapeCasts S64x64
  concatenates_S64x64_S64x64_S64x128_d1 : Shape.Concatenates [S64x64, S64x64] S64x128 1
  concatenates_S64x128_S64x128_S128x128_d0 : Shape.Concatenates [S64x128, S64x128] S128x128 0
  slices_S65x3x64_S64x1x64_1_1_0 : S65x3x64.Slices ![1, 1, 0] S64x1x64
  slices_S65x3x64_S64x1x64_1_2_0 : S65x3x64.Slices ![1, 2, 0] S64x1x64
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  shapeCasts_S384x128_S128x3x128 : S384x128.ShapeCasts S128x3x128
  slices_S128x3x128_S64x1x128_0_0_0 : S128x3x128.Slices ![0, 0, 0] S64x1x128
  slices_S128x3x128_S64x1x128_0_1_0 : S128x3x128.Slices ![0, 1, 0] S64x1x128
  slices_S128x3x128_S64x1x128_0_2_0 : S128x3x128.Slices ![0, 2, 0] S64x1x128
  slices_S128x3x128_S64x1x128_64_0_0 : S128x3x128.Slices ![64, 0, 0] S64x1x128
  slices_S128x3x128_S64x1x128_64_1_0 : S128x3x128.Slices ![64, 1, 0] S64x1x128
  slices_S128x3x128_S64x1x128_64_2_0 : S128x3x128.Slices ![64, 2, 0] S64x1x128
  shapeCasts_S384x64_S128x3x64 : S384x64.ShapeCasts S128x3x64
  slices_S128x3x64_S64x1x64_0_0_0 : S128x3x64.Slices ![0, 0, 0] S64x1x64
  slices_S128x3x64_S64x1x64_0_1_0 : S128x3x64.Slices ![0, 1, 0] S64x1x64
  slices_S128x3x64_S64x1x64_0_2_0 : S128x3x64.Slices ![0, 2, 0] S64x1x64
  slices_S128x3x64_S64x1x64_64_0_0 : S128x3x64.Slices ![64, 0, 0] S64x1x64
  slices_S128x3x64_S64x1x64_64_1_0 : S128x3x64.Slices ![64, 1, 0] S64x1x64
  slices_S128x3x64_S64x1x64_64_2_0 : S128x3x64.Slices ![64, 2, 0] S64x1x64
  slices_S128_S64_0 : S128.Slices ![0] S64
  slices_S128_S64_64 : S128.Slices ![64] S64
  concatenates_S64_S64_S64_S64_S256_d0 : Shape.Concatenates [S64, S64, S64, S64] S256 0
  shapeCasts_S256_S1x256 : S256.ShapeCasts S1x256
  concatenates_S64_S64_S128_d0 : Shape.Concatenates [S64, S64] S128 0
  shapeCasts_S128_S1x128 : S128.ShapeCasts S1x128
  bcast_S_S64x1 : S_.BroadcastsInDim S64x1 (![] : Fin 0 → Fin S64x1.rank)
  concatenates_S64x1_S64x1_S64x2_d1 : Shape.Concatenates [S64x1, S64x1] S64x2 1
  concatenates_S64x2_S64x2_S128x2_d0 : Shape.Concatenates [S64x2, S64x2] S128x2 0
  shapeCasts_S1_S1x1 : S1.ShapeCasts S1x1
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bcast_S512x64_S512x64x1_0_1 : S512x64.BroadcastsInDim S512x64x1 (![0, 1] : Fin 2 → Fin S512x64x1.rank)
  concatenates_S512x64x1_S512x64x1_S512x64x1_S512x64x3_d2 : Shape.Concatenates [S512x64x1, S512x64x1, S512x64x1] S512x64x3 2
  transposes_S512x64x3_S64x512x3_1_0_2 : S512x64x3.Transposes [1, 0, 2] S64x512x3
  slices_S2x64x512x64_S1x64x512x64_0_0_0_0 : S2x64x512x64.Slices ![0, 0, 0, 0] S1x64x512x64
  shapeCasts_S1x64x512x64_S64x512x64 : S1x64x512x64.ShapeCasts S64x512x64
  slices_S2x64x512x64_S1x64x512x64_1_0_0_0 : S2x64x512x64.Slices ![1, 0, 0, 0] S1x64x512x64
  inb_S2x512x3_S1x512x3_0_0_0 : ∀ a, (![0, 0, 0] : Fin 3 → Nat) a + S1x512x3.size a ≤ S2x512x3.size a
  h_S1x512x3 : 0 < S1x512x3.numel
  shapeCasts_S1x512x3_S512x3 : S1x512x3.ShapeCasts S512x3
  inb_S2x512x3_S1x512x3_1_0_0 : ∀ a, (![1, 0, 0] : Fin 3 → Nat) a + S1x512x3.size a ≤ S2x512x3.size a
  concatenates_S512x3_S512x3_S512x6_d1 : Shape.Concatenates [S512x3, S512x3] S512x6 1
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  inb_S2x512x64_S1x512x64_1_0_0 : ∀ a, (![1, 0, 0] : Fin 3 → Nat) a + S1x512x64.size a ≤ S2x512x64.size a
  concatenates_S512x64_S512x64_S512x128_d1 : Shape.Concatenates [S512x64, S512x64] S512x128 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S6x256_S6x256_0_0 : ∀ a, (![0, 0] : Fin 2 → Nat) a + S6x256.size a ≤ S6x256.size a
  h_S6x256 : 0 < S6x256.numel
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S512x128_o0_0_S512x64 : S512x128.Slices ![0, 0] S512x64
  shapeCasts_S512x64_S1x512x64 : S512x64.ShapeCasts S1x512x64
  slices_S512x128_o0_64_S512x64 : S512x128.Slices ![0, 64] S512x64
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  slices_S512x2_o0_0_S512x1 : S512x2.Slices ![0, 0] S512x1
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  shapeCasts_S512x1_S1x512x1 : S512x1.ShapeCasts S1x512x1
  slices_S512x2_o0_1_S512x1 : S512x2.Slices ![0, 1] S512x1
  inb_S2x512x1_S1x512x1_1_0_0 : ∀ a, (![1, 0, 0] : Fin 3 → Nat) a + S1x512x1.size a ≤ S2x512x1.size a
  shapeCasts_S64x512x1_S64x512 : S64x512x1.ShapeCasts S64x512
  shapeCasts_S64x512x64_S64x32768 : S64x512x64.ShapeCasts S64x32768
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x64_S512x64_1_0_0_1_n_n_wf : DotDims.WF S512x512 S512x64 S512x64 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x3.size a ≤ S64x512x3.size a
  hwx1_1 : ∀ i : grid1.Coords, EltTy.bits .f32 = 32 ∨ (Rect.block (s := S64x512x3) S2x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x64.size a ≤ S64x512x64.size a
  hwx1_2 : ∀ i : grid1.Coords, EltTy.bits .f32 = 32 ∨ (Rect.block (s := S64x512x64) S2x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x64.size a ≤ S64x512x64.size a
  hwx1_3 : ∀ i : grid1.Coords, EltTy.bits .f32 = 32 ∨ (Rect.block (s := S64x512x64) S2x512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6x256.size a ≤ S6x256.size a
  hwx1_4 : ∀ i : grid1.Coords, EltTy.bits .f32 = 32 ∨ (Rect.block (s := S6x256) S6x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x256.size a ≤ S3x128x256.size a
  hwx1_5 : ∀ i : grid1.Coords, EltTy.bits .f32 = 32 ∨ (Rect.block (s := S3x128x256) S3x128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S6x128.size a ≤ S6x128.size a
  hwx1_7 : ∀ i : grid1.Coords, EltTy.bits .f32 = 32 ∨ (Rect.block (s := S6x128) S6x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x128x128.size a ≤ S3x128x128.size a
  hwx1_8 : ∀ i : grid1.Coords, EltTy.bits .f32 = 32 ∨ (Rect.block (s := S3x128x128) S3x128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .f32 = 32 ∨ (Rect.block (s := S3x128x256) S3x128x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S3x128x256.size a ≤ S3x128x256.size a
  hwx1_11 : ∀ i : grid1.Coords, EltTy.bits .f32 = 32 ∨ (Rect.block (s := S3x128x256) S3x128x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .f32 = 32 ∨ (Rect.block (s := S3x128x128) S3x128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S3x128x128.size a ≤ S3x128x128.size a
  hwx1_14 : ∀ i : grid1.Coords, EltTy.bits .f32 = 32 ∨ (Rect.block (s := S3x128x128) S3x128x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128x2.size a ≤ S128x2.size a
  hwx1_16 : ∀ i : grid1.Coords, EltTy.bits .f32 = 32 ∨ (Rect.block (s := S128x2) S128x2.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x512x1.size a ≤ S64x512x1.size a
  hwx1_18 : ∀ i : grid1.Coords, EltTy.bits .f32 = 32 ∨ (Rect.block (s := S64x512x1) S2x512x1.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S2x512x64.size a ≤ S64x512x64.size a
  hwx1_19 : ∀ i : grid1.Coords, EltTy.bits .f32 = 32 ∨ (Rect.block (s := S64x512x64) S2x512x64.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S2x512x64.size a ≤ S64x512x64.size a
  hwx1_20 : ∀ i : grid1.Coords, EltTy.bits .f32 = 32 ∨ (Rect.block (s := S64x512x64) S2x512x64.size (cc1_transform_20 i) (hinb1_20 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v191) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v192_0) true false (stage0_3 0) (sem0_3 0) (Memref.isWhole_whole _) (hstage0_3 0)

abbrev win0_4 : Pipeline.Window sig grid0 :=
  Pipeline.Window.whole (Memref.whole main_v192_1) true false (stage0_4 0) (sem0_4 0) (Memref.isWhole_whole _) (hstage0_4 0)

abbrev win0_5 : Pipeline.Window sig grid0 :=
  Pipeline.Window.whole (Memref.whole main_v192_2) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v192_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v197) S2x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v199) S2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v201) S2x512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S6x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S3x128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v175) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S6x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v67) S3x128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v177) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v96) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v124) S3x128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v183) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v147) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v169) S3x128x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v185) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v189) S128x2.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v190) S1x1.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v202_0) S2x512x1.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v202_1) S2x512x64.size cc1_transform_19 reads1_19 true false 2 stage1_19 sem1_19
    hrank1 hreads1_19 hinb1_19 nbuf1_19 (Memref.isWhole_whole _) hwx1_19 hstage1_19

abbrev win1_20 : Pipeline.Window sig grid1 :=
  Pipeline.Window.ofSpec (Memref.whole main_v202_2) S2x512x64.size cc1_transform_20 reads1_20 true false 2 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.KB.Region0.lean ====
import proofs.«156303_g19069654794669_cont_sun_m_30_8_alg».proof.Proof.Gen.Kernel.Launch
import proofs.«156303_g19069654794669_cont_sun_m_30_8_alg».proof.Proof.Gen.Kernel.Skeleton
import proofs.«156303_g19069654794669_cont_sun_m_30_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x512 := Rect.unit (s := S512x512) ![0, 0] S512x512.size inb_S512x512_S512x512_0_0
abbrev rB : Rect S512x64 := Rect.unit (s := S512x64) ![0, 0] S512x64.size inb_S512x64_S512x64_0_0

def out0_3 (x0 : Vec F S512x512 .f32) (x1 : Vec F S512x512 .f32) : Vec F S512x512 .f32 :=
  View.canon [⟨rA, k0_pay2 (View.ld x0 rA) (View.ld x1 rA)⟩]
def out0_4 (x0 : Vec F S512x512 .f32) (x1 : Vec F S512x512 .f32) (x2 : Vec F S512x64 .f32) : Vec F S512x64 .f32 :=
  View.canon [⟨rB, k0_pay4 (View.ld x0 rA) (View.ld x1 rA) (View.ld x2 rB)⟩]
def out0_5 (x0 : Vec F S512x512 .f32) (x1 : Vec F S512x512 .f32) (x2 : Vec F S512x64 .f32) : Vec F S512x64 .f32 :=
  View.canon [⟨rB, k0_pay1 (k0_pay3 (View.ld x2 rB)) (k0_pay5 (View.ld x0 rA) (View.ld x1 rA) (View.ld x2 rB))⟩]

set_option maxHeartbeats 4000000 in
theorem sound_kernel0 (c : Dev nD) (E : Set ℕ)
    (arg0 : Memref sig .tc .vmem S512x512 .f32) (harg0 : arg0.IsWhole) (arg1 : Memref sig .tc .vmem S512x512 .f32) (harg1 : arg1.IsWhole)
    (arg2 : Memref sig .tc .vmem S512x64 .f32) (harg2 : arg2.IsWhole) (arg3 : Memref sig .tc .vmem S512x512 .f32) (harg3 : arg3.IsWhole)
    (arg4 : Memref sig .tc .vmem S512x64 .f32) (harg4 : arg4.IsWhole) (arg5 : Memref sig .tc .vmem S512x64 .f32) (harg5 : arg5.IsWhole)
    (x0 : Vec F S512x512 .f32) (x1 : Vec F S512x512 .f32) (x2 : Vec F S512x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1) ∗ owns (c : Thread nD τ) arg4 fullShare (out0_4 x0 x1 x2)
            ∗ owns (c : Thread nD τ) arg5 fullShare (out0_5 x0 x1 x2)) -∗ K ⟨⟩))
      ⊢ wp frame (wpE (defs₀ (F := F)) Variants.none c none) E (cc0__prep_kernel arg0 harg0 arg1 harg1 arg2 harg2 arg3 harg3 arg4 harg4 arg5 harg5) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]
  · iexists _; isplitr
    swap; · iexact H3
    ipureintro
    try dsimp only
    exact View.read_writes_eq_canon _ _ _ (View.cover_of_tiled _ S512x512.size (by rfl))
  isplitl [H4]
  · iexists _; isplitr
    swap; · iexact H4
    ipureintro
    try dsimp only
    exact View.read_writes_eq_canon _ _ _ (View.cover_of_tiled _ S512x64.size (by rfl))
  iexists _; isplitr
  swap; · iexact H5
  ipureintro
  try dsimp only
  exact View.read_writes_eq_canon _ _ _ (View.cover_of_tiled _ S512x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) (w : Fin cfg0.W) (hw : w.val < 3) (d) :
    (dat0 V c).before w t d = (dat0 V c).fetched w t d := by
  fin_cases w <;> first
    | exact absurd hw (by decide)
    | exact (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp (disch := decide) only [before0 V c t]
  rw [show (dat0 V c).Φ t.succ = (dat0 V c).Φ t.castSucc from rfl,
    show (dat0 V c).owesAt () t.succ = (dat0 V c).owesAt () t.castSucc from rfl, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro H
  isplitl [HΦ]; · iexact HΦ
  isplitl [Ho]; · iexact Ho
  iexact H

end Cert.Kernel.Hand

end
-- ==== Proof.KB.Out1.lean ====
import proofs.«156303_g19069654794669_cont_sun_m_30_8_alg».proof.Proof.Gen.Kernel.Launch
import proofs.«156303_g19069654794669_cont_sun_m_30_8_alg».proof.Proof.Gen.Kernel.Skeleton
import proofs.«156303_g19069654794669_cont_sun_m_30_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev qS : Rect S512x512 := Rect.unit (s := S512x512) ![0, 0] S512x512.size inb_S512x512_S512x512_0_0
abbrev qA0 : Rect S2x512x3 := Rect.unit (s := S2x512x3) ![0, 0, 0] S1x512x3.size inb_S2x512x3_S1x512x3_0_0_0
abbrev qA1 : Rect S2x512x3 := Rect.unit (s := S2x512x3) ![1, 0, 0] S1x512x3.size inb_S2x512x3_S1x512x3_1_0_0
abbrev qH0 : Rect S2x512x64 := Rect.unit (s := S2x512x64) ![0, 0, 0] S1x512x64.size inb_S2x512x64_S1x512x64_0_0_0
abbrev qH1 : Rect S2x512x64 := Rect.unit (s := S2x512x64) ![1, 0, 0] S1x512x64.size inb_S2x512x64_S1x512x64_1_0_0
abbrev qB256 : Rect S1x256 := Rect.unit (s := S1x256) ![0, 0] S1x256.size inb_S1x256_S1x256_0_0
abbrev qB128 : Rect S1x128 := Rect.unit (s := S1x128) ![0, 0] S1x128.size inb_S1x128_S1x128_0_0
abbrev qW6x256 : Rect S6x256 := Rect.unit (s := S6x256) ![0, 0] S6x256.size inb_S6x256_S6x256_0_0
abbrev qW6x128 : Rect S6x128 := Rect.unit (s := S6x128) ![0, 0] S6x128.size inb_S6x128_S6x128_0_0
abbrev qR0 : Rect S3x128x256 := Rect.unit (s := S3x128x256) ![0, 0, 0] S1x128x256.size inb_S3x128x256_S1x128x256_0_0_0
abbrev qR1 : Rect S3x128x256 := Rect.unit (s := S3x128x256) ![1, 0, 0] S1x128x256.size inb_S3x128x256_S1x128x256_1_0_0
abbrev qR2 : Rect S3x128x256 := Rect.unit (s := S3x128x256) ![2, 0, 0] S1x128x256.size inb_S3x128x256_S1x128x256_2_0_0
abbrev qC0 : Rect S3x128x128 := Rect.unit (s := S3x128x128) ![0, 0, 0] S1x128x128.size inb_S3x128x128_S1x128x128_0_0_0
abbrev qC1 : Rect S3x128x128 := Rect.unit (s := S3x128x128) ![1, 0, 0] S1x128x128.size inb_S3x128x128_S1x128x128_1_0_0
abbrev qC2 : Rect S3x128x128 := Rect.unit (s := S3x128x128) ![2, 0, 0] S1x128x128.size inb_S3x128x128_S1x128x128_2_0_0
abbrev qP : Rect S128x2 := Rect.unit (s := S128x2) ![0, 0] S128x2.size inb_S128x2_S128x2_0_0
abbrev qQ : Rect S1x1 := Rect.unit (s := S1x1) ![0, 0] S1x1.size inb_S1x1_S1x1_0_0
abbrev qO0 : Rect S2x512x1 := Rect.unit (s := S2x512x1) ![0, 0, 0] S1x512x1.size inb_S2x512x1_S1x512x1_0_0_0
abbrev qO1 : Rect S2x512x1 := Rect.unit (s := S2x512x1) ![1, 0, 0] S1x512x1.size inb_S2x512x1_S1x512x1_1_0_0

section Values
variable (x0 : Vec F S512x512 .f32) (x1 : Vec F S2x512x3 .f32) (x2 x3 : Vec F S2x512x64 .f32) (x4 : Vec F S6x256 .f32)
  (x5 : Vec F S3x128x256 .f32) (x6 : Vec F S1x256 .f32) (x7 : Vec F S6x128 .f32) (x8 : Vec F S3x128x128 .f32) (x9 : Vec F S1x128 .f32)
  (x10 x11 : Vec F S3x128x256 .f32) (x12 : Vec F S1x256 .f32) (x13 x14 : Vec F S3x128x128 .f32) (x15 : Vec F S1x128 .f32)
  (x16 : Vec F S128x2 .f32) (x17 : Vec F S1x1 .f32)

abbrev bS : FVec F S512x512 .f32 := k1_pay6 (View.ld x0 qS)
abbrev bA : FVec F S512x6 .f32 := k1_pay7 (View.ld x1 qA0) (View.ld x1 qA1)
abbrev bH : FVec F S512x128 .f32 := k1_pay8 (View.ld x2 qH0) (View.ld x2 qH1)
abbrev bV27 : FVec F S512x256 .f32 :=
  k1_pay10 (View.ld x0 qS) (View.ld x1 qA0) (View.ld x1 qA1) (View.ld x2 qH0) (View.ld x2 qH1) (View.ld x6 qB256) (View.ld x4 qW6x256) (View.ld x5 qR0) (View.ld x5 qR1)
abbrev bV28 : FVec F S512x128 .f32 := k1_pay11 (View.ld x0 qS) (View.ld x2 qH0) (View.ld x2 qH1)
abbrev bTwo : F .f32 := Scalar.ofBits .f32 0x40000000#32
abbrev bV38 : FVec F S512x128 .f32 := k1_pay13 (bH x2) (bV27 x0 x1 x2 x4 x5 x6) (bV28 x0 x2) bTwo (View.ld x5 qR2)
abbrev bV64 : FVec F S512x128 .f32 :=
  k1_pay14 (bS x0) (bA x1) (bH x2) (bV27 x0 x1 x2 x4 x5 x6) (bV28 x0 x2) bTwo (View.ld x5 qR2) (View.ld x9 qB128) (View.ld x7 qW6x128) (View.ld x8 qC0) (View.ld x8 qC1) (View.ld x8 qC2)
abbrev bV69 : FVec F S512x128 .f32 := k1_pay15 (bH x2) (bV38 x0 x1 x2 x4 x5 x6) (bV64 x0 x1 x2 x4 x5 x6 x7 x8 x9)
abbrev bK : FVec F S512x128 .f32 := k1_pay18 (View.ld x3 qH0) (View.ld x3 qH1)
abbrev bV93 : FVec F S512x256 .f32 :=
  k1_pay19 (bH x2) (bV38 x0 x1 x2 x4 x5 x6) (bV64 x0 x1 x2 x4 x5 x6 x7 x8 x9) (View.ld x3 qH0) (View.ld x3 qH1) (View.ld x12 qB256) (View.ld x10 qR0) (View.ld x11 qR0)
abbrev bV94 : FVec F S512x128 .f32 := k1_pay20 (bS x0) (bH x2) (bV38 x0 x1 x2 x4 x5 x6) (bV64 x0 x1 x2 x4 x5 x6 x7 x8 x9)
abbrev bV107 : FVec F S512x128 .f32 := k1_pay21 (bS x0) (bV69 x0 x1 x2 x4 x5 x6 x7 x8 x9) (bV94 x0 x1 x2 x4 x5 x6 x7 x8 x9)
abbrev bV122 : FVec F S512x128 .f32 :=
  k1_pay23 (bS x0) (bV69 x0 x1 x2 x4 x5 x6 x7 x8 x9) (bK x3) (bV93 x0 x1 x2 x3 x4 x5 x6 x7 x8 x9 x10 x11 x12) (bV94 x0 x1 x2 x4 x5 x6 x7 x8 x9)
    (View.ld x10 qR1) (View.ld x11 qR1) (View.ld x10 qR2) (View.ld x11 qR2)
abbrev bV123 : FVec F S512x128 .f32 :=
  k1_pay24 (bS x0) (bV69 x0 x1 x2 x4 x5 x6 x7 x8 x9) (bK x3) (bV93 x0 x1 x2 x3 x4 x5 x6 x7 x8 x9 x10 x11 x12) (bV94 x0 x1 x2 x4 x5 x6 x7 x8 x9)
    (View.ld x10 qR1) (View.ld x11 qR1) (View.ld x10 qR2) (View.ld x11 qR2)
abbrev bV130 : FVec F S512x128 .f32 := k1_pay25 (bV69 x0 x1 x2 x4 x5 x6 x7 x8 x9) (View.ld x15 qB128) (View.ld x13 qC0)
abbrev bV161 : FVec F S512x128 .f32 :=
  k1_pay26 (bS x0) (bK x3) (bV94 x0 x1 x2 x4 x5 x6 x7 x8 x9) (bV107 x0 x1 x2 x4 x5 x6 x7 x8 x9)
    (bV122 x0 x1 x2 x3 x4 x5 x6 x7 x8 x9 x10 x11 x12) (bV123 x0 x1 x2 x3 x4 x5 x6 x7 x8 x9 x10 x11 x12) (bV130 x0 x1 x2 x4 x5 x6 x7 x8 x9 x13 x15)
    (View.ld x13 qC1) (View.ld x13 qC2) (View.ld x14 qC0) (View.ld x14 qC1) (View.ld x14 qC2)
abbrev bV162 : FVec F S512x64 .f32 :=
  k1_pay27 (bS x0) (bK x3) (bV94 x0 x1 x2 x4 x5 x6 x7 x8 x9) (bV107 x0 x1 x2 x4 x5 x6 x7 x8 x9)
    (bV122 x0 x1 x2 x3 x4 x5 x6 x7 x8 x9 x10 x11 x12) (bV123 x0 x1 x2 x3 x4 x5 x6 x7 x8 x9 x10 x11 x12) (bV130 x0 x1 x2 x4 x5 x6 x7 x8 x9 x13 x15)
    (View.ld x13 qC1) (View.ld x13 qC2) (View.ld x14 qC0) (View.ld x14 qC1) (View.ld x14 qC2)

def out1_18 : Vec F S2x512x1 .f32 :=
  View.canon [⟨qO1, k1_pay5 (bV161 x0 x1 x2 x3 x4 x5 x6 x7 x8 x9 x10 x11 x12 x13 x14 x15) (View.ld x16 qP) (View.ld x17 qQ)⟩,
    ⟨qO0, k1_pay4 (bV161 x0 x1 x2 x3 x4 x5 x6 x7 x8 x9 x10 x11 x12 x13 x14 x15) (View.ld x16 qP) (View.ld x17 qQ)⟩]
def out1_19 : Vec F S2x512x64 .f32 :=
  View.canon [⟨qH1, k1_pay17 (bH x2) (bV38 x0 x1 x2 x4 x5 x6) (bV64 x0 x1 x2 x4 x5 x6 x7 x8 x9)⟩,
    ⟨qH0, k1_pay16 (bH x2) (bV38 x0 x1 x2 x4 x5 x6) (bV64 x0 x1 x2 x4 x5 x6 x7 x8 x9)⟩]
def out1_20 : Vec F S2x512x64 .f32 :=
  View.canon [⟨qH1, k1_pay2 (bV161 x0 x1 x2 x3 x4 x5 x6 x7 x8 x9 x10 x11 x12 x13 x14 x15)⟩,
    ⟨qH0, k1_pay1 (bV162 x0 x1 x2 x3 x4 x5 x6 x7 x8 x9 x10 x11 x12 x13 x14 x15)⟩]

end Values

end Cert.Kernel.Hand

end
-- ==== Proof.KB.Region1.lean ====
import proofs.«156303_g19069654794669_cont_sun_m_30_8_alg».proof.Proof.KB.Out1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

set_option maxHeartbeats 40000000 in
theorem sound_kernel1 (c : Dev nD) (E : Set ℕ) (i : grid1.Coords) (arg1 : Memref sig .tc .vmem S512x512 .f32) (harg1 : arg1.IsWhole) (arg2 : Memref sig .tc .vmem S2x512x3 .f32) (harg2 : arg2.IsWhole) (arg3 : Memref sig .tc .vmem S2x512x64 .f32) (harg3 : arg3.IsWhole) (arg4 : Memref sig .tc .vmem S2x512x64 .f32) (harg4 : arg4.IsWhole) (arg5 : Memref sig .tc .vmem S6x256 .f32) (harg5 : arg5.IsWhole) (arg6 : Memref sig .tc .vmem S3x128x256 .f32) (harg6 : arg6.IsWhole) (arg7 : Memref sig .tc .vmem S1x256 .f32) (harg7 : arg7.IsWhole) (arg8 : Memref sig .tc .vmem S6x128 .f32) (harg8 : arg8.IsWhole) (arg9 : Memref sig .tc .vmem S3x128x128 .f32) (harg9 : arg9.IsWhole) (arg10 : Memref sig .tc .vmem S1x128 .f32) (harg10 : arg10.IsWhole) (arg11 : Memref sig .tc .vmem S3x128x256 .f32) (harg11 : arg11.IsWhole) (arg12 : Memref sig .tc .vmem S3x128x256 .f32) (harg12 : arg12.IsWhole) (arg13 : Memref sig .tc .vmem S1x256 .f32) (harg13 : arg13.IsWhole) (arg14 : Memref sig .tc .vmem S3x128x128 .f32) (harg14 : arg14.IsWhole) (arg15 : Memref sig .tc .vmem S3x128x128 .f32) (harg15 : arg15.IsWhole) (arg16 : Memref sig .tc .vmem S1x128 .f32) (harg16 : arg16.IsWhole) (arg17 : Memref sig .tc .vmem S128x2 .f32) (harg17 : arg17.IsWhole) (arg18 : Memref sig .tc .vmem S1x1 .f32) (harg18 : arg18.IsWhole) (arg19 : Memref sig .tc .vmem S2x512x1 .f32) (harg19 : arg19.IsWhole) (arg20 : Memref sig .tc .vmem S2x512x64 .f32) (harg20 : arg20.IsWhole) (arg21 : Memref sig .tc .vmem S2x512x64 .f32) (harg21 : arg21.IsWhole)
    (x0 : Vec F S512x512 .f32) (x1 : Vec F S2x512x3 .f32) (x2 : Vec F S2x512x64 .f32) (x3 : Vec F S2x512x64 .f32) (x4 : Vec F S6x256 .f32) (x5 : Vec F S3x128x256 .f32) (x6 : Vec F S1x256 .f32) (x7 : Vec F S6x128 .f32) (x8 : Vec F S3x128x128 .f32) (x9 : Vec F S1x128 .f32) (x10 : Vec F S3x128x256 .f32) (x11 : Vec F S3x128x256 .f32) (x12 : Vec F S1x256 .f32) (x13 : Vec F S3x128x128 .f32) (x14 : Vec F S3x128x128 .f32) (x15 : Vec F S1x128 .f32) (x16 : Vec F S128x2 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (out1_18 x0 x1 x2 x3 x4 x5 x6 x7 x8 x9 x10 x11 x12 x13 x14 x15 x16 x17) ∗ owns (c : Thread nD τ) arg20 fullShare (out1_19 x0 x1 x2 x4 x5 x6 x7 x8 x9) ∗ owns (c : Thread nD τ) arg21 fullShare (out1_20 x0 x1 x2 x3 x4 x5 x6 x7 x8 x9 x10 x11 x12 x13 x14 x15)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__main_kernel_eq_skeleton]; unfold cc1__main_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  isplitl [H10]; · iexists f10; iframe H10; ipureintro; rfl
  isplitl [H11]; · iexists f11; iframe H11; ipureintro; rfl
  isplitl [H12]; · iexists f12; iframe H12; ipureintro; rfl
  isplitl [H13]; · iexists f13; iframe H13; ipureintro; rfl
  isplitl [H14]; · iexists f14; iframe H14; ipureintro; rfl
  isplitl [H15]; · iexists f15; iframe H15; ipureintro; rfl
  isplitl [H16]; · iexists f16; iframe H16; ipureintro; rfl
  isplitl [H17]; · iexists f17; iframe H17; ipureintro; rfl
  isplitl [H18]
  · iexists _; isplitr
    swap; · iexact H18
    ipureintro
    try dsimp only
    exact View.read_writes_eq_canon _ _ _ (View.cover_of_tiled _ S1x512x1.size (by rfl))
  isplitl [H19]
  · iexists _; isplitr
    swap; · iexact H19
    ipureintro
    try dsimp only
    exact View.read_writes_eq_canon _ _ _ (View.cover_of_tiled _ S1x512x64.size (by rfl))
  iexists _; isplitr
  swap; · iexact H20
  ipureintro
  try dsimp only
  exact View.read_writes_eq_canon _ _ _ (View.cover_of_tiled _ S1x512x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨19, _⟩ => out1_19 (iblk1 V c 0 t) (iblk1 V c 1 t) (iblk1 V c 2 t) (iblk1 V c 4 t) (iblk1 V c 5 t) (iblk1 V c 6 t) (iblk1 V c 7 t) (iblk1 V c 8 t) (iblk1 V c 9 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 21, h⟩ => absurd h (Nat.not_lt.2 (Nat.le_add_left _ _))
  Φ _ := Pipeline.ΦA spec1 c
  q _ := fullShare
  owed _ := 0

theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_19 (c : Dev nD) (t : Fin cfg1.N) : (dat1 V c).after 19 t = out1_19 (iblk1 V c 0 t) (iblk1 V c 1 t) (iblk1 V c 2 t) (iblk1 V c 4 t) (iblk1 V c 5 t) (iblk1 V c 6 t) (iblk1 V c 7 t) (iblk1 V c 8 t) (iblk1 V c 9 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem before1 (c : Dev nD) (t : Fin cfg1.N) (w : Fin cfg1.W) (hw : w.val < 18) (d) :
    (dat1 V c).before w t d = (dat1 V c).fetched w t d := by
  fin_cases w <;> first
    | exact absurd hw (by decide)
    | exact (dat1 V c).before_in_eq_fetched _ rfl (fun _ => rfl) (fun _ _ _ => rfl) (fun _ => rfl) t d

set_option maxHeartbeats 4000000 in
theorem body_obligation1 (c : Dev nD) : BodyObligation (dat1 (F := F) V c) (defs₀ (F := F)) Variants.none () Set.univ := fun t => by
  rw [bigSep_W1, bigSep_W1]
  simp (disch := decide) only [before1 V c t]
  rw [show (dat1 V c).Φ t.succ = (dat1 V c).Φ t.castSucc from rfl,
    show (dat1 V c).owesAt () t.succ = (dat1 V c).owesAt () t.castSucc from rfl, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ (grid1.coords t) _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro H
  isplitl [HΦ]; · iexact HΦ
  isplitl [Ho]; · iexact Ho
  iexact H

end Cert.Kernel.Hand

end
-- ==== Proof.KB.Run.lean ====
import proofs.«156303_g19069654794669_cont_sun_m_30_8_alg».proof.Proof.KB.Region0
import proofs.«156303_g19069654794669_cont_sun_m_30_8_alg».proof.Proof.KB.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
abbrev W4 : Dev nD → Valuation τ sig (Elt F) := fun c => StableHlo.after main_part3_ops0 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev W6 : Dev nD → Valuation τ sig (Elt F) := fun c => StableHlo.after main_part3_ops1 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev W8 : Dev nD → Valuation τ sig (Elt F) := fun c => StableHlo.after main_part3_ops2 (W7 m ρ c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
def reg (p : Fin 2) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (hd : ∀ c, (∀ w, (pdats m ρ p c).q w = fullShare) ∧ (∀ t, (pdats m ρ p c).owed t = 0) ∧ (∀ t, (pdats m ρ p c).recorded t = Set.univ)
      ∧ (∀ t, (pdats m ρ p c).Φ t = Pipeline.ΦA (cfgs p).spec c) ∧ ∀ w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    obtain ⟨hq, h0, hr, -, hA⟩ := hd c
    rw [Pipeline.ownSems0_none]
    have hsplit := Pipeline.arrays_of_unscopedBufs (p := p) (pcfgs (F := F)) adm (pdats m ρ) lf.win lf.arr_whole c
      ((pdats m ρ p c).share_full hq) (fun b => Wi c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    rw [(hd c).2.2.2.1]; unfold Pipeline.ΦA
    iintro ⟨Hp, -, Hr⟩
    isplitl [Hr]; · iexact Hr
    iexact Hp
  hout c := by
    rw [Pipeline.ownSems0_none, (hd c).2.2.2.1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hd c).1)
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (W0 m ρ)),
    .host (hseg main_part1_ops0 main_part1_ops0_sub (W1 m ρ)),
    .host (hseg main_part2_ops0 main_part2_ops0_sub (W2 m ρ)),
    .host (hseg main_part3_ops0 main_part3_ops0_sub (W3 m ρ)),
    .region (reg m ρ 0 launch0 (W4 m ρ) (W5 m ρ) (body_obligation0 _) (fun _ => ⟨fun _ => rfl, fun _ => rfl, fun _ => rfl, fun _ => rfl, fun _ => rfl⟩) (W5_arr m ρ) (W5_of_ne m ρ)),
    .host (hseg main_part3_ops1 main_part3_ops1_sub (W5 m ρ)),
    .region (reg m ρ 1 launch1 (W6 m ρ) (W7 m ρ) (body_obligation1 _) (fun _ => ⟨fun _ => rfl, fun _ => rfl, fun _ => rfl, fun _ => rfl, fun _ => rfl⟩) (W7_arr m ρ) (W7_of_ne m ρ)),
    .host (hseg main_part3_ops2 main_part3_ops2_sub (W7 m ρ)) ]

theorem main_run (c : Dev nD) : main (F := F) c = Pipeline.Seg.run (segs m ρ) := (main_chain_windows c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KB.Frame.lean ====
import proofs.«156303_g19069654794669_cont_sun_m_30_8_alg».proof.Proof.Gen.Kernel.Launch
import proofs.«156303_g19069654794669_cont_sun_m_30_8_alg».proof.Proof.Gen.Kernel.Skeleton
import proofs.«156303_g19069654794669_cont_sun_m_30_8_alg».proof.Proof.Gen.Kernel.Points
import proofs.«156303_g19069654794669_cont_sun_m_30_8_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {r : Ref sig .tc}

/-- Every host operation writes a buffer of index 13 or more, so a buffer below 13 keeps its contents. -/
theorem host_keeps (h : r.idx.val < 13) (V : Valuation τ sig (Elt F)) :
    StableHlo.after main_part0_ops0 V (Proc.devRef .tc r) = V (Proc.devRef .tc r)
      ∧ StableHlo.after main_part1_ops0 V (Proc.devRef .tc r) = V (Proc.devRef .tc r)
      ∧ StableHlo.after main_part2_ops0 V (Proc.devRef .tc r) = V (Proc.devRef .tc r)
      ∧ StableHlo.after main_part3_ops0 V (Proc.devRef .tc r) = V (Proc.devRef .tc r)
      ∧ StableHlo.after main_part3_ops1 V (Proc.devRef .tc r) = V (Proc.devRef .tc r)
      ∧ StableHlo.after main_part3_ops2 V (Proc.devRef .tc r) = V (Proc.devRef .tc r) := by
  refine ⟨?_, ?_, ?_, ?_, ?_, ?_⟩ <;>
    refine StableHlo.after_of_forall_not_mem (b := Proc.devRef .tc r) _ _ (List.forall_iff_forall_mem.mp ?_)
  all_goals
    simp only [main_part0_ops0, main_part1_ops0, main_part2_ops0, main_part3_ops0, main_part3_ops1, main_part3_ops2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by rintro rfl; exact absurd h (by decide))

theorem spec0_arr : ∀ w : Fin cfg0.W, Pipeline.arrRef spec0 w = main_arg2 ∨ 13 ≤ (Pipeline.arrRef spec0 w).idx.val := by decide

theorem spec1_arr : ∀ w : Fin cfg1.W, 13 ≤ (Pipeline.arrRef spec1 w).idx.val := by decide

/-- The first launch has one array below 13, the adjacency matrix, and only reads it. -/
theorem W5_arg (h : r.idx.val < 13) (c : Dev nD) : W5 m ρ c (Proc.devRef .tc r) = W4 m ρ c (Proc.devRef .tc r) := by
  by_cases e : r = main_arg2
  · subst e
    exact (W5_arr m ρ c 0).trans (((dat0 (V4 m ρ) c).arrAt_in 0 rfl _).trans (A_eq0 (V4 m ρ) c 0))
  · exact W5_of_ne m ρ c r fun w e' => (spec0_arr w).elim (fun e2 => e (e'.symm.trans e2))
      fun h13 => absurd (e' ▸ h13 : 13 ≤ r.idx.val) (not_le.mpr h)

/-- A buffer below 13 ends the run as launched: no host operation and no launch writes it. -/
theorem W8_arg (h : r.idx.val < 13) (c : Dev nD) : W8 m ρ c (Proc.devRef .tc r) = m ((c : Thread nD τ).loc r) :=
  calc W8 m ρ c (Proc.devRef .tc r)
    _ = W7 m ρ c (Proc.devRef .tc r) := (host_keeps h (W7 m ρ c)).2.2.2.2.2
    _ = W6 m ρ c (Proc.devRef .tc r) := W7_of_ne m ρ c r fun w e => absurd (e ▸ spec1_arr w : 13 ≤ r.idx.val) (not_le.mpr h)
    _ = W5 m ρ c (Proc.devRef .tc r) := (host_keeps h (W5 m ρ c)).2.2.2.2.1
    _ = W4 m ρ c (Proc.devRef .tc r) := W5_arg m ρ h c
    _ = W3 m ρ c (Proc.devRef .tc r) := (host_keeps h (W3 m ρ c)).2.2.2.1
    _ = W2 m ρ c (Proc.devRef .tc r) := (host_keeps h (W2 m ρ c)).2.2.1
    _ = W1 m ρ c (Proc.devRef .tc r) := (host_keeps h (W1 m ρ c)).2.1
    _ = W0 m ρ c (Proc.devRef .tc r) := (host_keeps h (W0 m ρ c)).1
    _ = m ((c : Thread nD τ).loc r) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun res h c =>
      have k : ∀ a : Ref sig .tc, a.idx.val < 13 → ¬ (Proc.devRef .tc a : DevRef τ sig).isScoped →
          res.2.mem ((c.tc : Thread nD τ).loc a) = m ((c.tc : Thread nD τ).loc a) :=
        fun a ha hs => (h c _ (mem_uc a hs)).trans (W8_arg m ρ ha c)
      ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide)⟩)
    (run_main m ρ)

end Cert.Kernel.Hand

end
-- ==== Proof.KI.Region0.lean ====
import proofs.«156303_g19069654794669_cont_sun_m_30_8_alg».proof.Proof.Gen.KernelIdeal.Launch
import proofs.«156303_g19069654794669_cont_sun_m_30_8_alg».proof.Proof.Gen.KernelIdeal.Skeleton
import proofs.«156303_g19069654794669_cont_sun_m_30_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x512 := Rect.unit (s := S512x512) ![0, 0] S512x512.size inb_S512x512_S512x512_0_0
abbrev rB : Rect S512x64 := Rect.unit (s := S512x64) ![0, 0] S512x64.size inb_S512x64_S512x64_0_0

def out0_3 (x0 : Vec F S512x512 .f32) (x1 : Vec F S512x512 .f32) : Vec F S512x512 .f32 :=
  View.canon [⟨rA, k0_pay2 (View.ld x0 rA) (View.ld x1 rA)⟩]
def out0_4 (x0 : Vec F S512x512 .f32) (x1 : Vec F S512x512 .f32) (x2 : Vec F S512x64 .f32) : Vec F S512x64 .f32 :=
  View.canon [⟨rB, k0_pay4 (View.ld x0 rA) (View.ld x1 rA) (View.ld x2 rB)⟩]
def out0_5 (x0 : Vec F S512x512 .f32) (x1 : Vec F S512x512 .f32) (x2 : Vec F S512x64 .f32) : Vec F S512x64 .f32 :=
  View.canon [⟨rB, k0_pay1 (k0_pay3 (View.ld x2 rB)) (k0_pay5 (View.ld x0 rA) (View.ld x1 rA) (View.ld x2 rB))⟩]

set_option maxHeartbeats 4000000 in
theorem sound_kernel0 (c : Dev nD) (E : Set ℕ)
    (arg0 : Memref sig .tc .vmem S512x512 .f32) (harg0 : arg0.IsWhole) (arg1 : Memref sig .tc .vmem S512x512 .f32) (harg1 : arg1.IsWhole)
    (arg2 : Memref sig .tc .vmem S512x64 .f32) (harg2 : arg2.IsWhole) (arg3 : Memref sig .tc .vmem S512x512 .f32) (harg3 : arg3.IsWhole)
    (arg4 : Memref sig .tc .vmem S512x64 .f32) (harg4 : arg4.IsWhole) (arg5 : Memref sig .tc .vmem S512x64 .f32) (harg5 : arg5.IsWhole)
    (x0 : Vec F S512x512 .f32) (x1 : Vec F S512x512 .f32) (x2 : Vec F S512x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1) ∗ owns (c : Thread nD τ) arg4 fullShare (out0_4 x0 x1 x2)
            ∗ owns (c : Thread nD τ) arg5 fullShare (out0_5 x0 x1 x2)) -∗ K ⟨⟩))
      ⊢ wp frame (wpE (defs₀ (F := F)) Variants.none c none) E (cc0__prep_kernel arg0 harg0 arg1 harg1 arg2 harg2 arg3 harg3 arg4 harg4 arg5 harg5) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]
  · iexists _; isplitr
    swap; · iexact H3
    ipureintro
    try dsimp only
    exact View.read_writes_eq_canon _ _ _ (View.cover_of_tiled _ S512x512.size (by rfl))
  isplitl [H4]
  · iexists _; isplitr
    swap; · iexact H4
    ipureintro
    try dsimp only
    exact View.read_writes_eq_canon _ _ _ (View.cover_of_tiled _ S512x64.size (by rfl))
  iexists _; isplitr
  swap; · iexact H5
  ipureintro
  try dsimp only
  exact View.read_writes_eq_canon _ _ _ (View.cover_of_tiled _ S512x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) (w : Fin cfg0.W) (hw : w.val < 3) (d) :
    (dat0 V c).before w t d = (dat0 V c).fetched w t d := by
  fin_cases w <;> first
    | exact absurd hw (by decide)
    | exact (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp (disch := decide) only [before0 V c t]
  rw [show (dat0 V c).Φ t.succ = (dat0 V c).Φ t.castSucc from rfl,
    show (dat0 V c).owesAt () t.succ = (dat0 V c).owesAt () t.castSucc from rfl, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro H
  isplitl [HΦ]; · iexact HΦ
  isplitl [Ho]; · iexact Ho
  iexact H

end Cert.KernelIdeal.Hand

end
-- ==== Proof.KI.Out1.lean ====
import proofs.«156303_g19069654794669_cont_sun_m_30_8_alg».proof.Proof.Gen.KernelIdeal.Launch
import proofs.«156303_g19069654794669_cont_sun_m_30_8_alg».proof.Proof.Gen.KernelIdeal.Skeleton
import proofs.«156303_g19069654794669_cont_sun_m_30_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev qS : Rect S512x512 := Rect.unit (s := S512x512) ![0, 0] S512x512.size inb_S512x512_S512x512_0_0
abbrev qA0 : Rect S2x512x3 := Rect.unit (s := S2x512x3) ![0, 0, 0] S1x512x3.size inb_S2x512x3_S1x512x3_0_0_0
abbrev qA1 : Rect S2x512x3 := Rect.unit (s := S2x512x3) ![1, 0, 0] S1x512x3.size inb_S2x512x3_S1x512x3_1_0_0
abbrev qH0 : Rect S2x512x64 := Rect.unit (s := S2x512x64) ![0, 0, 0] S1x512x64.size inb_S2x512x64_S1x512x64_0_0_0
abbrev qH1 : Rect S2x512x64 := Rect.unit (s := S2x512x64) ![1, 0, 0] S1x512x64.size inb_S2x512x64_S1x512x64_1_0_0
abbrev qB256 : Rect S1x256 := Rect.unit (s := S1x256) ![0, 0] S1x256.size inb_S1x256_S1x256_0_0
abbrev qB128 : Rect S1x128 := Rect.unit (s := S1x128) ![0, 0] S1x128.size inb_S1x128_S1x128_0_0
abbrev qW6x256 : Rect S6x256 := Rect.unit (s := S6x256) ![0, 0] S6x256.size inb_S6x256_S6x256_0_0
abbrev qW6x128 : Rect S6x128 := Rect.unit (s := S6x128) ![0, 0] S6x128.size inb_S6x128_S6x128_0_0
abbrev qR0 : Rect S3x128x256 := Rect.unit (s := S3x128x256) ![0, 0, 0] S1x128x256.size inb_S3x128x256_S1x128x256_0_0_0
abbrev qR1 : Rect S3x128x256 := Rect.unit (s := S3x128x256) ![1, 0, 0] S1x128x256.size inb_S3x128x256_S1x128x256_1_0_0
abbrev qR2 : Rect S3x128x256 := Rect.unit (s := S3x128x256) ![2, 0, 0] S1x128x256.size inb_S3x128x256_S1x128x256_2_0_0
abbrev qC0 : Rect S3x128x128 := Rect.unit (s := S3x128x128) ![0, 0, 0] S1x128x128.size inb_S3x128x128_S1x128x128_0_0_0
abbrev qC1 : Rect S3x128x128 := Rect.unit (s := S3x128x128) ![1, 0, 0] S1x128x128.size inb_S3x128x128_S1x128x128_1_0_0
abbrev qC2 : Rect S3x128x128 := Rect.unit (s := S3x128x128) ![2, 0, 0] S1x128x128.size inb_S3x128x128_S1x128x128_2_0_0
abbrev qP : Rect S128x2 := Rect.unit (s := S128x2) ![0, 0] S128x2.size inb_S128x2_S128x2_0_0
abbrev qQ : Rect S1x1 := Rect.unit (s := S1x1) ![0, 0] S1x1.size inb_S1x1_S1x1_0_0
abbrev qO0 : Rect S2x512x1 := Rect.unit (s := S2x512x1) ![0, 0, 0] S1x512x1.size inb_S2x512x1_S1x512x1_0_0_0
abbrev qO1 : Rect S2x512x1 := Rect.unit (s := S2x512x1) ![1, 0, 0] S1x512x1.size inb_S2x512x1_S1x512x1_1_0_0

section Values
variable (x0 : Vec F S512x512 .f32) (x1 : Vec F S2x512x3 .f32) (x2 x3 : Vec F S2x512x64 .f32) (x4 : Vec F S6x256 .f32)
  (x5 : Vec F S3x128x256 .f32) (x6 : Vec F S1x256 .f32) (x7 : Vec F S6x128 .f32) (x8 : Vec F S3x128x128 .f32) (x9 : Vec F S1x128 .f32)
  (x10 x11 : Vec F S3x128x256 .f32) (x12 : Vec F S1x256 .f32) (x13 x14 : Vec F S3x128x128 .f32) (x15 : Vec F S1x128 .f32)
  (x16 : Vec F S128x2 .f32) (x17 : Vec F S1x1 .f32)

abbrev bS : FVec F S512x512 .f32 := k1_pay6 (View.ld x0 qS)
abbrev bA : FVec F S512x6 .f32 := k1_pay7 (View.ld x1 qA0) (View.ld x1 qA1)
abbrev bH : FVec F S512x128 .f32 := k1_pay8 (View.ld x2 qH0) (View.ld x2 qH1)
abbrev bV27 : FVec F S512x256 .f32 :=
  k1_pay10 (View.ld x0 qS) (View.ld x1 qA0) (View.ld x1 qA1) (View.ld x2 qH0) (View.ld x2 qH1) (View.ld x6 qB256) (View.ld x4 qW6x256) (View.ld x5 qR0) (View.ld x5 qR1)
abbrev bV28 : FVec F S512x128 .f32 := k1_pay11 (View.ld x0 qS) (View.ld x2 qH0) (View.ld x2 qH1)
abbrev bTwo : F .f32 := Scalar.ofBits .f32 0x40000000#32
abbrev bV38 : FVec F S512x128 .f32 := k1_pay13 (bH x2) (bV27 x0 x1 x2 x4 x5 x6) (bV28 x0 x2) bTwo (View.ld x5 qR2)
abbrev bV64 : FVec F S512x128 .f32 :=
  k1_pay14 (bS x0) (bA x1) (bH x2) (bV27 x0 x1 x2 x4 x5 x6) (bV28 x0 x2) bTwo (View.ld x5 qR2) (View.ld x9 qB128) (View.ld x7 qW6x128) (View.ld x8 qC0) (View.ld x8 qC1) (View.ld x8 qC2)
abbrev bV69 : FVec F S512x128 .f32 := k1_pay15 (bH x2) (bV38 x0 x1 x2 x4 x5 x6) (bV64 x0 x1 x2 x4 x5 x6 x7 x8 x9)
abbrev bK : FVec F S512x128 .f32 := k1_pay18 (View.ld x3 qH0) (View.ld x3 qH1)
abbrev bV93 : FVec F S512x256 .f32 :=
  k1_pay19 (bH x2) (bV38 x0 x1 x2 x4 x5 x6) (bV64 x0 x1 x2 x4 x5 x6 x7 x8 x9) (View.ld x3 qH0) (View.ld x3 qH1) (View.ld x12 qB256) (View.ld x10 qR0) (View.ld x11 qR0)
abbrev bV94 : FVec F S512x128 .f32 := k1_pay20 (bS x0) (bH x2) (bV38 x0 x1 x2 x4 x5 x6) (bV64 x0 x1 x2 x4 x5 x6 x7 x8 x9)
abbrev bV107 : FVec F S512x128 .f32 := k1_pay21 (bS x0) (bV69 x0 x1 x2 x4 x5 x6 x7 x8 x9) (bV94 x0 x1 x2 x4 x5 x6 x7 x8 x9)
abbrev bV122 : FVec F S512x128 .f32 :=
  k1_pay23 (bS x0) (bV69 x0 x1 x2 x4 x5 x6 x7 x8 x9) (bK x3) (bV93 x0 x1 x2 x3 x4 x5 x6 x7 x8 x9 x10 x11 x12) (bV94 x0 x1 x2 x4 x5 x6 x7 x8 x9)
    (View.ld x10 qR1) (View.ld x11 qR1) (View.ld x10 qR2) (View.ld x11 qR2)
abbrev bV123 : FVec F S512x128 .f32 :=
  k1_pay24 (bS x0) (bV69 x0 x1 x2 x4 x5 x6 x7 x8 x9) (bK x3) (bV93 x0 x1 x2 x3 x4 x5 x6 x7 x8 x9 x10 x11 x12) (bV94 x0 x1 x2 x4 x5 x6 x7 x8 x9)
    (View.ld x10 qR1) (View.ld x11 qR1) (View.ld x10 qR2) (View.ld x11 qR2)
abbrev bV130 : FVec F S512x128 .f32 := k1_pay25 (bV69 x0 x1 x2 x4 x5 x6 x7 x8 x9) (View.ld x15 qB128) (View.ld x13 qC0)
abbrev bV161 : FVec F S512x128 .f32 :=
  k1_pay26 (bS x0) (bK x3) (bV94 x0 x1 x2 x4 x5 x6 x7 x8 x9) (bV107 x0 x1 x2 x4 x5 x6 x7 x8 x9)
    (bV122 x0 x1 x2 x3 x4 x5 x6 x7 x8 x9 x10 x11 x12) (bV123 x0 x1 x2 x3 x4 x5 x6 x7 x8 x9 x10 x11 x12) (bV130 x0 x1 x2 x4 x5 x6 x7 x8 x9 x13 x15)
    (View.ld x13 qC1) (View.ld x13 qC2) (View.ld x14 qC0) (View.ld x14 qC1) (View.ld x14 qC2)
abbrev bV162 : FVec F S512x64 .f32 :=
  k1_pay27 (bS x0) (bK x3) (bV94 x0 x1 x2 x4 x5 x6 x7 x8 x9) (bV107 x0 x1 x2 x4 x5 x6 x7 x8 x9)
    (bV122 x0 x1 x2 x3 x4 x5 x6 x7 x8 x9 x10 x11 x12) (bV123 x0 x1 x2 x3 x4 x5 x6 x7 x8 x9 x10 x11 x12) (bV130 x0 x1 x2 x4 x5 x6 x7 x8 x9 x13 x15)
    (View.ld x13 qC1) (View.ld x13 qC2) (View.ld x14 qC0) (View.ld x14 qC1) (View.ld x14 qC2)

def out1_18 : Vec F S2x512x1 .f32 :=
  View.canon [⟨qO1, k1_pay5 (bV161 x0 x1 x2 x3 x4 x5 x6 x7 x8 x9 x10 x11 x12 x13 x14 x15) (View.ld x16 qP) (View.ld x17 qQ)⟩,
    ⟨qO0, k1_pay4 (bV161 x0 x1 x2 x3 x4 x5 x6 x7 x8 x9 x10 x11 x12 x13 x14 x15) (View.ld x16 qP) (View.ld x17 qQ)⟩]
def out1_19 : Vec F S2x512x64 .f32 :=
  View.canon [⟨qH1, k1_pay17 (bH x2) (bV38 x0 x1 x2 x4 x5 x6) (bV64 x0 x1 x2 x4 x5 x6 x7 x8 x9)⟩,
    ⟨qH0, k1_pay16 (bH x2) (bV38 x0 x1 x2 x4 x5 x6) (bV64 x0 x1 x2 x4 x5 x6 x7 x8 x9)⟩]
def out1_20 : Vec F S2x512x64 .f32 :=
  View.canon [⟨qH1, k1_pay2 (bV161 x0 x1 x2 x3 x4 x5 x6 x7 x8 x9 x10 x11 x12 x13 x14 x15)⟩,
    ⟨qH0, k1_pay1 (bV162 x0 x1 x2 x3 x4 x5 x6 x7 x8 x9 x10 x11 x12 x13 x14 x15)⟩]

end Values

end Cert.KernelIdeal.Hand

end
-- ==== Proof.KI.Region1.lean ====
import proofs.«156303_g19069654794669_cont_sun_m_30_8_alg».proof.Proof.KI.Out1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

set_option maxHeartbeats 40000000 in
theorem sound_kernel1 (c : Dev nD) (E : Set ℕ) (i : grid1.Coords) (arg1 : Memref sig .tc .vmem S512x512 .f32) (harg1 : arg1.IsWhole) (arg2 : Memref sig .tc .vmem S2x512x3 .f32) (harg2 : arg2.IsWhole) (arg3 : Memref sig .tc .vmem S2x512x64 .f32) (harg3 : arg3.IsWhole) (arg4 : Memref sig .tc .vmem S2x512x64 .f32) (harg4 : arg4.IsWhole) (arg5 : Memref sig .tc .vmem S6x256 .f32) (harg5 : arg5.IsWhole) (arg6 : Memref sig .tc .vmem S3x128x256 .f32) (harg6 : arg6.IsWhole) (arg7 : Memref sig .tc .vmem S1x256 .f32) (harg7 : arg7.IsWhole) (arg8 : Memref sig .tc .vmem S6x128 .f32) (harg8 : arg8.IsWhole) (arg9 : Memref sig .tc .vmem S3x128x128 .f32) (harg9 : arg9.IsWhole) (arg10 : Memref sig .tc .vmem S1x128 .f32) (harg10 : arg10.IsWhole) (arg11 : Memref sig .tc .vmem S3x128x256 .f32) (harg11 : arg11.IsWhole) (arg12 : Memref sig .tc .vmem S3x128x256 .f32) (harg12 : arg12.IsWhole) (arg13 : Memref sig .tc .vmem S1x256 .f32) (harg13 : arg13.IsWhole) (arg14 : Memref sig .tc .vmem S3x128x128 .f32) (harg14 : arg14.IsWhole) (arg15 : Memref sig .tc .vmem S3x128x128 .f32) (harg15 : arg15.IsWhole) (arg16 : Memref sig .tc .vmem S1x128 .f32) (harg16 : arg16.IsWhole) (arg17 : Memref sig .tc .vmem S128x2 .f32) (harg17 : arg17.IsWhole) (arg18 : Memref sig .tc .vmem S1x1 .f32) (harg18 : arg18.IsWhole) (arg19 : Memref sig .tc .vmem S2x512x1 .f32) (harg19 : arg19.IsWhole) (arg20 : Memref sig .tc .vmem S2x512x64 .f32) (harg20 : arg20.IsWhole) (arg21 : Memref sig .tc .vmem S2x512x64 .f32) (harg21 : arg21.IsWhole)
    (x0 : Vec F S512x512 .f32) (x1 : Vec F S2x512x3 .f32) (x2 : Vec F S2x512x64 .f32) (x3 : Vec F S2x512x64 .f32) (x4 : Vec F S6x256 .f32) (x5 : Vec F S3x128x256 .f32) (x6 : Vec F S1x256 .f32) (x7 : Vec F S6x128 .f32) (x8 : Vec F S3x128x128 .f32) (x9 : Vec F S1x128 .f32) (x10 : Vec F S3x128x256 .f32) (x11 : Vec F S3x128x256 .f32) (x12 : Vec F S1x256 .f32) (x13 : Vec F S3x128x128 .f32) (x14 : Vec F S3x128x128 .f32) (x15 : Vec F S1x128 .f32) (x16 : Vec F S128x2 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (out1_18 x0 x1 x2 x3 x4 x5 x6 x7 x8 x9 x10 x11 x12 x13 x14 x15 x16 x17) ∗ owns (c : Thread nD τ) arg20 fullShare (out1_19 x0 x1 x2 x4 x5 x6 x7 x8 x9) ∗ owns (c : Thread nD τ) arg21 fullShare (out1_20 x0 x1 x2 x3 x4 x5 x6 x7 x8 x9 x10 x11 x12 x13 x14 x15)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__main_kernel_eq_skeleton]; unfold cc1__main_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  isplitl [H10]; · iexists f10; iframe H10; ipureintro; rfl
  isplitl [H11]; · iexists f11; iframe H11; ipureintro; rfl
  isplitl [H12]; · iexists f12; iframe H12; ipureintro; rfl
  isplitl [H13]; · iexists f13; iframe H13; ipureintro; rfl
  isplitl [H14]; · iexists f14; iframe H14; ipureintro; rfl
  isplitl [H15]; · iexists f15; iframe H15; ipureintro; rfl
  isplitl [H16]; · iexists f16; iframe H16; ipureintro; rfl
  isplitl [H17]; · iexists f17; iframe H17; ipureintro; rfl
  isplitl [H18]
  · iexists _; isplitr
    swap; · iexact H18
    ipureintro
    try dsimp only
    exact View.read_writes_eq_canon _ _ _ (View.cover_of_tiled _ S1x512x1.size (by rfl))
  isplitl [H19]
  · iexists _; isplitr
    swap; · iexact H19
    ipureintro
    try dsimp only
    exact View.read_writes_eq_canon _ _ _ (View.cover_of_tiled _ S1x512x64.size (by rfl))
  iexists _; isplitr
  swap; · iexact H20
  ipureintro
  try dsimp only
  exact View.read_writes_eq_canon _ _ _ (View.cover_of_tiled _ S1x512x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨19, _⟩ => out1_19 (iblk1 V c 0 t) (iblk1 V c 1 t) (iblk1 V c 2 t) (iblk1 V c 4 t) (iblk1 V c 5 t) (iblk1 V c 6 t) (iblk1 V c 7 t) (iblk1 V c 8 t) (iblk1 V c 9 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 21, h⟩ => absurd h (Nat.not_lt.2 (Nat.le_add_left _ _))
  Φ _ := Pipeline.ΦA spec1 c
  q _ := fullShare
  owed _ := 0

theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_19 (c : Dev nD) (t : Fin cfg1.N) : (dat1 V c).after 19 t = out1_19 (iblk1 V c 0 t) (iblk1 V c 1 t) (iblk1 V c 2 t) (iblk1 V c 4 t) (iblk1 V c 5 t) (iblk1 V c 6 t) (iblk1 V c 7 t) (iblk1 V c 8 t) (iblk1 V c 9 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem before1 (c : Dev nD) (t : Fin cfg1.N) (w : Fin cfg1.W) (hw : w.val < 18) (d) :
    (dat1 V c).before w t d = (dat1 V c).fetched w t d := by
  fin_cases w <;> first
    | exact absurd hw (by decide)
    | exact (dat1 V c).before_in_eq_fetched _ rfl (fun _ => rfl) (fun _ _ _ => rfl) (fun _ => rfl) t d

set_option maxHeartbeats 4000000 in
theorem body_obligation1 (c : Dev nD) : BodyObligation (dat1 (F := F) V c) (defs₀ (F := F)) Variants.none () Set.univ := fun t => by
  rw [bigSep_W1, bigSep_W1]
  simp (disch := decide) only [before1 V c t]
  rw [show (dat1 V c).Φ t.succ = (dat1 V c).Φ t.castSucc from rfl,
    show (dat1 V c).owesAt () t.succ = (dat1 V c).owesAt () t.castSucc from rfl, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ (grid1.coords t) _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro H
  isplitl [HΦ]; · iexact HΦ
  isplitl [Ho]; · iexact Ho
  iexact H

end Cert.KernelIdeal.Hand

end
-- ==== Proof.KI.Run.lean ====
import proofs.«156303_g19069654794669_cont_sun_m_30_8_alg».proof.Proof.KI.Region0
import proofs.«156303_g19069654794669_cont_sun_m_30_8_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev W3 : Dev nD → Valuation τ sig (Elt F) := fun c => StableHlo.after main_part2_ops0 (W2 m ρ c)
abbrev W4 : Dev nD → Valuation τ sig (Elt F) := fun c => StableHlo.after main_part3_ops0 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev W6 : Dev nD → Valuation τ sig (Elt F) := fun c => StableHlo.after main_part3_ops1 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev W8 : Dev nD → Valuation τ sig (Elt F) := fun c => StableHlo.after main_part3_ops2 (W7 m ρ c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
def reg (p : Fin 2) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (hd : ∀ c, (∀ w, (pdats m ρ p c).q w = fullShare) ∧ (∀ t, (pdats m ρ p c).owed t = 0) ∧ (∀ t, (pdats m ρ p c).recorded t = Set.univ)
      ∧ (∀ t, (pdats m ρ p c).Φ t = Pipeline.ΦA (cfgs p).spec c) ∧ ∀ w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    obtain ⟨hq, h0, hr, -, hA⟩ := hd c
    rw [Pipeline.ownSems0_none]
    have hsplit := Pipeline.arrays_of_unscopedBufs (p := p) (pcfgs (F := F)) adm (pdats m ρ) lf.win lf.arr_whole c
      ((pdats m ρ p c).share_full hq) (fun b => Wi c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    rw [(hd c).2.2.2.1]; unfold Pipeline.ΦA
    iintro ⟨Hp, -, Hr⟩
    isplitl [Hr]; · iexact Hr
    iexact Hp
  hout c := by
    rw [Pipeline.ownSems0_none, (hd c).2.2.2.1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hd c).1)
      (fun b => Wi c b) (fun b => Wo c b) ((pdats m ρ p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (W0 m ρ)),
    .host (hseg main_part1_ops0 main_part1_ops0_sub (W1 m ρ)),
    .host (hseg main_part2_ops0 main_part2_ops0_sub (W2 m ρ)),
    .host (hseg main_part3_ops0 main_part3_ops0_sub (W3 m ρ)),
    .region (reg m ρ 0 launch0 (W4 m ρ) (W5 m ρ) (body_obligation0 _) (fun _ => ⟨fun _ => rfl, fun _ => rfl, fun _ => rfl, fun _ => rfl, fun _ => rfl⟩) (W5_arr m ρ) (W5_of_ne m ρ)),
    .host (hseg main_part3_ops1 main_part3_ops1_sub (W5 m ρ)),
    .region (reg m ρ 1 launch1 (W6 m ρ) (W7 m ρ) (body_obligation1 _) (fun _ => ⟨fun _ => rfl, fun _ => rfl, fun _ => rfl, fun _ => rfl, fun _ => rfl⟩) (W7_arr m ρ) (W7_of_ne m ρ)),
    .host (hseg main_part3_ops2 main_part3_ops2_sub (W7 m ρ)) ]

theorem main_run (c : Dev nD) : main (F := F) c = Pipeline.Seg.run (segs m ρ) := (main_chain_windows c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Frame.lean ====
import proofs.«156303_g19069654794669_cont_sun_m_30_8_alg».proof.Proof.Gen.KernelIdeal.Launch
import proofs.«156303_g19069654794669_cont_sun_m_30_8_alg».proof.Proof.Gen.KernelIdeal.Skeleton
import proofs.«156303_g19069654794669_cont_sun_m_30_8_alg».proof.Proof.Gen.KernelIdeal.Points
import proofs.«156303_g19069654794669_cont_sun_m_30_8_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {r : Ref sig .tc}

/-- Every host operation writes a buffer of index 13 or more, so a buffer below 13 keeps its contents. -/
theorem host_keeps (h : r.idx.val < 13) (V : Valuation τ sig (Elt F)) :
    StableHlo.after main_part0_ops0 V (Proc.devRef .tc r) = V (Proc.devRef .tc r)
      ∧ StableHlo.after main_part1_ops0 V (Proc.devRef .tc r) = V (Proc.devRef .tc r)
      ∧ StableHlo.after main_part2_ops0 V (Proc.devRef .tc r) = V (Proc.devRef .tc r)
      ∧ StableHlo.after main_part3_ops0 V (Proc.devRef .tc r) = V (Proc.devRef .tc r)
      ∧ StableHlo.after main_part3_ops1 V (Proc.devRef .tc r) = V (Proc.devRef .tc r)
      ∧ StableHlo.after main_part3_ops2 V (Proc.devRef .tc r) = V (Proc.devRef .tc r) := by
  refine ⟨?_, ?_, ?_, ?_, ?_, ?_⟩ <;>
    refine StableHlo.after_of_forall_not_mem (b := Proc.devRef .tc r) _ _ (List.forall_iff_forall_mem.mp ?_)
  all_goals
    simp only [main_part0_ops0, main_part1_ops0, main_part2_ops0, main_part3_ops0, main_part3_ops1, main_part3_ops2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by rintro rfl; exact absurd h (by decide))

theorem spec0_arr : ∀ w : Fin cfg0.W, Pipeline.arrRef spec0 w = main_arg2 ∨ 13 ≤ (Pipeline.arrRef spec0 w).idx.val := by decide

theorem spec1_arr : ∀ w : Fin cfg1.W, 13 ≤ (Pipeline.arrRef spec1 w).idx.val := by decide

/-- The first launch has one array below 13, the adjacency matrix, and only reads it. -/
theorem W5_arg (h : r.idx.val < 13) (c : Dev nD) : W5 m ρ c (Proc.devRef .tc r) = W4 m ρ c (Proc.devRef .tc r) := by
  by_cases e : r = main_arg2
  · subst e
    exact (W5_arr m ρ c 0).trans (((dat0 (V4 m ρ) c).arrAt_in 0 rfl _).trans (A_eq0 (V4 m ρ) c 0))
  · exact W5_of_ne m ρ c r fun w e' => (spec0_arr w).elim (fun e2 => e (e'.symm.trans e2))
      fun h13 => absurd (e' ▸ h13 : 13 ≤ r.idx.val) (not_le.mpr h)

/-- A buffer below 13 ends the run as launched: no host operation and no launch writes it. -/
theorem W8_arg (h : r.idx.val < 13) (c : Dev nD) : W8 m ρ c (Proc.devRef .tc r) = m ((c : Thread nD τ).loc r) :=
  calc W8 m ρ c (Proc.devRef .tc r)
    _ = W7 m ρ c (Proc.devRef .tc r) := (host_keeps h (W7 m ρ c)).2.2.2.2.2
    _ = W6 m ρ c (Proc.devRef .tc r) := W7_of_ne m ρ c r fun w e => absurd (e ▸ spec1_arr w : 13 ≤ r.idx.val) (not_le.mpr h)
    _ = W5 m ρ c (Proc.devRef .tc r) := (host_keeps h (W5 m ρ c)).2.2.2.2.1
    _ = W4 m ρ c (Proc.devRef .tc r) := W5_arg m ρ h c
    _ = W3 m ρ c (Proc.devRef .tc r) := (host_keeps h (W3 m ρ c)).2.2.2.1
    _ = W2 m ρ c (Proc.devRef .tc r) := (host_keeps h (W2 m ρ c)).2.2.1
    _ = W1 m ρ c (Proc.devRef .tc r) := (host_keeps h (W1 m ρ c)).2.1
    _ = W0 m ρ c (Proc.devRef .tc r) := (host_keeps h (W0 m ρ c)).1
    _ = m ((c : Thread nD τ).loc r) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun res h c =>
      have k : ∀ a : Ref sig .tc, a.idx.val < 13 → ¬ (Proc.devRef .tc a : DevRef τ sig).isScoped →
          res.2.mem ((c.tc : Thread nD τ).loc a) = m ((c.tc : Thread nD τ).loc a) :=
        fun a ha hs => (h c _ (mem_uc a hs)).trans (W8_arg m ρ ha c)
      ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide)⟩)
    (run_main m ρ)

end Cert.KernelIdeal.Hand

end
-- ==== Proof.KI.Fold.lean ====
import proofs.«156303_g19069654794669_cont_sun_m_30_8_alg».proof.Proof.Gen.KernelIdeal.Launch
import Idealize.ShloMosaic.Lib.StableHlo.Run
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem hostOps0_split : (hostOps0 : List (HloOp τ sig (Elt F))) = main_part0_ops0 ++ (main_part1_ops0 ++ (main_part2_ops0 ++ main_part3_ops0)) := rfl
theorem ops1_eq : (main_part3_ops1 : List (HloOp τ sig (Elt F))) = hostOps1 := rfl
theorem ops2_eq : (main_part3_ops2 : List (HloOp τ sig (Elt F))) = hostOps2 := rfl
end Cert.KernelIdeal.Hand
end
-- ==== Proof.Spec.lean ====
import Idealize.ShloMosaic.PureOps.Ideal
import Idealize.ShloMosaic.Lib.ValueIdx

noncomputable section

namespace Cert.Spec

open Idealize.ShloMosaic Idealize.ShloMosaic.ValueIdx

abbrev E := EReal

def nu (n : Fin 512) (u : Fin 64) : Fin 32768 := ⟨n.val * 64 + u.val, by omega⟩

def fk {n : Nat} (f : Fin n) (k : Fin 3) : Fin (n * 3) := ⟨f.val * 3 + k.val, by omega⟩

def go (g : Fin 2) (o : Fin 64) : Fin 128 := ⟨g.val * 64 + o.val, by omega⟩

def sf (s : Fin 2) (f : Fin 64) : Fin 128 := ⟨s.val * 64 + f.val, by omega⟩

def sk (s : Fin 2) (k : Fin 3) : Fin 6 := ⟨s.val * 3 + k.val, by omega⟩

def gso (g s : Fin 2) (o : Fin 64) : Fin 256 := ⟨g.val * 128 + s.val * 64 + o.val, by omega⟩

def ts (t : Fin 32) (s : Fin 2) : Fin 64 := ⟨2 * t.val + s.val, by omega⟩

def f1 (f : Fin 64) : Fin 65 := ⟨1 + f.val, by omega⟩

def fa (f : Fin 64) : Fin 128 := ⟨f.val, by omega⟩
def fb (f : Fin 64) : Fin 128 := ⟨64 + f.val, by omega⟩

section Support
variable (adj : (⟨2, ![512, 512]⟩ : Shape).Idx → E)

def amax (i j : Fin 512) : E := max (adj (ix2 i j)) (adj (ix2 j i))
theorem amax_symm (i j : Fin 512) : amax adj i j = amax adj j i := max_comm _ _
def deg (i : Fin 512) : E := ∑ j : Fin 512, amax adj i j

def dis (i : Fin 512) : E := if 0 < deg adj i then Ideal.div 1 (Ideal.sqrt (deg adj i)) else 0
def sup (i j : Fin 512) : E := -((dis adj i * amax adj i j) * dis adj j)
end Support

section Cheb
variable (S : Fin 512 → Fin 512 → E)

def two : E := Ideal.ofBits .f32 0x40000000#32
def d1 (x : Fin 512 → E) (n : Fin 512) : E := ∑ j : Fin 512, S n j * x j
def d2 (x : Fin 512 → E) (n : Fin 512) : E := two * (∑ j : Fin 512, S n j * d1 S x j) - x n
def cheb (x : Fin 512 → E) (k : Fin 3) (n : Fin 512) : E :=
  match k with
  | ⟨0, _⟩ => x n
  | ⟨1, _⟩ => d1 S x n
  | ⟨2, _⟩ => d2 S x n
end Cheb

section Cell
variable {Fi : Nat} (S : Fin 512 → Fin 512 → E)
  (cin : Fin Fi → Fin 3 → Fin 512 → E)
  (h : Fin 64 → Fin 512 → E)
  (Wi : Fin Fi → Fin 3 → E) (Ws : Fin 64 → Fin 3 → E) (b : E)

def gconv (n : Fin 512) : E :=
  (∑ f : Fin Fi, ∑ k : Fin 3, cin f k n * Wi f k) + (∑ f : Fin 64, ∑ k : Fin 3, cheb S (h f) k n * Ws f k) + b

end Cell

section Cell2
variable {Fi : Nat} (S : Fin 512 → Fin 512 → E)
  (cin : Fin Fi → Fin 3 → Fin 512 → E) (h : Fin 64 → Fin 512 → E)
  (Wrui : Fin Fi → Fin 3 → Fin 128 → E) (Wrus : Fin 64 → Fin 3 → Fin 128 → E) (bru : Fin 128 → E)
  (Wci : Fin Fi → Fin 3 → Fin 64 → E) (Wcs : Fin 64 → Fin 3 → Fin 64 → E) (bc : Fin 64 → E)

def gate (g : Fin 2) (u : Fin 64) (n : Fin 512) : E :=
  Ideal.logistic (gconv S cin h (fun f k => Wrui f k (go g u)) (fun f k => Wrus f k (go g u)) (bru (go g u)) n)

def cand (u : Fin 64) (n : Fin 512) : E :=
  Ideal.tanh (gconv S cin (fun f n' => gate S cin h Wrui Wrus bru 0 f n' * h f n')
    (fun f k => Wci f k u) (fun f k => Wcs f k u) (bc u) n)

def one : E := Ideal.ofBits .f32 0x3F800000#32

def cell (u : Fin 64) (n : Fin 512) : E :=
  gate S cin h Wrui Wrus bru 1 u n * h u n + (one - gate S cin h Wrui Wrus bru 1 u n) * cand S cin h Wrui Wrus bru Wci Wcs bc u n
end Cell2

section Model
variable (inp : (⟨2, ![64, 512]⟩ : Shape).Idx → E) (hs : (⟨3, ![2, 64, 32768]⟩ : Shape).Idx → E)
  (adj : (⟨2, ![512, 512]⟩ : Shape).Idx → E)
  (Wru0 : (⟨2, ![195, 128]⟩ : Shape).Idx → E) (bru0 : (⟨1, ![128]⟩ : Shape).Idx → E)
  (Wc0 : (⟨2, ![195, 64]⟩ : Shape).Idx → E) (bc0 : (⟨1, ![64]⟩ : Shape).Idx → E)
  (Wru1 : (⟨2, ![384, 128]⟩ : Shape).Idx → E) (bru1 : (⟨1, ![128]⟩ : Shape).Idx → E)
  (Wc1 : (⟨2, ![384, 64]⟩ : Shape).Idx → E) (bc1 : (⟨1, ![64]⟩ : Shape).Idx → E)
  (Wp : (⟨2, ![64, 1]⟩ : Shape).Idx → E) (bp : (⟨1, ![1]⟩ : Shape).Idx → E)

def hst (l : Fin 2) (b : Fin 64) (u : Fin 64) (n : Fin 512) : E := hs (ix3 l b (nu n u))

def cin0 (b : Fin 64) : Fin 1 → Fin 3 → Fin 512 → E := fun _ k n => cheb (sup adj) (fun j => inp (ix2 b j)) k n

def h0n (b : Fin 64) (u : Fin 64) (n : Fin 512) : E :=
  cell (sup adj) (cin0 inp adj b) (hst hs 0 b)
    (fun f k o => Wru0 (ix2 (fk (n := 65) ⟨f.val, by omega⟩ k) o)) (fun f k o => Wru0 (ix2 (fk (f1 f) k) o)) (fun o => bru0 (ix1 o))
    (fun f k o => Wc0 (ix2 (fk (n := 65) ⟨f.val, by omega⟩ k) o)) (fun f k o => Wc0 (ix2 (fk (f1 f) k) o)) (fun o => bc0 (ix1 o)) u n

def h1n (b : Fin 64) (u : Fin 64) (n : Fin 512) : E :=
  cell (sup adj) (fun f k n' => cheb (sup adj) (h0n inp hs adj Wru0 bru0 Wc0 bc0 b f) k n') (hst hs 1 b)
    (fun f k o => Wru1 (ix2 (fk (fa f) k) o)) (fun f k o => Wru1 (ix2 (fk (fb f) k) o)) (fun o => bru1 (ix1 o))
    (fun f k o => Wc1 (ix2 (fk (fa f) k) o)) (fun f k o => Wc1 (ix2 (fk (fb f) k) o)) (fun o => bc1 (ix1 o)) u n

def outv (b : Fin 64) (n : Fin 512) : E :=
  (∑ u : Fin 64, h1n inp hs adj Wru0 bru0 Wc0 bc0 Wru1 bru1 Wc1 bc1 b u n * Wp (ix2 u 0)) + bp (ix1 0)

def res0 : (⟨2, ![64, 512]⟩ : Shape).Idx → E := fun i =>
  outv inp hs adj Wru0 bru0 Wc0 bc0 Wru1 bru1 Wc1 bc1 Wp bp (i 0) (i 1)

def res1 : (⟨3, ![2, 64, 32768]⟩ : Shape).Idx → E := fun i =>
  let n : Fin 512 := ⟨(i 2).val / 64, by have h : (i 2).val < 32768 := (i 2).isLt; omega⟩
  let u : Fin 64 := ⟨(i 2).val % 64, Nat.mod_lt _ (by norm_num)⟩
  if (i 0).val = 0 then h0n inp hs adj Wru0 bru0 Wc0 bc0 (i 1) u n
  else h1n inp hs adj Wru0 bru0 Wc0 bc0 Wru1 bru1 Wc1 bc1 (i 1) u n
end Model

end Cert.Spec

end
-- ==== Proof.KHostC.lean ====
import proofs.«156303_g19069654794669_cont_sun_m_30_8_alg».proof.Proof.Gen.KernelIdeal.Launch
import proofs.«156303_g19069654794669_cont_sun_m_30_8_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KHostC

open Cert.KernelIdeal Cert.KernelIdeal.Gen Cert.Spec Idealize.ShloMosaic Idealize.ShloMosaic.ValueIdx Idealize.ShloMosaic.StableHlo

variable (W : Valuation τ sig (Elt Ideal))

theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem single_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

theorem read_v0 (n : Fin 512) (b : Fin 64) :
    (after hostOps0 W (Proc.devRef .tc main_v0) : S512x64.Idx → EReal) (ix2 n b)
      = (W (Proc.devRef .tc main_arg0) : S64x512.Idx → EReal) (ix2 b n) := by
  dsimp only [hostOps0]; after_results_simp
  exact transpose_ix2_apply _ _ n b

theorem read_v191 (i j : Fin 512) :
    (after hostOps0 W (Proc.devRef .tc main_v191) : S512x512.Idx → EReal) (ix2 i j)
      = (W (Proc.devRef .tc main_arg2) : S512x512.Idx → EReal) (ix2 j i) := by
  dsimp only [hostOps0]; after_results_simp
  exact transpose_ix2_apply _ _ i j

theorem read_v1 (l : Fin 2) (b : Fin 64) (n : Fin 512) (u : Fin 64) :
    (after hostOps0 W (Proc.devRef .tc main_v1) : S2x64x512x64.Idx → EReal) (ix4 l b n u)
      = (W (Proc.devRef .tc main_arg1) : S2x64x32768.Idx → EReal) (ix3 l b (nu n u)) := by
  dsimp only [hostOps0]; after_results_simp
  refine shapeCast_apply (s := S2x64x32768) (t := S2x64x512x64) _ _ (ix4 l b n u) (ix3 l b (nu n u)) ?_
  rw [Shape.rowMajor_val_three, Shape.rowMajor_val_four]
  show (l.val * 64 + b.val) * 32768 + (n.val * 64 + u.val) = ((l.val * 64 + b.val) * 512 + n.val) * 64 + u.val
  omega

/-- No operation before the first call writes the adjacency argument. -/
theorem read_arg2 : after hostOps0 W (Proc.devRef .tc main_arg2) = W (Proc.devRef .tc main_arg2) := by
  dsimp only [hostOps0]; after_results_simp

/-- Slab l of the state split into node and unit. -/
theorem slab4 (X : S2x64x512x64.Idx → EReal) (o : Nat) (hs : S2x64x512x64.Slices ![o, 0, 0, 0] S1x64x512x64) (l : Fin 2) (hl : l.val = o)
    (b : Fin 64) (n : Fin 512) (u : Fin 64) :
    shapeCast S64x512x64 (extractStridedSlice S1x64x512x64 ![o, 0, 0, 0] X hs) shapeCasts_S1x64x512x64_S64x512x64 (ix3 b n u) = X (ix4 l b n u) := by
  refine (shapeCast_1abc_abc_apply _ _ b n u).trans ?_
  refine extractStridedSlice_apply (s := S2x64x512x64) (t := S1x64x512x64) _ _ _ _ (ix4 l b n u) ?_
  intro a
  match a with
  | ⟨0, _⟩ => show l.val = o + 0; omega
  | ⟨1, _⟩ => show b.val = 0 + b.val; omega
  | ⟨2, _⟩ => show n.val = 0 + n.val; omega
  | ⟨3, _⟩ => show u.val = 0 + u.val; omega

theorem read_v199 (b : Fin 64) (n : Fin 512) (u : Fin 64) :
    (after hostOps1 W (Proc.devRef .tc main_v199) : S64x512x64.Idx → EReal) (ix3 b n u)
      = (W (Proc.devRef .tc main_v1) : S2x64x512x64.Idx → EReal) (ix4 0 b n u) := by
  dsimp only [hostOps1]; after_results
  exact slab4 _ 0 _ 0 rfl b n u

theorem read_v201 (b : Fin 64) (n : Fin 512) (u : Fin 64) :
    (after hostOps1 W (Proc.devRef .tc main_v201) : S64x512x64.Idx → EReal) (ix3 b n u)
      = (W (Proc.devRef .tc main_v1) : S2x64x512x64.Idx → EReal) (ix4 1 b n u) := by
  dsimp only [hostOps1]; after_results
  exact slab4 _ 1 _ 1 rfl b n u

theorem read_v197 (b : Fin 64) (n : Fin 512) (k : Fin 3) :
    (after hostOps1 W (Proc.devRef .tc main_v197) : S64x512x3.Idx → EReal) (ix3 b n k)
      = match k with
        | ⟨0, _⟩ => (W (Proc.devRef .tc main_v0) : S512x64.Idx → EReal) (ix2 n b)
        | ⟨1, _⟩ => (W (Proc.devRef .tc main_v192_1) : S512x64.Idx → EReal) (ix2 n b)
        | ⟨2, _⟩ => (W (Proc.devRef .tc main_v192_2) : S512x64.Idx → EReal) (ix2 n b) := by
  have e : (after hostOps1 W (Proc.devRef .tc main_v197) : S64x512x3.Idx → EReal)
      = transpose S64x512x3 [1, 0, 2]
          (concatenate S512x64x3 2
            [⟨S512x64x1, broadcastInDim S512x64x1 ![0, 1] bcast_S512x64_S512x64x1_0_1 (W (Proc.devRef .tc main_v0) : S512x64.Idx → EReal)⟩,
             ⟨S512x64x1, broadcastInDim S512x64x1 ![0, 1] bcast_S512x64_S512x64x1_0_1 (W (Proc.devRef .tc main_v192_1) : S512x64.Idx → EReal)⟩,
             ⟨S512x64x1, broadcastInDim S512x64x1 ![0, 1] bcast_S512x64_S512x64x1_0_1 (W (Proc.devRef .tc main_v192_2) : S512x64.Idx → EReal)⟩]
            concatenates_S512x64x1_S512x64x1_S512x64x1_S512x64x3_d2)
          transposes_S512x64x3_S64x512x3_1_0_2 := by
    dsimp only [hostOps1]
    simp only [after_cons, after_nil]
    rw [reshape_result_ne]; rotate_left; decide
    rw [unary_result_ne]; rotate_left; decide
    rw [reshape_result_ne]; rotate_left; decide
    rw [unary_result_ne]; rotate_left; decide
    rw [unary_result, nary3_result]
    repeat (first | rw [unary_result] | (rw [unary_result_ne]; rotate_left; decide))
    rfl
  rw [e]
  refine (transpose_apply (s := S512x64x3) (t := S64x512x3) _ _ _ (ix3 b n k) (ix3 n b k) fun a => match a with
    | ⟨0, _⟩ => rfl
    | ⟨1, _⟩ => rfl
    | ⟨2, _⟩ => rfl).trans ?_
  refine ((concatenate_ofFn_unit_apply (t := S512x64x3) (s₁ := S512x64x1) 2
    (fun k => broadcastInDim S512x64x1 ![0, 1] bcast_S512x64_S512x64x1_0_1 (![(W (Proc.devRef .tc main_v0) : S512x64.Idx → EReal),
      W (Proc.devRef .tc main_v192_1), W (Proc.devRef .tc main_v192_2)] k))
    concatenates_S512x64x1_S512x64x1_S512x64x1_S512x64x3_d2 rfl rfl _ k rfl (ix3 n b (0 : Fin 1)) fun a ha => match a, ha with
      | ⟨0, _⟩, _ => rfl
      | ⟨1, _⟩, _ => rfl
      | ⟨2, _⟩, ha => absurd rfl ha).trans
    (broadcastInDim_apply (s := S512x64) (t := S512x64x1) _ _ _ _ (ix2 n b) fun a => match a with
      | ⟨0, _⟩ => rfl
      | ⟨1, _⟩ => rfl)).trans ?_
  match k with
  | ⟨0, _⟩ => rfl
  | ⟨1, _⟩ => rfl
  | ⟨2, _⟩ => rfl

theorem keep1 (r : Ref sig .tc)
    (hr : r ∉ [main_v193, main_v194, main_v195, main_v196, main_v197, main_v198, main_v199, main_v200, main_v201]) :
    after hostOps1 W (Proc.devRef .tc r) = W (Proc.devRef .tc r) :=
  after_of_writes_sub hostOps1 W
    ⟨single_sub_of_mem (by decide), single_sub_of_mem (by decide), single_sub_of_mem (by decide),
     single_sub_of_mem (by decide), single_sub_of_mem (by decide), single_sub_of_mem (by decide),
     single_sub_of_mem (by decide), single_sub_of_mem (by decide), single_sub_of_mem (by decide)⟩ hr

theorem read_v203 (b : Fin 64) (n : Fin 512) :
    (after hostOps2 W (Proc.devRef .tc main_v203) : S64x512.Idx → EReal) (ix2 b n)
      = (W (Proc.devRef .tc main_v202_0) : S64x512x1.Idx → EReal) (ix3 b n 0) := by
  dsimp only [hostOps2]; after_results
  refine shapeCast_apply (s := S64x512x1) (t := S64x512) _ _ (ix2 b n) (ix3 b n 0) ?_
  rw [Shape.rowMajor_val_three, Shape.rowMajor_val_two]
  show ((b.val * 512 + n.val) * 1 + 0) = b.val * 512 + n.val
  omega

theorem read_v208 (l : Fin 2) (b : Fin 64) (n : Fin 512) (u : Fin 64) :
    (after hostOps2 W (Proc.devRef .tc main_v208) : S2x64x32768.Idx → EReal) (ix3 l b (nu n u))
      = if l.val = 0 then (W (Proc.devRef .tc main_v202_1) : S64x512x64.Idx → EReal) (ix3 b n u)
        else (W (Proc.devRef .tc main_v202_2) : S64x512x64.Idx → EReal) (ix3 b n u) := by
  dsimp only [hostOps2]; after_results
  refine ((concatenate_ofFn_unit_apply (t := S2x64x32768) (s₁ := S1x64x32768) 0
    (fun l => broadcastInDim S1x64x32768 ![1, 2] bcast_S64x32768_S1x64x32768_1_2 (shapeCast S64x32768
      (![(W (Proc.devRef .tc main_v202_1) : S64x512x64.Idx → EReal), W (Proc.devRef .tc main_v202_2)] l) shapeCasts_S64x512x64_S64x32768))
    concatenates_S1x64x32768_S1x64x32768_S2x64x32768_d0 rfl rfl _ l rfl (ix3 (0 : Fin 1) b (nu n u)) fun a ha => match a, ha with
      | ⟨0, _⟩, ha => absurd rfl ha
      | ⟨1, _⟩, _ => rfl
      | ⟨2, _⟩, _ => rfl).trans
    ((broadcastInDim_apply (s := S64x32768) (t := S1x64x32768) _ _ _ _ (ix2 b (nu n u)) fun a => match a with
      | ⟨0, _⟩ => rfl
      | ⟨1, _⟩ => rfl).trans
    (shapeCast_apply (s := S64x512x64) (t := S64x32768) _ _ (ix2 b (nu n u)) (ix3 b n u) (by
      rw [Shape.rowMajor_val_three, Shape.rowMajor_val_two]
      show (b.val * 512 + n.val) * 64 + u.val = b.val * 32768 + (n.val * 64 + u.val)
      omega)))).trans ?_
  fin_cases l <;> rfl

end Cert.KHostC

end
-- ==== Proof.KI.Tail.lean ====
import proofs.«156303_g19069654794669_cont_sun_m_30_8_alg».proof.Proof.KI.Run
import proofs.«156303_g19069654794669_cont_sun_m_30_8_alg».proof.Proof.KI.Fold
import proofs.«156303_g19069654794669_cont_sun_m_30_8_alg».proof.Proof.KHostC
import proofs.«156303_g19069654794669_cont_sun_m_30_8_alg».proof.Proof.Spec

noncomputable section

namespace Cert.KernelIdeal.Tail

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem kernel_res0
    (g18 : ∀ (b : Fin 64) (n : Fin 512),
      (W7 (F := Ideal) m ρ c (Proc.devRef .tc main_v202_0) : S64x512x1.Idx → EReal) (ix3 b n 0)
        = Cert.Spec.outv
        (m ((c : Thread nD τ).loc main_arg0) : S64x512.Idx → EReal)
        (m ((c : Thread nD τ).loc main_arg1) : S2x64x32768.Idx → EReal)
        (m ((c : Thread nD τ).loc main_arg2) : S512x512.Idx → EReal)
        (m ((c : Thread nD τ).loc main_arg3) : S195x128.Idx → EReal)
        (m ((c : Thread nD τ).loc main_arg4) : S128.Idx → EReal)
        (m ((c : Thread nD τ).loc main_arg5) : S195x64.Idx → EReal)
        (m ((c : Thread nD τ).loc main_arg6) : S64.Idx → EReal)
        (m ((c : Thread nD τ).loc main_arg7) : S384x128.Idx → EReal)
        (m ((c : Thread nD τ).loc main_arg8) : S128.Idx → EReal)
        (m ((c : Thread nD τ).loc main_arg9) : S384x64.Idx → EReal)
        (m ((c : Thread nD τ).loc main_arg10) : S64.Idx → EReal)
        (m ((c : Thread nD τ).loc main_arg11) : S64x1.Idx → EReal)
        (m ((c : Thread nD τ).loc main_arg12) : S1.Idx → EReal) b n) :
    (W8 (F := Ideal) m ρ c (Proc.devRef .tc main_v203) : S64x512.Idx → EReal)
      = Cert.Spec.res0
        (m ((c : Thread nD τ).loc main_arg0) : S64x512.Idx → EReal)
        (m ((c : Thread nD τ).loc main_arg1) : S2x64x32768.Idx → EReal)
        (m ((c : Thread nD τ).loc main_arg2) : S512x512.Idx → EReal)
        (m ((c : Thread nD τ).loc main_arg3) : S195x128.Idx → EReal)
        (m ((c : Thread nD τ).loc main_arg4) : S128.Idx → EReal)
        (m ((c : Thread nD τ).loc main_arg5) : S195x64.Idx → EReal)
        (m ((c : Thread nD τ).loc main_arg6) : S64.Idx → EReal)
        (m ((c : Thread nD τ).loc main_arg7) : S384x128.Idx → EReal)
        (m ((c : Thread nD τ).loc main_arg8) : S128.Idx → EReal)
        (m ((c : Thread nD τ).loc main_arg9) : S384x64.Idx → EReal)
        (m ((c : Thread nD τ).loc main_arg10) : S64.Idx → EReal)
        (m ((c : Thread nD τ).loc main_arg11) : S64x1.Idx → EReal)
        (m ((c : Thread nD τ).loc main_arg12) : S1.Idx → EReal) := by
  funext i
  obtain ⟨b, n, rfl⟩ : ∃ b n, i = ix2 b n := ⟨i 0, i 1, eq_ix2 i⟩
  have e : (W8 (F := Ideal) m ρ c (Proc.devRef .tc main_v203) : S64x512.Idx → EReal) (ix2 b n)
      = (W7 (F := Ideal) m ρ c (Proc.devRef .tc main_v202_0) : S64x512x1.Idx → EReal) (ix3 b n 0) := by
    show (StableHlo.after main_part3_ops2 (W7 (F := Ideal) m ρ c) (Proc.devRef .tc main_v203) : S64x512.Idx → EReal)
      (ix2 b n) = _
    rw [ops2_eq]
    exact Cert.KHostC.read_v203 (W7 (F := Ideal) m ρ c) b n
  exact e.trans (g18 b n)

theorem kernel_res1
    (g19 : ∀ (b : Fin 64) (n : Fin 512) (u : Fin 64),
      (W7 (F := Ideal) m ρ c (Proc.devRef .tc main_v202_1) : S64x512x64.Idx → EReal) (ix3 b n u)
        = Cert.Spec.h0n
        (m ((c : Thread nD τ).loc main_arg0) : S64x512.Idx → EReal)
        (m ((c : Thread nD τ).loc main_arg1) : S2x64x32768.Idx → EReal)
        (m ((c : Thread nD τ).loc main_arg2) : S512x512.Idx → EReal)
        (m ((c : Thread nD τ).loc main_arg3) : S195x128.Idx → EReal)
        (m ((c : Thread nD τ).loc main_arg4) : S128.Idx → EReal)
        (m ((c : Thread nD τ).loc main_arg5) : S195x64.Idx → EReal)
        (m ((c : Thread nD τ).loc main_arg6) : S64.Idx → EReal) b u n)
    (g20 : ∀ (b : Fin 64) (n : Fin 512) (u : Fin 64),
      (W7 (F := Ideal) m ρ c (Proc.devRef .tc main_v202_2) : S64x512x64.Idx → EReal) (ix3 b n u)
        = Cert.Spec.h1n
        (m ((c : Thread nD τ).loc main_arg0) : S64x512.Idx → EReal)
        (m ((c : Thread nD τ).loc main_arg1) : S2x64x32768.Idx → EReal)
        (m ((c : Thread nD τ).loc main_arg2) : S512x512.Idx → EReal)
        (m ((c : Thread nD τ).loc main_arg3) : S195x128.Idx → EReal)
        (m ((c : Thread nD τ).loc main_arg4) : S128.Idx → EReal)
        (m ((c : Thread nD τ).loc main_arg5) : S195x64.Idx → EReal)
        (m ((c : Thread nD τ).loc main_arg6) : S64.Idx → EReal)
        (m ((c : Thread nD τ).loc main_arg7) : S384x128.Idx → EReal)
        (m ((c : Thread nD τ).loc main_arg8) : S128.Idx → EReal)
        (m ((c : Thread nD τ).loc main_arg9) : S384x64.Idx → EReal)
        (m ((c : Thread nD τ).loc main_arg10) : S64.Idx → EReal) b u n) :
    (W8 (F := Ideal) m ρ c (Proc.devRef .tc main_v208) : S2x64x32768.Idx → EReal)
      = Cert.Spec.res1
        (m ((c : Thread nD τ).loc main_arg0) : S64x512.Idx → EReal)
        (m ((c : Thread nD τ).loc main_arg1) : S2x64x32768.Idx → EReal)
        (m ((c : Thread nD τ).loc main_arg2) : S512x512.Idx → EReal)
        (m ((c : Thread nD τ).loc main_arg3) : S195x128.Idx → EReal)
        (m ((c : Thread nD τ).loc main_arg4) : S128.Idx → EReal)
        (m ((c : Thread nD τ).loc main_arg5) : S195x64.Idx → EReal)
        (m ((c : Thread nD τ).loc main_arg6) : S64.Idx → EReal)
        (m ((c : Thread nD τ).loc main_arg7) : S384x128.Idx → EReal)
        (m ((c : Thread nD τ).loc main_arg8) : S128.Idx → EReal)
        (m ((c : Thread nD τ).loc main_arg9) : S384x64.Idx → EReal)
        (m ((c : Thread nD τ).loc main_arg10) : S64.Idx → EReal) := by
  funext i
  obtain ⟨l, b, p, rfl⟩ : ∃ l b p, i = ix3 l b p := ⟨i 0, i 1, i 2, eq_ix3 i⟩
  have h1 : p.val / 64 < 512 := by have := p.isLt; omega
  have h2 : p.val % 64 < 64 := Nat.mod_lt _ (by norm_num)
  have hp : nu ⟨p.val / 64, h1⟩ ⟨p.val % 64, h2⟩ = p :=
    Fin.ext (by show p.val / 64 * 64 + p.val % 64 = p.val; omega)
  have e := Cert.KHostC.read_v208 (W7 (F := Ideal) m ρ c) l b ⟨p.val / 64, h1⟩ ⟨p.val % 64, h2⟩
  rw [hp, g19, g20] at e
  show (StableHlo.after main_part3_ops2 (W7 (F := Ideal) m ρ c) (Proc.devRef .tc main_v208) : S2x64x32768.Idx → EReal)
    (ix3 l b p) = _
  rw [ops2_eq, e]
  rfl

end Cert.KernelIdeal.Tail

end
-- ==== Proof.KI.Cover.lean ====
import proofs.«156303_g19069654794669_cont_sun_m_30_8_alg».proof.Proof.KI.Region0
import proofs.«156303_g19069654794669_cont_sun_m_30_8_alg».proof.Proof.KI.Region1
import proofs.«156303_g19069654794669_cont_sun_m_30_8_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.Spec (ts)

variable {F : FTy → Type} [FloatOps F]

variable (V : (c : Dev nD) → (b : Ref sig .tc) → Buf (Elt F) ((c : Thread nD τ).loc b))

/-- A block whose index is zero on every axis sits in its array at its own coordinates. -/
theorem emb_zero {G} (w : Window sig G) (t : Fin G.N) (h : ∀ a, w.index t a = 0)
    (y : (w.xblock (G.coords t)).Idx) (i : w.shape.Idx) (hi : ∀ a, (i a : ℕ) = y a) : (w.rect t).emb y = i :=
  funext fun a => Fin.ext ((w.rect_emb_val_of_index_zero t a (h a) y).trans (hi a).symm)

theorem iblk0_eq_0 (c : Dev nD) (t : Fin cfg0.N) :
    (iblk0 V c 0 t : Vec F S512x512 .f32) = V c (Pipeline.arrRef spec0 0) :=
  funext fun j => congrArg (V c (Pipeline.arrRef spec0 0)) (emb_zero win0_0 t (fun _ => rfl) j j fun _ => rfl)
theorem iblk0_eq_1 (c : Dev nD) (t : Fin cfg0.N) :
    (iblk0 V c 1 t : Vec F S512x512 .f32) = V c (Pipeline.arrRef spec0 1) :=
  funext fun j => congrArg (V c (Pipeline.arrRef spec0 1)) (emb_zero win0_1 t (fun _ => rfl) j j fun _ => rfl)
theorem iblk0_eq_2 (c : Dev nD) (t : Fin cfg0.N) :
    (iblk0 V c 2 t : Vec F S512x64 .f32) = V c (Pipeline.arrRef spec0 2) :=
  funext fun j => congrArg (V c (Pipeline.arrRef spec0 2)) (emb_zero win0_2 t (fun _ => rfl) j j fun _ => rfl)

/-- The one block of a result of the first launch is the whole array, so the array ends as what the point leaves. -/
theorem arr0_3 (c : Dev nD) :
    (dat0 V c).arrAt 3 cfg0.N = out0_3 (V c (Pipeline.arrRef spec0 0)) (V c (Pipeline.arrRef spec0 1)) :=
  (dat0 V c).arrAt_eq_of_cover 3 _ (fun t _ => by
    show (dat0 V c).after 3 t = _
    rw [after0_3, iblk0_eq_0, iblk0_eq_1]
    generalize out0_3 (F := F) _ _ = X
    exact funext fun j => congrArg X (emb_zero win0_3 t (fun _ => rfl) j j fun _ => rfl).symm)
    fun i => ⟨t0_0, flush0_3 t0_0, emb_zero win0_3 t0_0 (fun _ => rfl) i i (fun _ => rfl) ▸ ((cfg0.win 3).blk t0_0).view.emb_mem_set i⟩
theorem arr0_4 (c : Dev nD) :
    (dat0 V c).arrAt 4 cfg0.N = out0_4 (V c (Pipeline.arrRef spec0 0)) (V c (Pipeline.arrRef spec0 1)) (V c (Pipeline.arrRef spec0 2)) :=
  (dat0 V c).arrAt_eq_of_cover 4 _ (fun t _ => by
    show (dat0 V c).after 4 t = _
    rw [after0_4, iblk0_eq_0, iblk0_eq_1, iblk0_eq_2]
    generalize out0_4 (F := F) _ _ _ = X
    exact funext fun j => congrArg X (emb_zero win0_4 t (fun _ => rfl) j j fun _ => rfl).symm)
    fun i => ⟨t0_0, flush0_4 t0_0, emb_zero win0_4 t0_0 (fun _ => rfl) i i (fun _ => rfl) ▸ ((cfg0.win 4).blk t0_0).view.emb_mem_set i⟩
theorem arr0_5 (c : Dev nD) :
    (dat0 V c).arrAt 5 cfg0.N = out0_5 (V c (Pipeline.arrRef spec0 0)) (V c (Pipeline.arrRef spec0 1)) (V c (Pipeline.arrRef spec0 2)) :=
  (dat0 V c).arrAt_eq_of_cover 5 _ (fun t _ => by
    show (dat0 V c).after 5 t = _
    rw [after0_5, iblk0_eq_0, iblk0_eq_1, iblk0_eq_2]
    generalize out0_5 (F := F) _ _ _ = X
    exact funext fun j => congrArg X (emb_zero win0_5 t (fun _ => rfl) j j fun _ => rfl).symm)
    fun i => ⟨t0_0, flush0_5 t0_0, emb_zero win0_5 t0_0 (fun _ => rfl) i i (fun _ => rfl) ▸ ((cfg0.win 5).blk t0_0).view.emb_mem_set i⟩

abbrev pt (t : Fin cfg1.N) : Fin 32 := Fin.cast N_1 t

/-- The second launch's index maps: zero, but on the batch axis of the six windows of two batch elements, where it is the point. -/
theorem idx1_full : ∀ w : Fin 21, w.val ∉ [1, 2, 3, 18, 19, 20] →
    ∀ (t : Fin grid1.N) (a : Fin (win1 w).shape.rank), (win1 w).index t a = 0 := by decide +kernel
theorem idx1_pair : ∀ w : Fin 21, w.val ∈ [1, 2, 3, 18, 19, 20] →
    ∀ (t : Fin grid1.N) (a : Fin (win1 w).shape.rank), (win1 w).index t a = if a.val = 0 then t.val else 0 := by decide +kernel

/-- Slot s of point t's block of two batch elements is batch element 2t + s, the other coordinates kept. -/
theorem pair_val {N M : ℕ} (t : Fin cfg1.N) (s : Fin 2) (n : Fin N) (k : Fin M) (a : Fin 3) (x : ℕ)
    (hx : x = if a.val = 0 then t.val else 0) :
    x * ![2, N, M] a + (ix3 s n k a).val = (ix3 (ts (pt t) s) n k a).val := by
  subst hx
  match a with
  | ⟨0, _⟩ => show t.val * 2 + s.val = 2 * t.val + s.val; omega
  | ⟨1, _⟩ => show 0 * N + n.val = n.val; omega
  | ⟨2, _⟩ => show 0 * M + k.val = k.val; omega

theorem emb1_1 (t : Fin cfg1.N) (s : Fin 2) (n : Fin 512) (k : Fin 3) :
    (win1_1.rect t).emb (ix3 s n k) = ix3 (ts (pt t) s) n k :=
  funext fun a => Fin.ext ((win1_1.rect_emb_val t _ a).trans (pair_val t s n k a _ (idx1_pair 1 (by decide) t a)))
theorem emb1_2 (t : Fin cfg1.N) (s : Fin 2) (n : Fin 512) (k : Fin 64) :
    (win1_2.rect t).emb (ix3 s n k) = ix3 (ts (pt t) s) n k :=
  funext fun a => Fin.ext ((win1_2.rect_emb_val t _ a).trans (pair_val t s n k a _ (idx1_pair 2 (by decide) t a)))
theorem emb1_3 (t : Fin cfg1.N) (s : Fin 2) (n : Fin 512) (k : Fin 64) :
    (win1_3.rect t).emb (ix3 s n k) = ix3 (ts (pt t) s) n k :=
  funext fun a => Fin.ext ((win1_3.rect_emb_val t _ a).trans (pair_val t s n k a _ (idx1_pair 3 (by decide) t a)))
theorem emb1_18 (t : Fin cfg1.N) (s : Fin 2) (n : Fin 512) (k : Fin 1) :
    (win1_18.rect t).emb (ix3 s n k) = ix3 (ts (pt t) s) n k :=
  funext fun a => Fin.ext ((win1_18.rect_emb_val t _ a).trans (pair_val t s n k a _ (idx1_pair 18 (by decide) t a)))
theorem emb1_19 (t : Fin cfg1.N) (s : Fin 2) (n : Fin 512) (k : Fin 64) :
    (win1_19.rect t).emb (ix3 s n k) = ix3 (ts (pt t) s) n k :=
  funext fun a => Fin.ext ((win1_19.rect_emb_val t _ a).trans (pair_val t s n k a _ (idx1_pair 19 (by decide) t a)))
theorem emb1_20 (t : Fin cfg1.N) (s : Fin 2) (n : Fin 512) (k : Fin 64) :
    (win1_20.rect t).emb (ix3 s n k) = ix3 (ts (pt t) s) n k :=
  funext fun a => Fin.ext ((win1_20.rect_emb_val t _ a).trans (pair_val t s n k a _ (idx1_pair 20 (by decide) t a)))

theorem ex3 {n0 n1 n2 : ℕ} (j : (⟨3, ![n0, n1, n2]⟩ : Shape).Idx) : ∃ a b c, j = ix3 a b c := ⟨_, _, _, eq_ix3 j⟩

/-- Every batch element is a slot of a point: b = 2 (b / 2) + b % 2. -/
theorem ts_surj (b : Fin 64) : ∃ (t : Fin cfg1.N) (s : Fin 2), ts (pt t) s = b :=
  ⟨Fin.cast N_1.symm ⟨b.val / 2, by omega⟩, ⟨b.val % 2, by omega⟩, Fin.ext (by show 2 * (b.val / 2) + b.val % 2 = b.val; omega)⟩

/-- If every point leaves in its result block the point's two batch elements of G, the array ends as G. -/
theorem arr1_18 (c : Dev nD) (G : S64x512x1.Idx → Elt F .f32)
    (h : ∀ (t : Fin cfg1.N) (s : Fin 2) (n : Fin 512),
      ((dat1 V c).after 18 t : Vec F S2x512x1 .f32) (ix3 s n (0 : Fin 1)) = G (ix3 (ts (pt t) s) n (0 : Fin 1))) :
    (dat1 V c).arrAt 18 cfg1.N = G :=
  (dat1 V c).arrAt_eq_of_cover 18 G (fun t _ => funext fun j => by
    obtain ⟨s, n, u, rfl⟩ := ex3 j
    obtain rfl : u = 0 := Subsingleton.elim _ _
    exact (h t s n).trans (congrArg G (emb1_18 t s n 0).symm)) fun i => by
    obtain ⟨b, n, u, rfl⟩ := ex3 i
    obtain ⟨t, s, rfl⟩ := ts_surj b
    rw [← emb1_18 t s n u]
    exact ⟨t, flush1_18 t, ((cfg1.win 18).blk t).view.emb_mem_set _⟩
theorem arr1_19 (c : Dev nD) (G : S64x512x64.Idx → Elt F .f32)
    (h : ∀ (t : Fin cfg1.N) (s : Fin 2) (n : Fin 512) (u : Fin 64),
      ((dat1 V c).after 19 t : Vec F S2x512x64 .f32) (ix3 s n u) = G (ix3 (ts (pt t) s) n u)) :
    (dat1 V c).arrAt 19 cfg1.N = G :=
  (dat1 V c).arrAt_eq_of_cover 19 G (fun t _ => funext fun j => by
    obtain ⟨s, n, u, rfl⟩ := ex3 j
    exact (h t s n u).trans (congrArg G (emb1_19 t s n u).symm)) fun i => by
    obtain ⟨b, n, u, rfl⟩ := ex3 i
    obtain ⟨t, s, rfl⟩ := ts_surj b
    rw [← emb1_19 t s n u]
    exact ⟨t, flush1_19 t, ((cfg1.win 19).blk t).view.emb_mem_set _⟩
theorem arr1_20 (c : Dev nD) (G : S64x512x64.Idx → Elt F .f32)
    (h : ∀ (t : Fin cfg1.N) (s : Fin 2) (n : Fin 512) (u : Fin 64),
      ((dat1 V c).after 20 t : Vec F S2x512x64 .f32) (ix3 s n u) = G (ix3 (ts (pt t) s) n u)) :
    (dat1 V c).arrAt 20 cfg1.N = G :=
  (dat1 V c).arrAt_eq_of_cover 20 G (fun t _ => funext fun j => by
    obtain ⟨s, n, u, rfl⟩ := ex3 j
    exact (h t s n u).trans (congrArg G (emb1_20 t s n u).symm)) fun i => by
    obtain ⟨b, n, u, rfl⟩ := ex3 i
    obtain ⟨t, s, rfl⟩ := ts_surj b
    rw [← emb1_20 t s n u]
    exact ⟨t, flush1_20 t, ((cfg1.win 20).blk t).view.emb_mem_set _⟩

end Cert.KernelIdeal.Hand

end
-- ==== Proof.KPrep.lean ====
import proofs.«156303_g19069654794669_cont_sun_m_30_8_alg».proof.Proof.KI.Region0
import proofs.«156303_g19069654794669_cont_sun_m_30_8_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KPrep

open Cert.Spec
open Cert.KernelIdeal Cert.KernelIdeal.Gen Cert.KernelIdeal.Hand
open Idealize.ShloMosaic Idealize.ShloMosaic.ValueIdx

theorem off0 : (![0, 0] : Fin 2 → ℕ) = fun _ => 0 := funext fun a => by fin_cases a <;> rfl

theorem one_f32 : Ideal.ofBits .f32 0x3F800000#32 = 1 := by
  simp [Ideal.ofBits, Ideal.ieee, -EReal.coe_mul]; norm_num

variable (x0 x1 : Vec Ideal S512x512 .f32) (x2 : Vec Ideal S512x64 .f32)

theorem out0_3_eq : out0_3 (F := Ideal) x0 x1 = k0_pay2 (F := Ideal) x0 x1 := by
  unfold out0_3
  rw [View.canon_unit_zero off0, View.ld_unit_zero off0, View.ld_unit_zero off0]
theorem out0_4_eq : out0_4 (F := Ideal) x0 x1 x2 = k0_pay4 (F := Ideal) x0 x1 x2 := by
  unfold out0_4
  rw [View.canon_unit_zero off0, View.ld_unit_zero off0, View.ld_unit_zero off0, View.ld_unit_zero off0]
theorem out0_5_eq : out0_5 (F := Ideal) x0 x1 x2 = k0_pay1 (F := Ideal) (k0_pay3 x2) (k0_pay5 x0 x1 x2) := by
  unfold out0_5
  rw [View.canon_unit_zero off0, View.ld_unit_zero off0, View.ld_unit_zero off0, View.ld_unit_zero off0]

def symA : FVec Ideal S512x512 .f32 := maximumf x0 (shapeCast S512x512 x1 shapeCasts_S512x512_S512x512)

def rowD : FVec Ideal S512x1 .f32 :=
  shapeCast S512x1 (multiReduction (F := Ideal) .add [1] S512 (symA x0 x1) 0x00000000#32 reduces_S512x512_S512 (.inl rfl) rfl)
    shapeCasts_S512_S512x1

def colD : FVec Ideal S1x512 .f32 :=
  shapeCast S1x512 (multiReduction (F := Ideal) .add [0] S512 (symA x0 x1) 0x00000000#32 reduces_S512x512_S512_2 (.inl rfl) rfl)
    shapeCasts_S512_S1x512

def invOf {s : Shape} (d : FVec Ideal s .f32) : FVec Ideal s .f32 :=
  select (cmpf .ogt d (broadcast s (Scalar.ofBits .f32 0x00000000#32)))
    (divf (broadcast s (Scalar.ofBits .f32 0x3F800000#32)) (sqrt d)) (broadcast s (Scalar.ofBits .f32 0x00000000#32))

theorem pay2_eq : k0_pay2 (F := Ideal) x0 x1
    = mulf (subf (broadcast S512x512 (Scalar.ofBits .f32 0x00000000#32))
        (mulf (broadcastTo S512x512 (invOf (rowD x0 x1)) broadcasts_S512x1_S512x512) (symA x0 x1)))
      (broadcastTo S512x512 (invOf (colD x0 x1)) broadcasts_S1x512_S512x512) := rfl

variable {x0 x1}

theorem symA_apply (hT : ∀ i j : Fin 512, x1 (ix2 i j) = x0 (ix2 j i)) (i j : Fin 512) :
    symA x0 x1 (ix2 i j) = amax x0 i j := by
  unfold symA
  rw [shapeCast_self, maximumf_apply, hT]
  rfl

theorem rowsum_apply (A : FVec Ideal S512x512 .f32) (i : Fin 512) :
    multiReduction (F := Ideal) .add [1] S512 A 0x00000000#32 reduces_S512x512_S512 (.inl rfl) rfl (ix1 i)
      = ∑ k : Fin 512, A (ix2 i k) := by
  refine (Ideal.multiReduction_add_single A 0x00000000#32 reduces_S512x512_S512 (.inl rfl) rfl (ix1 i)).trans ?_
  refine Finset.sum_congr rfl fun k _ => congrArg A (funext fun a => Fin.ext ?_)
  match a with
  | ⟨0, _⟩ => rfl
  | ⟨1, _⟩ => rfl

theorem colsum_apply (A : FVec Ideal S512x512 .f32) (j : Fin 512) :
    multiReduction (F := Ideal) .add [0] S512 A 0x00000000#32 reduces_S512x512_S512_2 (.inl rfl) rfl (ix1 j)
      = ∑ k : Fin 512, A (ix2 k j) := by
  refine (Ideal.multiReduction_add_single A 0x00000000#32 reduces_S512x512_S512_2 (.inl rfl) rfl (ix1 j)).trans ?_
  refine Finset.sum_congr rfl fun k _ => congrArg A (funext fun a => Fin.ext ?_)
  match a with
  | ⟨0, _⟩ => rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem invOf_apply {s : Shape} (d : FVec Ideal s .f32) (k : s.Idx) :
    invOf d k = if 0 < d k then Ideal.div 1 (Ideal.sqrt (d k)) else 0 := by
  unfold invOf
  rw [select_apply, cmpf_apply, divf_apply, broadcast_apply, broadcast_apply]
  show Scalar.select (Ideal.cmp .ogt (d k) (Ideal.ofBits .f32 0x00000000#32))
      (Ideal.div (Ideal.ofBits .f32 0x3F800000#32) (Ideal.sqrt (d k))) (Ideal.ofBits .f32 0x00000000#32) = _
  rw [Ideal.ofBits_zero_f32, one_f32]
  by_cases h : 0 < d k
  · rw [if_pos h]
    have : Ideal.cmp .ogt (d k) 0 = 1#1 := by simp [Ideal.cmp, h]
    rw [this, select_one]
  · rw [if_neg h]
    have : Ideal.cmp .ogt (d k) 0 = 0#1 := by simp [Ideal.cmp, h]
    rw [this, select_zero]

theorem rowD_apply (hT : ∀ i j : Fin 512, x1 (ix2 i j) = x0 (ix2 j i)) (i : Fin 512) (u : Fin 1) :
    rowD x0 x1 (ix2 i u) = deg x0 i := by
  unfold rowD
  rw [shapeCast_a_a1_apply, rowsum_apply]
  exact Finset.sum_congr rfl fun k _ => symA_apply hT i k

theorem colD_apply (hT : ∀ i j : Fin 512, x1 (ix2 i j) = x0 (ix2 j i)) (u : Fin 1) (j : Fin 512) :
    colD x0 x1 (ix2 u j) = deg x0 j := by
  unfold colD
  rw [shapeCast_a_1a_apply, colsum_apply]
  exact Finset.sum_congr rfl fun k _ => (symA_apply hT k j).trans (amax_symm x0 k j)

theorem pay2_apply (hT : ∀ i j : Fin 512, x1 (ix2 i j) = x0 (ix2 j i)) (i j : Fin 512) :
    k0_pay2 (F := Ideal) x0 x1 (ix2 i j) = Cert.Spec.sup x0 i j := by
  rw [pay2_eq, mulf_apply, subf_apply, mulf_apply, broadcast_apply,
    broadcastTo_a1_ab_apply, broadcastTo_1b_ab_apply, invOf_apply, invOf_apply,
    rowD_apply hT, colD_apply hT, symA_apply hT]
  show (Ideal.ofBits .f32 0x00000000#32 - dis x0 i * amax x0 i j) * dis x0 j = _
  rw [Ideal.ofBits_zero_f32, zero_sub, neg_mul]
  rfl

theorem prep_sup (hT : ∀ i j : Fin 512, x1 (ix2 i j) = x0 (ix2 j i)) (i j : Fin 512) :
    Cert.KernelIdeal.Hand.out0_3 (F := Ideal) x0 x1 (ix2 i j) = Cert.Spec.sup x0 i j := by
  rw [out0_3_eq]; exact pay2_apply hT i j

theorem lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

theorem matmul_zero_apply (L : FVec Ideal S512x512 .f32) (R : FVec Ideal S512x64 .f32) (n : Fin 512) (b : Fin 64) :
    matmul dot_S512x512_S512x64_S512x64_1_0_0_1_n_n none L R (constant (F := Ideal) S512x64 .f32 0x00000000#32) (ix2 n b)
      = ∑ k : Fin 512, L (ix2 n k) * R (ix2 k b) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 n b) ((contrEquiv1 dot_S512x512_S512x64_S512x64_1_0_0_1_n_n 512 rfl rfl).symm k) = ix2 n k := funext fun a => Fin.ext (by
    match a with
    | ⟨0, _⟩ => exact lhs_0 _ _
    | ⟨1, _⟩ => exact (lhs_1 _ _).trans hk)
  have er : dot_S512x512_S512x64_S512x64_1_0_0_1_n_n.rhsIdx (ix2 n b) ((contrEquiv1 dot_S512x512_S512x64_S512x64_1_0_0_1_n_n 512 rfl rfl).symm k) = ix2 k b := funext fun a => Fin.ext (by
    match a with
    | ⟨0, _⟩ => exact (rhs_0 _ _).trans hk
    | ⟨1, _⟩ => exact rhs_1 _ _)
  rw [el, er]

variable {x2}

theorem pay4_apply (hT : ∀ i j : Fin 512, x1 (ix2 i j) = x0 (ix2 j i)) (n : Fin 512) (b : Fin 64) :
    k0_pay4 (F := Ideal) x0 x1 x2 (ix2 n b) = d1 (Cert.Spec.sup x0) (fun j => x2 (ix2 j b)) n := by
  unfold k0_pay4 k0_pay3
  rw [matmul_zero_apply, shapeCast_self]
  exact Finset.sum_congr rfl fun k _ => by rw [pay2_apply hT]

theorem pay5_apply (hT : ∀ i j : Fin 512, x1 (ix2 i j) = x0 (ix2 j i)) (n : Fin 512) (b : Fin 64) :
    k0_pay1 (F := Ideal) (k0_pay3 x2) (k0_pay5 x0 x1 x2) (ix2 n b)
      = d2 (Cert.Spec.sup x0) (fun j => x2 (ix2 j b)) n := by
  unfold k0_pay1 k0_pay5 k0_pay3
  rw [subf_apply, mulf_apply, broadcast_apply, matmul_zero_apply, shapeCast_self]
  unfold d2
  refine congrArg₂ (· - ·) (congrArg₂ (· * ·) rfl (Finset.sum_congr rfl fun k _ => ?_)) rfl
  rw [pay2_apply hT, pay4_apply hT]

theorem prep_a1 (hT : ∀ i j : Fin 512, x1 (ix2 i j) = x0 (ix2 j i)) (n : Fin 512) (b : Fin 64) :
    Cert.KernelIdeal.Hand.out0_4 (F := Ideal) x0 x1 x2 (ix2 n b)
      = Cert.Spec.d1 (Cert.Spec.sup x0) (fun j => x2 (ix2 j b)) n := by
  rw [out0_4_eq]; exact pay4_apply hT n b

theorem prep_a2 (hT : ∀ i j : Fin 512, x1 (ix2 i j) = x0 (ix2 j i)) (n : Fin 512) (b : Fin 64) :
    Cert.KernelIdeal.Hand.out0_5 (F := Ideal) x0 x1 x2 (ix2 n b)
      = Cert.Spec.d2 (Cert.Spec.sup x0) (fun j => x2 (ix2 j b)) n := by
  rw [out0_5_eq]; exact pay5_apply hT n b

end Cert.KPrep

end
-- ==== Proof.KI.Entry.lean ====
import proofs.«156303_g19069654794669_cont_sun_m_30_8_alg».proof.Proof.KI.Run
import proofs.«156303_g19069654794669_cont_sun_m_30_8_alg».proof.Proof.KI.Fold
import proofs.«156303_g19069654794669_cont_sun_m_30_8_alg».proof.Proof.KHostC
import proofs.«156303_g19069654794669_cont_sun_m_30_8_alg».proof.Proof.KPrep
import proofs.«156303_g19069654794669_cont_sun_m_30_8_alg».proof.Proof.Spec

set_option maxRecDepth 16384

noncomputable section

namespace Cert.KernelIdeal.Entry

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

abbrev a0 : S64x512.Idx → EReal := m ((c : Thread nD τ).loc main_arg0)
abbrev a1 : S2x64x32768.Idx → EReal := m ((c : Thread nD τ).loc main_arg1)
abbrev a2 : S512x512.Idx → EReal := m ((c : Thread nD τ).loc main_arg2)

theorem W4_eq : W4 (F := Ideal) m ρ c = StableHlo.after hostOps0 (W0 m ρ c) := by
  rw [hostOps0_split, after_append, after_append, after_append]

theorem W6_eq : W6 (F := Ideal) m ρ c = StableHlo.after hostOps1 (W5 m ρ c) := rfl

theorem W8_eq : W8 (F := Ideal) m ρ c = StableHlo.after hostOps2 (W7 m ρ c) := rfl

theorem e_adj : (W4 (F := Ideal) m ρ c (Proc.devRef .tc main_arg2) : S512x512.Idx → EReal) = a2 m c := by
  rw [W4_eq, KHostC.read_arg2]

theorem e_adjT (i j : Fin 512) :
    (W4 (F := Ideal) m ρ c (Proc.devRef .tc main_v191) : S512x512.Idx → EReal) (ix2 i j) = a2 m c (ix2 j i) := by
  rw [W4_eq]; exact KHostC.read_v191 (W0 m ρ c) i j

theorem e_inpT (n : Fin 512) (b : Fin 64) :
    (W4 (F := Ideal) m ρ c (Proc.devRef .tc main_v0) : S512x64.Idx → EReal) (ix2 n b) = a0 m c (ix2 b n) := by
  rw [W4_eq]; exact KHostC.read_v0 (W0 m ρ c) n b

theorem hT (i j : Fin 512) :
    (V4 (F := Ideal) m ρ c (Pipeline.arrRef spec0 1) : S512x512.Idx → EReal) (ix2 i j)
      = (V4 (F := Ideal) m ρ c (Pipeline.arrRef spec0 0) : S512x512.Idx → EReal) (ix2 j i) :=
  (e_adjT m ρ c i j).trans (congrFun (e_adj m ρ c) (ix2 j i)).symm

theorem r_sup
    (h3 : (dat0 (V4 (F := Ideal) m ρ) c).arrAt 3 cfg0.N
      = out0_3 (V4 m ρ c (Pipeline.arrRef spec0 0)) (V4 m ρ c (Pipeline.arrRef spec0 1)))
    (i j : Fin 512) :
    (W5 (F := Ideal) m ρ c (Proc.devRef .tc main_v192_0) : S512x512.Idx → EReal) (ix2 i j) = sup (a2 m c) i j := by
  have h := W5_arr (F := Ideal) m ρ c 3
  rw [h3] at h
  refine (congrFun h (ix2 i j)).trans ?_
  rw [KPrep.prep_sup (hT m ρ c) i j]
  exact congrArg (fun A => sup A i j) (e_adj m ρ c)

theorem r_a1
    (h4 : (dat0 (V4 (F := Ideal) m ρ) c).arrAt 4 cfg0.N
      = out0_4 (V4 m ρ c (Pipeline.arrRef spec0 0)) (V4 m ρ c (Pipeline.arrRef spec0 1)) (V4 m ρ c (Pipeline.arrRef spec0 2)))
    (n : Fin 512) (b : Fin 64) :
    (W5 (F := Ideal) m ρ c (Proc.devRef .tc main_v192_1) : S512x64.Idx → EReal) (ix2 n b)
      = d1 (sup (a2 m c)) (fun j => a0 m c (ix2 b j)) n := by
  have h := W5_arr (F := Ideal) m ρ c 4
  rw [h4] at h
  refine (congrFun h (ix2 n b)).trans ?_
  rw [KPrep.prep_a1 (hT m ρ c) n b]
  have e0 : (fun j : Fin 512 => (V4 (F := Ideal) m ρ c (Pipeline.arrRef spec0 2) : S512x64.Idx → EReal) (ix2 j b))
      = fun j => a0 m c (ix2 b j) := funext fun j => e_inpT m ρ c j b
  rw [e0]
  exact congrArg (fun A => d1 (sup A) (fun j => a0 m c (ix2 b j)) n) (e_adj m ρ c)

theorem r_a2
    (h5 : (dat0 (V4 (F := Ideal) m ρ) c).arrAt 5 cfg0.N
      = out0_5 (V4 m ρ c (Pipeline.arrRef spec0 0)) (V4 m ρ c (Pipeline.arrRef spec0 1)) (V4 m ρ c (Pipeline.arrRef spec0 2)))
    (n : Fin 512) (b : Fin 64) :
    (W5 (F := Ideal) m ρ c (Proc.devRef .tc main_v192_2) : S512x64.Idx → EReal) (ix2 n b)
      = d2 (sup (a2 m c)) (fun j => a0 m c (ix2 b j)) n := by
  have h := W5_arr (F := Ideal) m ρ c 5
  rw [h5] at h
  refine (congrFun h (ix2 n b)).trans ?_
  rw [KPrep.prep_a2 (hT m ρ c) n b]
  have e0 : (fun j : Fin 512 => (V4 (F := Ideal) m ρ c (Pipeline.arrRef spec0 2) : S512x64.Idx → EReal) (ix2 j b))
      = fun j => a0 m c (ix2 b j) := funext fun j => e_inpT m ρ c j b
  rw [e0]
  exact congrArg (fun A => d2 (sup A) (fun j => a0 m c (ix2 b j)) n) (e_adj m ρ c)

theorem r_inpT (n : Fin 512) (b : Fin 64) :
    (W5 (F := Ideal) m ρ c (Proc.devRef .tc main_v0) : S512x64.Idx → EReal) (ix2 n b) = a0 m c (ix2 b n) := by
  have h := W5_arr (F := Ideal) m ρ c 2
  rw [Pipeline.Dat.arrAt_in (dat0 (V4 (F := Ideal) m ρ) c) 2 rfl, A_eq0] at h
  exact (congrFun h (ix2 n b)).trans (e_inpT m ρ c n b)

theorem f_S
    (h3 : (dat0 (V4 (F := Ideal) m ρ) c).arrAt 3 cfg0.N
      = out0_3 (V4 m ρ c (Pipeline.arrRef spec0 0)) (V4 m ρ c (Pipeline.arrRef spec0 1)))
    (i j : Fin 512) :
    (W6 (F := Ideal) m ρ c (Proc.devRef .tc main_v192_0) : S512x512.Idx → EReal) (ix2 i j) = sup (a2 m c) i j := by
  rw [W6_eq, KHostC.keep1 (W5 m ρ c) main_v192_0 (by decide)]
  exact r_sup m ρ c h3 i j

theorem f_A
    (h4 : (dat0 (V4 (F := Ideal) m ρ) c).arrAt 4 cfg0.N
      = out0_4 (V4 m ρ c (Pipeline.arrRef spec0 0)) (V4 m ρ c (Pipeline.arrRef spec0 1)) (V4 m ρ c (Pipeline.arrRef spec0 2)))
    (h5 : (dat0 (V4 (F := Ideal) m ρ) c).arrAt 5 cfg0.N
      = out0_5 (V4 m ρ c (Pipeline.arrRef spec0 0)) (V4 m ρ c (Pipeline.arrRef spec0 1)) (V4 m ρ c (Pipeline.arrRef spec0 2)))
    (b : Fin 64) (n : Fin 512) (k : Fin 3) :
    (W6 (F := Ideal) m ρ c (Proc.devRef .tc main_v197) : S64x512x3.Idx → EReal) (ix3 b n k)
      = cheb (sup (a2 m c)) (fun j => a0 m c (ix2 b j)) k n := by
  rw [W6_eq, KHostC.read_v197 (W5 m ρ c) b n k]
  match k with
  | ⟨0, _⟩ => exact r_inpT m ρ c n b
  | ⟨1, _⟩ => exact r_a1 m ρ c h4 n b
  | ⟨2, _⟩ => exact r_a2 m ρ c h5 n b

theorem w5_v1 : W5 (F := Ideal) m ρ c (Proc.devRef .tc main_v1) = StableHlo.after hostOps0 (W0 m ρ c) (Proc.devRef .tc main_v1) := by
  rw [W5_of_ne m ρ c main_v1 (by decide), W4_eq]

theorem f_H (b : Fin 64) (n : Fin 512) (u : Fin 64) :
    (W6 (F := Ideal) m ρ c (Proc.devRef .tc main_v199) : S64x512x64.Idx → EReal) (ix3 b n u)
      = a1 m c (ix3 0 b (nu n u)) := by
  rw [W6_eq, KHostC.read_v199 (W5 m ρ c) b n u, w5_v1]
  exact KHostC.read_v1 (W0 m ρ c) 0 b n u

theorem f_K (b : Fin 64) (n : Fin 512) (u : Fin 64) :
    (W6 (F := Ideal) m ρ c (Proc.devRef .tc main_v201) : S64x512x64.Idx → EReal) (ix3 b n u)
      = a1 m c (ix3 1 b (nu n u)) := by
  rw [W6_eq, KHostC.read_v201 (W5 m ρ c) b n u, w5_v1]
  exact KHostC.read_v1 (W0 m ρ c) 1 b n u

theorem f_w (r : Ref sig .tc)
    (hr1 : r ∉ [main_v193, main_v194, main_v195, main_v196, main_v197, main_v198, main_v199, main_v200, main_v201])
    (hr0 : ∀ w, Pipeline.arrRef spec0 w ≠ r) :
    W6 (F := Ideal) m ρ c (Proc.devRef .tc r) = StableHlo.after hostOps0 (W0 m ρ c) (Proc.devRef .tc r) := by
  rw [W6_eq, KHostC.keep1 (W5 m ρ c) r hr1, W5_of_ne m ρ c r hr0, W4_eq]

end Cert.KernelIdeal.Entry
-- ==== Proof.KHostL.lean ====
import proofs.«156303_g19069654794669_cont_sun_m_30_8_alg».proof.Proof.Gen.KernelIdeal.Launch
import proofs.«156303_g19069654794669_cont_sun_m_30_8_alg».proof.Proof.Spec
import Idealize.ShloMosaic.Lib.StableHlo.Run
import Idealize.ShloMosaic.Lib.ValueLayout
import Idealize.ShloMosaic.Lib.IdealHost

noncomputable section
namespace Cert.KHostL
open Cert.KernelIdeal Cert.KernelIdeal.Gen Cert.Spec Idealize.ShloMosaic Idealize.ShloMosaic.ValueIdx Idealize.ShloMosaic.StableHlo

section Layout
variable {α : Type}

theorem cat4_cols {n : Nat} (x0 x1 x2 x3 : (⟨2, ![n, 64]⟩ : Shape).Idx → α)
    (h : Shape.Concatenates [(⟨2, ![n, 64]⟩ : Shape), ⟨2, ![n, 64]⟩, ⟨2, ![n, 64]⟩, ⟨2, ![n, 64]⟩] ⟨2, ![n, 256]⟩ 1)
    (r : Fin n) (g s : Fin 2) (o : Fin 64) :
    concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] h (ix2 r (gso g s o))
      = if g = 0 then (if s = 0 then x0 (ix2 r o) else x1 (ix2 r o)) else (if s = 0 then x2 (ix2 r o) else x3 (ix2 r o)) := by
  have hi : ∀ b : Fin 2, b.cast rfl ≠ (1 : Fin 2) → ((ix2 r o : (⟨2, ![n, 64]⟩ : Shape).Idx) b).val = ((ix2 r (gso g s o) : (⟨2, ![n, 256]⟩ : Shape).Idx) (b.cast rfl)).val :=
    fun b hb => match b with
      | ⟨0, _⟩ => rfl
      | ⟨1, _⟩ => absurd rfl hb
  have P := concatenate_apply_piece (t := ⟨2, ![n, 256]⟩) (1 : Fin 2) [⟨⟨2, ![n, 64]⟩, x0⟩, ⟨⟨2, ![n, 64]⟩, x1⟩, ⟨⟨2, ![n, 64]⟩, x2⟩, ⟨⟨2, ![n, 64]⟩, x3⟩] h (ix2 r (gso g s o))
  fin_cases g <;> fin_cases s
  · exact P 0 (by decide : 0 < 4) _ x0 rfl rfl 0 rfl (ix2 r o) hi (by show 0 + o.val = 0 * 128 + 0 * 64 + o.val; omega)
  · exact P 1 (by decide : 1 < 4) _ x1 rfl rfl 64 rfl (ix2 r o) hi (by show 64 + o.val = 0 * 128 + 1 * 64 + o.val; omega)
  · exact P 2 (by decide : 2 < 4) _ x2 rfl rfl 128 rfl (ix2 r o) hi (by show 128 + o.val = 1 * 128 + 0 * 64 + o.val; omega)
  · exact P 3 (by decide : 3 < 4) _ x3 rfl rfl 192 rfl (ix2 r o) hi (by show 192 + o.val = 1 * 128 + 1 * 64 + o.val; omega)

/-- Two blocks of w columns side by side: column s·w + o lies in block s, at its column o. -/
theorem cat2_cols {n w W : Nat} (x0 x1 : (⟨2, ![n, w]⟩ : Shape).Idx → α)
    (h : Shape.Concatenates [(⟨2, ![n, w]⟩ : Shape), ⟨2, ![n, w]⟩] ⟨2, ![n, W]⟩ 1)
    (r : Fin n) (s : Fin 2) (o : Fin w) (c : Fin W) (hc : c.val = s.val * w + o.val) :
    concatenate ⟨2, ![n, W]⟩ 1 [⟨⟨2, ![n, w]⟩, x0⟩, ⟨⟨2, ![n, w]⟩, x1⟩] h (ix2 r c)
      = if s = 0 then x0 (ix2 r o) else x1 (ix2 r o) := by
  have hi : ∀ b : Fin 2, b.cast rfl ≠ (1 : Fin 2) → ((ix2 r o : (⟨2, ![n, w]⟩ : Shape).Idx) b).val = ((ix2 r c : (⟨2, ![n, W]⟩ : Shape).Idx) (b.cast rfl)).val :=
    fun b hb => match b with
      | ⟨0, _⟩ => rfl
      | ⟨1, _⟩ => absurd rfl hb
  have P := concatenate_apply_piece (t := ⟨2, ![n, W]⟩) (1 : Fin 2) [⟨⟨2, ![n, w]⟩, x0⟩, ⟨⟨2, ![n, w]⟩, x1⟩] h (ix2 r c)
  fin_cases s
  · exact P 0 (by decide : 0 < 2) _ x0 rfl rfl 0 rfl (ix2 r o) hi (by show 0 + o.val = c.val; rw [hc]; show _ = 0 * w + o.val; omega)
  · exact P 1 (by decide : 1 < 2) _ x1 rfl rfl w (Nat.add_zero w) (ix2 r o) hi (by show w + o.val = c.val; rw [hc]; show _ = 1 * w + o.val; omega)

/-- Two blocks of n rows one above the other: row s'·n + r lies in block s', at its row r. -/
theorem cat2_rows {n N m : Nat} (x0 x1 : (⟨2, ![n, m]⟩ : Shape).Idx → α)
    (h : Shape.Concatenates [(⟨2, ![n, m]⟩ : Shape), ⟨2, ![n, m]⟩] ⟨2, ![N, m]⟩ 0)
    (s' : Fin 2) (r : Fin n) (R : Fin N) (hR : R.val = s'.val * n + r.val) (c : Fin m) :
    concatenate ⟨2, ![N, m]⟩ 0 [⟨⟨2, ![n, m]⟩, x0⟩, ⟨⟨2, ![n, m]⟩, x1⟩] h (ix2 R c)
      = if s' = 0 then x0 (ix2 r c) else x1 (ix2 r c) := by
  have hi : ∀ b : Fin 2, b.cast rfl ≠ (0 : Fin 2) → ((ix2 r c : (⟨2, ![n, m]⟩ : Shape).Idx) b).val = ((ix2 R c : (⟨2, ![N, m]⟩ : Shape).Idx) (b.cast rfl)).val :=
    fun b hb => match b with
      | ⟨0, _⟩ => absurd rfl hb
      | ⟨1, _⟩ => rfl
  have P := concatenate_apply_piece (t := ⟨2, ![N, m]⟩) (0 : Fin 2) [⟨⟨2, ![n, m]⟩, x0⟩, ⟨⟨2, ![n, m]⟩, x1⟩] h (ix2 R c)
  fin_cases s'
  · exact P 0 (by decide : 0 < 2) _ x0 rfl rfl 0 rfl (ix2 r c) hi (by show 0 + r.val = R.val; rw [hR]; show _ = 0 * n + r.val; omega)
  · exact P 1 (by decide : 1 < 2) _ x1 rfl rfl n (Nat.add_zero n) (ix2 r c) hi (by show n + r.val = R.val; rw [hR]; show _ = 1 * n + r.val; omega)

/-- Three matrices, each given a leading unit axis, stacked along it: plane k is the k-th. -/
def stack3 {a b : Nat} (P : Fin 3 → (⟨2, ![a, b]⟩ : Shape).Idx → α)
    (hb : (⟨2, ![a, b]⟩ : Shape).BroadcastsInDim ⟨3, ![1, a, b]⟩ ![1, 2] := by decide)
    (h : Shape.Concatenates [(⟨3, ![1, a, b]⟩ : Shape), ⟨3, ![1, a, b]⟩, ⟨3, ![1, a, b]⟩] ⟨3, ![3, a, b]⟩ 0 := by decide) :
    (⟨3, ![3, a, b]⟩ : Shape).Idx → α :=
  concatenate ⟨3, ![3, a, b]⟩ 0 [⟨⟨3, ![1, a, b]⟩, broadcastInDim ⟨3, ![1, a, b]⟩ ![1, 2] hb (P 0)⟩,
    ⟨⟨3, ![1, a, b]⟩, broadcastInDim ⟨3, ![1, a, b]⟩ ![1, 2] hb (P 1)⟩, ⟨⟨3, ![1, a, b]⟩, broadcastInDim ⟨3, ![1, a, b]⟩ ![1, 2] hb (P 2)⟩] h

theorem bcast12 {a b : Nat} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) :=
  broadcastInDim_apply _ h x _ _ fun ax => match ax with
    | ⟨0, _⟩ => by
      show i.val = if a = 1 then 0 else i.val
      have := i.isLt
      split <;> omega
    | ⟨1, _⟩ => by
      show j.val = if b = 1 then 0 else j.val
      have := j.isLt
      split <;> omega

theorem stack3_apply {a b : Nat} (P : Fin 3 → (⟨2, ![a, b]⟩ : Shape).Idx → α) {hb h} (k : Fin 3) (i : Fin a) (j : Fin b) :
    stack3 P hb h (ix3 k i j) = P k (ix2 i j) := by
  unfold stack3
  exact (concatenate_ofFn_unit_apply (t := ⟨3, ![3, a, b]⟩) (s₁ := ⟨3, ![1, a, b]⟩) (0 : Fin 3)
    (fun k => broadcastInDim ⟨3, ![1, a, b]⟩ ![1, 2] hb (P k)) h rfl rfl _ k rfl (ix3 (0 : Fin 1) i j) fun b' hb' => match b', hb' with
      | ⟨0, _⟩, hb' => absurd rfl hb'
      | ⟨1, _⟩, _ => rfl
      | ⟨2, _⟩, _ => rfl).trans (bcast12 _ hb 0 i j)

/-- A block of a rank-3 array read at coordinates. -/
theorem slice3 {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (a' : Fin n0) (b' : Fin n1) (c' : Fin n2)
    (ha : a'.val = o0 + a.val) (hb : b'.val = o1 + b.val) (hc : c'.val = o2 + c.val) :
    extractStridedSlice ⟨3, ![m0, m1, m2]⟩ ![o0, o1, o2] X h (ix3 a b c) = X (ix3 a' b' c') :=
  extractStridedSlice_apply _ _ _ _ _ fun ax => match ax with
    | ⟨0, _⟩ => ha
    | ⟨1, _⟩ => hb
    | ⟨2, _⟩ => hc

/-- A weight with rows (feature, order) seen as feature by order by column. -/
theorem reshape_fk {nf N w : Nat} (hN : nf * 3 = N) (X : (⟨2, ![N, w]⟩ : Shape).Idx → α)
    (h : (⟨2, ![N, w]⟩ : Shape).ShapeCasts ⟨3, ![nf, 3, w]⟩) (a : Fin nf) (kk : Fin 3) (c : Fin w) :
    shapeCast ⟨3, ![nf, 3, w]⟩ X h (ix3 a kk c) = X (ix2 ((fk a kk).cast hN) c) :=
  shapeCast_apply X h _ _ (by rw [Shape.rowMajor_val_two, Shape.rowMajor_val_three]; rfl)

/-- The unit middle axis of a rank-3 array dropped. -/
theorem reshape_drop_mid {a w : Nat} (Y : (⟨3, ![a, 1, w]⟩ : Shape).Idx → α)
    (h : (⟨3, ![a, 1, w]⟩ : Shape).ShapeCasts ⟨2, ![a, w]⟩) (f : Fin a) (c : Fin w) :
    shapeCast ⟨2, ![a, w]⟩ Y h (ix2 f c) = Y (ix3 f 0 c) :=
  shapeCast_apply Y h _ _ (by
    rw [Shape.rowMajor_val_two, Shape.rowMajor_val_three]
    show (f.val * 1 + 0) * w + c.val = f.val * w + c.val
    rw [Nat.mul_one, Nat.add_zero])

variable {nf N w : Nat} (X : (⟨2, ![N, w]⟩ : Shape).Idx → α) (h1 : (⟨2, ![N, w]⟩ : Shape).ShapeCasts ⟨3, ![nf, 3, w]⟩)

/-- The rows (lo + f, k), f < 64, of a weight whose rows are (feature, order). -/
def slab (lo k : Nat) (h2 : (⟨3, ![nf, 3, w]⟩ : Shape).Slices ![lo, k, 0] ⟨3, ![64, 1, w]⟩)
    (h3 : (⟨3, ![64, 1, w]⟩ : Shape).ShapeCasts ⟨2, ![64, w]⟩ := by decide) : (⟨2, ![64, w]⟩ : Shape).Idx → α :=
  shapeCast ⟨2, ![64, w]⟩ (extractStridedSlice ⟨3, ![64, 1, w]⟩ ![lo, k, 0] (shapeCast ⟨3, ![nf, 3, w]⟩ X h1) h2) h3

theorem slab_apply (hN : nf * 3 = N) (lo k : Nat) {h2 h3} (f : Fin 64) (c : Fin w) (a : Fin nf) (kk : Fin 3)
    (ha : a.val = lo + f.val) (hk : kk.val = k) :
    slab X h1 lo k h2 h3 (ix2 f c) = X (ix2 ((fk a kk).cast hN) c) := by
  unfold slab
  refine (reshape_drop_mid _ _ f c).trans ?_
  refine (slice3 lo k 0 _ h2 f (0 : Fin 1) c a kk c ha ?_ ?_).trans ?_
  · show kk.val = k + 0; omega
  · show c.val = 0 + c.val; omega
  exact reshape_fk hN X _ a kk c

/-- The rows (0, k) of a weight whose rows are (feature, order). -/
def head3 (h2 : (⟨3, ![nf, 3, w]⟩ : Shape).Slices ![0, 0, 0] ⟨3, ![1, 3, w]⟩ := by decide)
    (h3 : (⟨3, ![1, 3, w]⟩ : Shape).ShapeCasts ⟨2, ![3, w]⟩ := by decide) : (⟨2, ![3, w]⟩ : Shape).Idx → α :=
  shapeCast ⟨2, ![3, w]⟩ (extractStridedSlice ⟨3, ![1, 3, w]⟩ ![0, 0, 0] (shapeCast ⟨3, ![nf, 3, w]⟩ X h1) h2) h3

theorem head3_apply (hN : nf * 3 = N) {h2 h3} (k : Fin 3) (c : Fin w) (a : Fin nf) (ha : a.val = 0) :
    head3 X h1 h2 h3 (ix2 k c) = X (ix2 ((fk a k).cast hN) c) := by
  unfold head3
  refine (shapeCast_1ab_ab_apply _ _ k c).trans ?_
  refine (slice3 0 0 0 _ h2 (0 : Fin 1) k c a k c ?_ ?_ ?_).trans ?_
  · show a.val = 0 + 0; omega
  · show k.val = 0 + k.val; omega
  · show c.val = 0 + c.val; omega
  exact reshape_fk hN X _ a k c

end Layout

section Vectors
variable {α : Type}

theorem cat4_vec (x0 x1 x2 x3 : (⟨1, ![64]⟩ : Shape).Idx → α)
    (h : Shape.Concatenates [(⟨1, ![64]⟩ : Shape), ⟨1, ![64]⟩, ⟨1, ![64]⟩, ⟨1, ![64]⟩] ⟨1, ![256]⟩ 0)
    (g s : Fin 2) (o : Fin 64) :
    concatenate ⟨1, ![256]⟩ 0 [⟨⟨1, ![64]⟩, x0⟩, ⟨⟨1, ![64]⟩, x1⟩, ⟨⟨1, ![64]⟩, x2⟩, ⟨⟨1, ![64]⟩, x3⟩] h (ix1 (gso g s o))
      = if g = 0 then (if s = 0 then x0 (ix1 o) else x1 (ix1 o)) else (if s = 0 then x2 (ix1 o) else x3 (ix1 o)) := by
  have hi : ∀ b : Fin 1, b.cast rfl ≠ (0 : Fin 1) → ((ix1 o : (⟨1, ![64]⟩ : Shape).Idx) b).val = ((ix1 (gso g s o) : (⟨1, ![256]⟩ : Shape).Idx) (b.cast rfl)).val :=
    fun b hb => match b with
      | ⟨0, _⟩ => absurd rfl hb
  have P := concatenate_apply_piece (t := ⟨1, ![256]⟩) (0 : Fin 1) [⟨⟨1, ![64]⟩, x0⟩, ⟨⟨1, ![64]⟩, x1⟩, ⟨⟨1, ![64]⟩, x2⟩, ⟨⟨1, ![64]⟩, x3⟩] h (ix1 (gso g s o))
  fin_cases g <;> fin_cases s
  · exact P 0 (by decide : 0 < 4) _ x0 rfl rfl 0 rfl (ix1 o) hi (by show 0 + o.val = 0 * 128 + 0 * 64 + o.val; omega)
  · exact P 1 (by decide : 1 < 4) _ x1 rfl rfl 64 rfl (ix1 o) hi (by show 64 + o.val = 0 * 128 + 1 * 64 + o.val; omega)
  · exact P 2 (by decide : 2 < 4) _ x2 rfl rfl 128 rfl (ix1 o) hi (by show 128 + o.val = 1 * 128 + 0 * 64 + o.val; omega)
  · exact P 3 (by decide : 3 < 4) _ x3 rfl rfl 192 rfl (ix1 o) hi (by show 192 + o.val = 1 * 128 + 1 * 64 + o.val; omega)

theorem cat2_vec (x0 x1 : (⟨1, ![64]⟩ : Shape).Idx → α)
    (h : Shape.Concatenates [(⟨1, ![64]⟩ : Shape), ⟨1, ![64]⟩] ⟨1, ![128]⟩ 0) (s : Fin 2) (o : Fin 64) :
    concatenate ⟨1, ![128]⟩ 0 [⟨⟨1, ![64]⟩, x0⟩, ⟨⟨1, ![64]⟩, x1⟩] h (ix1 (sf s o))
      = if s = 0 then x0 (ix1 o) else x1 (ix1 o) := by
  have hi : ∀ b : Fin 1, b.cast rfl ≠ (0 : Fin 1) → ((ix1 o : (⟨1, ![64]⟩ : Shape).Idx) b).val = ((ix1 (sf s o) : (⟨1, ![128]⟩ : Shape).Idx) (b.cast rfl)).val :=
    fun b hb => match b with
      | ⟨0, _⟩ => absurd rfl hb
  have P := concatenate_apply_piece (t := ⟨1, ![128]⟩) (0 : Fin 1) [⟨⟨1, ![64]⟩, x0⟩, ⟨⟨1, ![64]⟩, x1⟩] h (ix1 (sf s o))
  fin_cases s
  · exact P 0 (by decide : 0 < 2) _ x0 rfl rfl 0 rfl (ix1 o) hi (by show 0 + o.val = 0 * 64 + o.val; omega)
  · exact P 1 (by decide : 1 < 2) _ x1 rfl rfl 64 rfl (ix1 o) hi (by show 64 + o.val = 1 * 64 + o.val; omega)

theorem slice1 {n m : Nat} (off : Nat) (X : (⟨1, ![n]⟩ : Shape).Idx → α)
    (h : (⟨1, ![n]⟩ : Shape).Slices ![off] ⟨1, ![m]⟩) (j : Fin m) (k : Fin n) (hk : k.val = off + j.val) :
    extractStridedSlice ⟨1, ![m]⟩ ![off] X h (ix1 j) = X (ix1 k) :=
  extractStridedSlice_apply _ _ _ _ _ fun ax => match ax with
    | ⟨0, _⟩ => hk

end Vectors

section Terms

/-- A block of zeros. -/
def zblk (t : Shape) (h : S_.BroadcastsInDim t (![] : Fin 0 → Fin t.rank)) : t.Idx → E :=
  broadcastInDim t ![] h (constant (F := Ideal) S_ .f32 0x00000000#32)

theorem zblk_apply (t : Shape) (h : S_.BroadcastsInDim t (![] : Fin 0 → Fin t.rank)) (j : t.Idx) : zblk t h j = 0 :=
  (broadcastInDim_scalar_apply h _ j).trans Ideal.ofBits_zero_f32

variable {n N : Nat}

/-- A two-gate weight block laid block-diagonally over two batch slots: rows (slot, r), columns (gate, slot, o). -/
def pairRU (X : (⟨2, ![n, 128]⟩ : Shape).Idx → E)
    (hL : (⟨2, ![n, 128]⟩ : Shape).Slices ![0, 0] ⟨2, ![n, 64]⟩ := by decide)
    (hR : (⟨2, ![n, 128]⟩ : Shape).Slices ![0, 64] ⟨2, ![n, 64]⟩ := by decide)
    (hz : S_.BroadcastsInDim ⟨2, ![n, 64]⟩ ![] := by decide)
    (h4 : Shape.Concatenates [(⟨2, ![n, 64]⟩ : Shape), ⟨2, ![n, 64]⟩, ⟨2, ![n, 64]⟩, ⟨2, ![n, 64]⟩] ⟨2, ![n, 256]⟩ 1 := by decide)
    (h2 : Shape.Concatenates [(⟨2, ![n, 256]⟩ : Shape), ⟨2, ![n, 256]⟩] ⟨2, ![N, 256]⟩ 0 := by decide) :
    (⟨2, ![N, 256]⟩ : Shape).Idx → E :=
  concatenate ⟨2, ![N, 256]⟩ 0
    [⟨⟨2, ![n, 256]⟩, concatenate ⟨2, ![n, 256]⟩ 1 [⟨⟨2, ![n, 64]⟩, extractStridedSlice ⟨2, ![n, 64]⟩ ![0, 0] X hL⟩, ⟨⟨2, ![n, 64]⟩, zblk _ hz⟩,
        ⟨⟨2, ![n, 64]⟩, extractStridedSlice ⟨2, ![n, 64]⟩ ![0, 64] X hR⟩, ⟨⟨2, ![n, 64]⟩, zblk _ hz⟩] h4⟩,
     ⟨⟨2, ![n, 256]⟩, concatenate ⟨2, ![n, 256]⟩ 1 [⟨⟨2, ![n, 64]⟩, zblk _ hz⟩, ⟨⟨2, ![n, 64]⟩, extractStridedSlice ⟨2, ![n, 64]⟩ ![0, 0] X hL⟩,
        ⟨⟨2, ![n, 64]⟩, zblk _ hz⟩, ⟨⟨2, ![n, 64]⟩, extractStridedSlice ⟨2, ![n, 64]⟩ ![0, 64] X hR⟩] h4⟩] h2

theorem pairRU_apply (X : (⟨2, ![n, 128]⟩ : Shape).Idx → E) {hL hR hz h4} {h2 : Shape.Concatenates [(⟨2, ![n, 256]⟩ : Shape), ⟨2, ![n, 256]⟩] ⟨2, ![N, 256]⟩ 0}
    (s' s g : Fin 2) (r : Fin n) (R : Fin N) (hRow : R.val = s'.val * n + r.val) (o : Fin 64) :
    pairRU X hL hR hz h4 h2 (ix2 R (gso g s o)) = if s' = s then X (ix2 r (go g o)) else 0 := by
  unfold pairRU
  rw [cat2_rows _ _ h2 s' r R hRow, cat4_cols, cat4_cols,
    slice2_axis1_apply 0 X hL r o (go 0 o) (by show 0 * 64 + o.val = 0 + o.val; omega),
    slice2_axis1_apply 64 X hR r o (go 1 o) (by show 1 * 64 + o.val = 64 + o.val; omega)]
  simp only [zblk_apply]
  fin_cases s' <;> fin_cases g <;> fin_cases s <;> rfl

/-- A weight block laid block-diagonally over two batch slots: rows (slot, r), columns (slot, o). -/
def pairC {w W : Nat} (X : (⟨2, ![n, w]⟩ : Shape).Idx → E)
    (hz : S_.BroadcastsInDim ⟨2, ![n, w]⟩ ![] := by decide)
    (hc : Shape.Concatenates [(⟨2, ![n, w]⟩ : Shape), ⟨2, ![n, w]⟩] ⟨2, ![n, W]⟩ 1 := by decide)
    (hr : Shape.Concatenates [(⟨2, ![n, W]⟩ : Shape), ⟨2, ![n, W]⟩] ⟨2, ![N, W]⟩ 0 := by decide) :
    (⟨2, ![N, W]⟩ : Shape).Idx → E :=
  concatenate ⟨2, ![N, W]⟩ 0
    [⟨⟨2, ![n, W]⟩, concatenate ⟨2, ![n, W]⟩ 1 [⟨⟨2, ![n, w]⟩, X⟩, ⟨⟨2, ![n, w]⟩, zblk _ hz⟩] hc⟩,
     ⟨⟨2, ![n, W]⟩, concatenate ⟨2, ![n, W]⟩ 1 [⟨⟨2, ![n, w]⟩, zblk _ hz⟩, ⟨⟨2, ![n, w]⟩, X⟩] hc⟩] hr

theorem pairC_apply {w W : Nat} (X : (⟨2, ![n, w]⟩ : Shape).Idx → E) {hz} {hc : Shape.Concatenates [(⟨2, ![n, w]⟩ : Shape), ⟨2, ![n, w]⟩] ⟨2, ![n, W]⟩ 1}
    {hr : Shape.Concatenates [(⟨2, ![n, W]⟩ : Shape), ⟨2, ![n, W]⟩] ⟨2, ![N, W]⟩ 0}
    (s' s : Fin 2) (r : Fin n) (R : Fin N) (hRow : R.val = s'.val * n + r.val) (o : Fin w) (c : Fin W) (hCol : c.val = s.val * w + o.val) :
    pairC X hz hc hr (ix2 R c) = if s' = s then X (ix2 r o) else 0 := by
  unfold pairC
  rw [cat2_rows _ _ hr s' r R hRow, cat2_cols _ _ hc r s o c hCol, cat2_cols _ _ hc r s o c hCol]
  simp only [zblk_apply]
  fin_cases s' <;> fin_cases s <;> rfl

variable {nf M : Nat}

/-- The features lo … lo+63 of a reset/update weight at its three orders, each packed over the two slots, stacked. -/
def packRU (X : (⟨2, ![M, 128]⟩ : Shape).Idx → E) (lo : Nat)
    (h1 : (⟨2, ![M, 128]⟩ : Shape).ShapeCasts ⟨3, ![nf, 3, 128]⟩ := by decide)
    (h2 : ∀ k : Fin 3, (⟨3, ![nf, 3, 128]⟩ : Shape).Slices ![lo, k.val, 0] ⟨3, ![64, 1, 128]⟩ := by decide) : S3x128x256.Idx → E :=
  stack3 fun k => pairRU (n := 64) (slab X h1 lo k.val (h2 k))

theorem packRU_apply (hM : nf * 3 = M) (X : (⟨2, ![M, 128]⟩ : Shape).Idx → E) (lo : Nat) {h1 : (⟨2, ![M, 128]⟩ : Shape).ShapeCasts ⟨3, ![nf, 3, 128]⟩} {h2}
    (a : Fin 64 → Fin nf) (ha : ∀ f, (a f).val = lo + f.val) (s' s g : Fin 2) (k : Fin 3) (f o : Fin 64) :
    packRU X lo h1 h2 (ix3 k (sf s' f) (gso g s o)) = if s' = s then X (ix2 ((fk (a f) k).cast hM) (go g o)) else 0 := by
  unfold packRU
  rw [stack3_apply, pairRU_apply _ s' s g f (sf s' f) rfl o, slab_apply X h1 hM lo k.val f (go g o) (a f) k (ha f) rfl]

/-- The same for a candidate weight. -/
def packC (X : (⟨2, ![M, 64]⟩ : Shape).Idx → E) (lo : Nat)
    (h1 : (⟨2, ![M, 64]⟩ : Shape).ShapeCasts ⟨3, ![nf, 3, 64]⟩ := by decide)
    (h2 : ∀ k : Fin 3, (⟨3, ![nf, 3, 64]⟩ : Shape).Slices ![lo, k.val, 0] ⟨3, ![64, 1, 64]⟩ := by decide) : S3x128x128.Idx → E :=
  stack3 fun k => pairC (n := 64) (w := 64) (slab X h1 lo k.val (h2 k))

theorem packC_apply (hM : nf * 3 = M) (X : (⟨2, ![M, 64]⟩ : Shape).Idx → E) (lo : Nat) {h1 : (⟨2, ![M, 64]⟩ : Shape).ShapeCasts ⟨3, ![nf, 3, 64]⟩} {h2}
    (a : Fin 64 → Fin nf) (ha : ∀ f, (a f).val = lo + f.val) (s' s : Fin 2) (k : Fin 3) (f o : Fin 64) :
    packC X lo h1 h2 (ix3 k (sf s' f) (sf s o)) = if s' = s then X (ix2 ((fk (a f) k).cast hM) o) else 0 := by
  unfold packC
  rw [stack3_apply, pairC_apply _ s' s f (sf s' f) rfl o (sf s o) rfl, slab_apply X h1 hM lo k.val f o (a f) k (ha f) rfl]

/-- The feature-0 rows of a reset/update weight, packed over the two slots. -/
def headRU (X : (⟨2, ![M, 128]⟩ : Shape).Idx → E)
    (h1 : (⟨2, ![M, 128]⟩ : Shape).ShapeCasts ⟨3, ![nf, 3, 128]⟩ := by decide)
    (h2 : (⟨3, ![nf, 3, 128]⟩ : Shape).Slices ![0, 0, 0] ⟨3, ![1, 3, 128]⟩ := by decide) : S6x256.Idx → E :=
  pairRU (n := 3) (head3 X h1 h2)

theorem headRU_apply (hM : nf * 3 = M) (X : (⟨2, ![M, 128]⟩ : Shape).Idx → E) {h1 : (⟨2, ![M, 128]⟩ : Shape).ShapeCasts ⟨3, ![nf, 3, 128]⟩} {h2}
    (a : Fin nf) (ha : a.val = 0) (s' s g : Fin 2) (k : Fin 3) (o : Fin 64) :
    headRU X h1 h2 (ix2 (sk s' k) (gso g s o)) = if s' = s then X (ix2 ((fk a k).cast hM) (go g o)) else 0 := by
  unfold headRU
  rw [pairRU_apply _ s' s g k (sk s' k) rfl o, head3_apply X h1 hM k (go g o) a ha]

/-- The same for a candidate weight. -/
def headC (X : (⟨2, ![M, 64]⟩ : Shape).Idx → E)
    (h1 : (⟨2, ![M, 64]⟩ : Shape).ShapeCasts ⟨3, ![nf, 3, 64]⟩ := by decide)
    (h2 : (⟨3, ![nf, 3, 64]⟩ : Shape).Slices ![0, 0, 0] ⟨3, ![1, 3, 64]⟩ := by decide) : S6x128.Idx → E :=
  pairC (n := 3) (w := 64) (head3 X h1 h2)

theorem headC_apply (hM : nf * 3 = M) (X : (⟨2, ![M, 64]⟩ : Shape).Idx → E) {h1 : (⟨2, ![M, 64]⟩ : Shape).ShapeCasts ⟨3, ![nf, 3, 64]⟩} {h2}
    (a : Fin nf) (ha : a.val = 0) (s' s : Fin 2) (k : Fin 3) (o : Fin 64) :
    headC X h1 h2 (ix2 (sk s' k) (sf s o)) = if s' = s then X (ix2 ((fk a k).cast hM) o) else 0 := by
  unfold headC
  rw [pairC_apply _ s' s k (sk s' k) rfl o (sf s o) rfl, head3_apply X h1 hM k o a ha]

/-- The two gates' bias, each gate's half repeated for the two batch slots. -/
def biasRU (b : S128.Idx → E) : S1x256.Idx → E :=
  shapeCast S1x256
    (concatenate S256 0
      [⟨S64, extractStridedSlice S64 ![0] b slices_S128_S64_0⟩, ⟨S64, extractStridedSlice S64 ![0] b slices_S128_S64_0⟩,
       ⟨S64, extractStridedSlice S64 ![64] b slices_S128_S64_64⟩, ⟨S64, extractStridedSlice S64 ![64] b slices_S128_S64_64⟩]
      concatenates_S64_S64_S64_S64_S256_d0)
    shapeCasts_S256_S1x256

theorem biasRU_apply (b : S128.Idx → E) (g s : Fin 2) (o : Fin 64) : biasRU b (ix2 0 (gso g s o)) = b (ix1 (go g o)) := by
  unfold biasRU
  refine (shapeCast_a_1a_apply _ _ 0 (gso g s o)).trans ?_
  rw [cat4_vec]
  rw [slice1 0 b _ o (go 0 o) (by show 0 * 64 + o.val = 0 + o.val; omega),
    slice1 64 b _ o (go 1 o) (by show 1 * 64 + o.val = 64 + o.val; omega)]
  fin_cases g <;> fin_cases s <;> rfl

/-- The candidate's bias repeated for the two batch slots. -/
def biasC (b : S64.Idx → E) : S1x128.Idx → E :=
  shapeCast S1x128 (concatenate S128 0 [⟨S64, b⟩, ⟨S64, b⟩] concatenates_S64_S64_S128_d0) shapeCasts_S128_S1x128

theorem biasC_apply (b : S64.Idx → E) (s : Fin 2) (o : Fin 64) : biasC b (ix2 0 (sf s o)) = b (ix1 o) := by
  unfold biasC
  refine (shapeCast_a_1a_apply _ _ 0 (sf s o)).trans ?_
  rw [cat2_vec]
  fin_cases s <;> rfl

end Terms

/-- A three-operand operation's result, each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

macro "host_results" : tactic =>
  `(tactic| (simp (disch := decide) only [after_cons, after_nil,
      nullary_result', unary_result', binary_result', reshape_result', nary4_result', nary3_result',
      nullary_result_ne', unary_result_ne', binary_result_ne', reshape_result_ne', nary_result_ne']))

end Cert.KHostL

end
-- ==== Proof.KHostA.lean ====
import proofs.«156303_g19069654794669_cont_sun_m_30_8_alg».proof.Proof.KHostL

noncomputable section

namespace Cert.KHostA
open Cert.KernelIdeal Cert.KernelIdeal.Gen Cert.Spec Cert.KHostL Idealize.ShloMosaic Idealize.ShloMosaic.ValueIdx Idealize.ShloMosaic.StableHlo

theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  KHostL.nary3_result' f hxs hy F

variable (W : Valuation τ sig (Elt Ideal))

set_option maxHeartbeats 4000000 in
theorem read_v10 (s' s g : Fin 2) (k : Fin 3) (o : Fin 64) :
    (StableHlo.after (hostOps0 (F := Ideal)) W (Proc.devRef .tc main_v10) : S6x256.Idx → EReal) (ix2 (sk s' k) (gso g s o))
      = (if s' = s then (W (Proc.devRef .tc main_arg3) : S195x128.Idx → EReal) (ix2 (fk (n := 65) ⟨0, by omega⟩ k) (go g o)) else 0 : EReal) := by
  have e : (StableHlo.after (hostOps0 (F := Ideal)) W (Proc.devRef .tc main_v10) : S6x256.Idx → EReal)
      = headRU (nf := 65) (W (Proc.devRef .tc main_arg3) : S195x128.Idx → EReal) := by
    dsimp only [hostOps0]; host_results; rfl
  rw [e]; exact headRU_apply rfl _ ⟨0, by omega⟩ rfl s' s g k o

set_option maxHeartbeats 4000000 in
theorem read_v38 (s' s g : Fin 2) (k : Fin 3) (f o : Fin 64) :
    (StableHlo.after (hostOps0 (F := Ideal)) W (Proc.devRef .tc main_v38) : S3x128x256.Idx → EReal) (ix3 k (sf s' f) (gso g s o))
      = (if s' = s then (W (Proc.devRef .tc main_arg3) : S195x128.Idx → EReal) (ix2 (fk (f1 f) k) (go g o)) else 0 : EReal) := by
  have e : (StableHlo.after (hostOps0 (F := Ideal)) W (Proc.devRef .tc main_v38) : S3x128x256.Idx → EReal)
      = packRU (nf := 65) (W (Proc.devRef .tc main_arg3) : S195x128.Idx → EReal) 1 := by
    dsimp only [hostOps0]; host_results; rfl
  rw [e]; exact packRU_apply rfl _ 1 f1 (fun _ => rfl) s' s g k f o

set_option maxHeartbeats 4000000 in
theorem read_v175 (g s : Fin 2) (o : Fin 64) :
    (StableHlo.after (hostOps0 (F := Ideal)) W (Proc.devRef .tc main_v175) : S1x256.Idx → EReal) (ix2 0 (gso g s o))
      = (W (Proc.devRef .tc main_arg4) : S128.Idx → EReal) (ix1 (go g o)) := by
  have e : (StableHlo.after (hostOps0 (F := Ideal)) W (Proc.devRef .tc main_v175) : S1x256.Idx → EReal)
      = biasRU (W (Proc.devRef .tc main_arg4)) := by
    dsimp only [hostOps0]; host_results; rfl
  rw [e]; exact biasRU_apply _ g s o

set_option maxHeartbeats 4000000 in
theorem read_v45 (s' s : Fin 2) (k : Fin 3) (o : Fin 64) :
    (StableHlo.after (hostOps0 (F := Ideal)) W (Proc.devRef .tc main_v45) : S6x128.Idx → EReal) (ix2 (sk s' k) (sf s o))
      = (if s' = s then (W (Proc.devRef .tc main_arg5) : S195x64.Idx → EReal) (ix2 (fk (n := 65) ⟨0, by omega⟩ k) o) else 0 : EReal) := by
  have e : (StableHlo.after (hostOps0 (F := Ideal)) W (Proc.devRef .tc main_v45) : S6x128.Idx → EReal)
      = headC (nf := 65) (W (Proc.devRef .tc main_arg5) : S195x64.Idx → EReal) := by
    dsimp only [hostOps0]; host_results; rfl
  rw [e]; exact headC_apply rfl _ ⟨0, by omega⟩ rfl s' s k o

set_option maxHeartbeats 4000000 in
theorem read_v67 (s' s : Fin 2) (k : Fin 3) (f o : Fin 64) :
    (StableHlo.after (hostOps0 (F := Ideal)) W (Proc.devRef .tc main_v67) : S3x128x128.Idx → EReal) (ix3 k (sf s' f) (sf s o))
      = (if s' = s then (W (Proc.devRef .tc main_arg5) : S195x64.Idx → EReal) (ix2 (fk (f1 f) k) o) else 0 : EReal) := by
  have e : (StableHlo.after (hostOps0 (F := Ideal)) W (Proc.devRef .tc main_v67) : S3x128x128.Idx → EReal)
      = packC (nf := 65) (W (Proc.devRef .tc main_arg5) : S195x64.Idx → EReal) 1 := by
    dsimp only [hostOps0]; host_results; rfl
  rw [e]; exact packC_apply rfl _ 1 f1 (fun _ => rfl) s' s k f o

set_option maxHeartbeats 4000000 in
theorem read_v177 (s : Fin 2) (o : Fin 64) :
    (StableHlo.after (hostOps0 (F := Ideal)) W (Proc.devRef .tc main_v177) : S1x128.Idx → EReal) (ix2 0 (sf s o))
      = (W (Proc.devRef .tc main_arg6) : S64.Idx → EReal) (ix1 o) := by
  have e : (StableHlo.after (hostOps0 (F := Ideal)) W (Proc.devRef .tc main_v177) : S1x128.Idx → EReal)
      = biasC (W (Proc.devRef .tc main_arg6)) := by
    dsimp only [hostOps0]; host_results; rfl
  rw [e]; exact biasC_apply _ s o

end Cert.KHostA

end
-- ==== Proof.KHostB.lean ====
import proofs.«156303_g19069654794669_cont_sun_m_30_8_alg».proof.Proof.KHostL

noncomputable section

namespace Cert.KHostB
open Cert.KernelIdeal Cert.KernelIdeal.Gen Cert.Spec Cert.KHostL Idealize.ShloMosaic Idealize.ShloMosaic.ValueIdx Idealize.ShloMosaic.StableHlo

variable {Val : EltTy → Type}

theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  KHostL.nary3_result' f hxs hy V

variable (W : Valuation τ sig (Elt Ideal))

set_option maxHeartbeats 4000000 in
theorem read_v96 (s' s g : Fin 2) (k : Fin 3) (f o : Fin 64) :
    ((StableHlo.after hostOps0 W (Proc.devRef .tc main_v96) : S3x128x256.Idx → EReal) (ix3 k (sf s' f) (gso g s o)))
      = (if s' = s then (W (Proc.devRef .tc main_arg7) : S384x128.Idx → EReal) (ix2 (fk (fa f) k) (go g o)) else 0 : EReal) := by
  have e : (StableHlo.after hostOps0 W (Proc.devRef .tc main_v96) : S3x128x256.Idx → EReal)
      = packRU (nf := 128) (W (Proc.devRef .tc main_arg7) : S384x128.Idx → EReal) 0 := by
    dsimp only [hostOps0]; host_results; rfl
  rw [e]; exact packRU_apply rfl _ 0 fa (fun f => (Nat.zero_add f.val).symm) s' s g k f o

set_option maxHeartbeats 4000000 in
theorem read_v124 (s' s g : Fin 2) (k : Fin 3) (f o : Fin 64) :
    ((StableHlo.after hostOps0 W (Proc.devRef .tc main_v124) : S3x128x256.Idx → EReal) (ix3 k (sf s' f) (gso g s o)))
      = (if s' = s then (W (Proc.devRef .tc main_arg7) : S384x128.Idx → EReal) (ix2 (fk (fb f) k) (go g o)) else 0 : EReal) := by
  have e : (StableHlo.after hostOps0 W (Proc.devRef .tc main_v124) : S3x128x256.Idx → EReal)
      = packRU (nf := 128) (W (Proc.devRef .tc main_arg7) : S384x128.Idx → EReal) 64 := by
    dsimp only [hostOps0]; host_results; rfl
  rw [e]; exact packRU_apply rfl _ 64 fb (fun _ => rfl) s' s g k f o

set_option maxHeartbeats 4000000 in
theorem read_v183 (g s : Fin 2) (o : Fin 64) :
    ((StableHlo.after hostOps0 W (Proc.devRef .tc main_v183) : S1x256.Idx → EReal) (ix2 0 (gso g s o)))
      = (W (Proc.devRef .tc main_arg8) : S128.Idx → EReal) (ix1 (go g o)) := by
  have e : (StableHlo.after hostOps0 W (Proc.devRef .tc main_v183) : S1x256.Idx → EReal)
      = biasRU (W (Proc.devRef .tc main_arg8)) := by
    dsimp only [hostOps0]; host_results; rfl
  rw [e]; exact biasRU_apply _ g s o

set_option maxHeartbeats 4000000 in
theorem read_v147 (s' s : Fin 2) (k : Fin 3) (f o : Fin 64) :
    ((StableHlo.after hostOps0 W (Proc.devRef .tc main_v147) : S3x128x128.Idx → EReal) (ix3 k (sf s' f) (sf s o)))
      = (if s' = s then (W (Proc.devRef .tc main_arg9) : S384x64.Idx → EReal) (ix2 (fk (fa f) k) o) else 0 : EReal) := by
  have e : (StableHlo.after hostOps0 W (Proc.devRef .tc main_v147) : S3x128x128.Idx → EReal)
      = packC (nf := 128) (W (Proc.devRef .tc main_arg9) : S384x64.Idx → EReal) 0 := by
    dsimp only [hostOps0]; host_results; rfl
  rw [e]; exact packC_apply rfl _ 0 fa (fun f => (Nat.zero_add f.val).symm) s' s k f o

set_option maxHeartbeats 4000000 in
theorem read_v169 (s' s : Fin 2) (k : Fin 3) (f o : Fin 64) :
    ((StableHlo.after hostOps0 W (Proc.devRef .tc main_v169) : S3x128x128.Idx → EReal) (ix3 k (sf s' f) (sf s o)))
      = (if s' = s then (W (Proc.devRef .tc main_arg9) : S384x64.Idx → EReal) (ix2 (fk (fb f) k) o) else 0 : EReal) := by
  have e : (StableHlo.after hostOps0 W (Proc.devRef .tc main_v169) : S3x128x128.Idx → EReal)
      = packC (nf := 128) (W (Proc.devRef .tc main_arg9) : S384x64.Idx → EReal) 64 := by
    dsimp only [hostOps0]; host_results; rfl
  rw [e]; exact packC_apply rfl _ 64 fb (fun _ => rfl) s' s k f o

set_option maxHeartbeats 4000000 in
theorem read_v185 (s : Fin 2) (o : Fin 64) :
    ((StableHlo.after hostOps0 W (Proc.devRef .tc main_v185) : S1x128.Idx → EReal) (ix2 0 (sf s o)))
      = (W (Proc.devRef .tc main_arg10) : S64.Idx → EReal) (ix1 o) := by
  have e : (StableHlo.after hostOps0 W (Proc.devRef .tc main_v185) : S1x128.Idx → EReal)
      = biasC (W (Proc.devRef .tc main_arg10)) := by
    dsimp only [hostOps0]; host_results; rfl
  rw [e]; exact biasC_apply _ s o

set_option maxHeartbeats 4000000 in
theorem read_v189 (s' s : Fin 2) (f : Fin 64) :
    ((StableHlo.after hostOps0 W (Proc.devRef .tc main_v189) : S128x2.Idx → EReal) (ix2 (sf s' f) s))
      = (if s' = s then (W (Proc.devRef .tc main_arg11) : S64x1.Idx → EReal) (ix2 f 0) else 0 : EReal) := by
  have e : (StableHlo.after hostOps0 W (Proc.devRef .tc main_v189) : S128x2.Idx → EReal)
      = pairC (n := 64) (w := 1) (W (Proc.devRef .tc main_arg11) : S64x1.Idx → EReal) := by
    dsimp only [hostOps0]; host_results; rfl
  rw [e]; exact pairC_apply _ s' s f (sf s' f) rfl 0 s (by show s.val = s.val * 1 + 0; omega)

set_option maxHeartbeats 4000000 in
theorem read_v190 :
    ((StableHlo.after hostOps0 W (Proc.devRef .tc main_v190) : S1x1.Idx → EReal) (ix2 0 0))
      = (W (Proc.devRef .tc main_arg12) : S1.Idx → EReal) (ix1 0) := by
  dsimp only [hostOps0]; host_results
  exact shapeCast_a_1a_apply _ _ 0 0

end Cert.KHostB

end
-- ==== Proof.KBodyLayer.lean ====
import proofs.«156303_g19069654794669_cont_sun_m_30_8_alg».proof.Proof.KI.Out1
import proofs.«156303_g19069654794669_cont_sun_m_30_8_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KBodyLayer

open Cert.KernelIdeal Cert.KernelIdeal.Gen Cert.KernelIdeal.Hand
open Idealize.ShloMosaic Idealize.ShloMosaic.ValueIdx
open Cert.Spec

/-- `e` lays `m` blocks of `n` columns side by side. -/
structure Blocks {m n N : ℕ} (e : Fin m → Fin n → Fin N) : Prop where
  card : N = m * n
  val : ∀ a b, (e a b).val = a.val * n + b.val

theorem sf_blocks : Blocks sf := ⟨rfl, fun _ _ => rfl⟩
theorem sk_blocks : Blocks sk := ⟨rfl, fun _ _ => rfl⟩

section Sums
variable {m n N : ℕ} {e : Fin m → Fin n → Fin N} (hb : Blocks e)
include hb

theorem sum_blocks (g : Fin N → E) : ∑ c, g c = ∑ a, ∑ b, g (e a b) := by
  obtain ⟨rfl, he⟩ := hb
  rw [← Fintype.sum_prod_type']
  exact (Fintype.sum_equiv finProdFinEquiv (fun p => g (e p.1 p.2)) g fun p => congrArg g (Fin.ext (by
    rw [he, finProdFinEquiv_apply_val, Nat.mul_comm, Nat.add_comm]))).symm

/-- Against a weight that vanishes off block `s`, only block `s` of a sum over the columns survives. -/
theorem sum_packed {A B : Fin N → E} {q w : Fin n → E} (s : Fin m)
    (hA : ∀ b, A (e s b) = q b) (hB : ∀ a b, B (e a b) = if a = s then w b else 0) :
    ∑ c, A c * B c = ∑ b, q b * w b := by
  rw [sum_blocks hb]
  simp only [hB]
  rw [Finset.sum_eq_single s]
  · simp [hA]
  · intro s' _ hne
    simp [hne]
  · simp

end Sums

/-- The dimension numbers of a rows-by-columns product. -/
class IsPlain {M K N : ℕ} (D : DotDims ⟨2, ![M, K]⟩ ⟨2, ![K, N]⟩ ⟨2, ![M, N]⟩) : Prop where
  eq : D = DotDims.plain M K N

instance : IsPlain dot_S512x512_S512x128_S512x128_1_0_0_1_n_n := ⟨rfl⟩
instance : IsPlain dot_S512x128_S128x256_S512x256_1_0_0_1_n_n := ⟨rfl⟩
instance : IsPlain dot_S512x128_S128x128_S512x128_1_0_0_1_n_n := ⟨rfl⟩
instance : IsPlain dot_S512x6_S6x256_S512x256_1_0_0_1_n_n := ⟨rfl⟩
instance : IsPlain dot_S512x6_S6x128_S512x128_1_0_0_1_n_n := ⟨rfl⟩
instance : IsPlain dot_S512x128_S128x2_S512x2_1_0_0_1_n_n := ⟨rfl⟩

/-- Such a product into zero, at an index, is the sum over the contracted axis. -/
theorem mm {M K N : ℕ} (D : DotDims ⟨2, ![M, K]⟩ ⟨2, ![K, N]⟩ ⟨2, ![M, N]⟩) [hD : IsPlain D]
    (a : FVec Ideal ⟨2, ![M, K]⟩ .f32) (b : FVec Ideal ⟨2, ![K, N]⟩ .f32) (n : Fin M) (o : Fin N) :
    matmul D none a b (constant ⟨2, ![M, N]⟩ .f32 0x00000000#32) (ix2 n o) = ∑ c : Fin K, a (ix2 n c) * b (ix2 c o) := by
  obtain ⟨rfl⟩ := hD
  simp only [matmul]
  rw [Ideal.matmul_constant_zero_apply, ← Equiv.sum_comp (contrEquiv1 (DotDims.plain M K N) K rfl rfl).symm]
  refine Finset.sum_congr rfl fun c _ => ?_
  congr 2 <;>
  · funext x
    match x with
    | ⟨0, _⟩ => rfl
    | ⟨1, _⟩ => rfl

theorem logistic_apply {s : Shape} {φ : FTy} (x : FVec Ideal s φ) (i : s.Idx) : logistic x i = Ideal.logistic (x i) := rfl
theorem tanh_apply {s : Shape} {φ : FTy} (x : FVec Ideal s φ) (i : s.Idx) :
    Idealize.ShloMosaic.tanh x i = Ideal.tanh (x i) := rfl

/-- S·X and 2·S·(S·X) − X of a packed vector X, lane by lane. -/
theorem cheb_packed {S : Fin 512 → Fin 512 → E} {v1 : FVec Ideal S512x512 .f32} {X : FVec Ideal S512x128 .f32}
    {p : Fin 2 → Fin 64 → Fin 512 → E} (h1 : ∀ i j, v1 (ix2 i j) = S i j) (hX : ∀ s n f, X (ix2 n (sf s f)) = p s f n)
    (s : Fin 2) (n : Fin 512) (f : Fin 64) :
    ∑ j, v1 (ix2 n j) * X (ix2 j (sf s f)) = cheb S (p s f) 1 n
    ∧ bTwo (F := Ideal) * (∑ j, v1 (ix2 n j) * ∑ j', v1 (ix2 j j') * X (ix2 j' (sf s f))) - X (ix2 n (sf s f)) = cheb S (p s f) 2 n := by
  simp only [h1, hX]
  exact ⟨rfl, rfl⟩

section Layout
variable {α : Type}

/-- Gate `g`'s half of the packed gates. -/
theorem sl_gate (g : Fin 2) (x : S512x256.Idx → α) (h : S512x256.Slices ![0, g.val * 128] S512x128) (n : Fin 512) (s : Fin 2) (o : Fin 64) :
    extractStridedSlice S512x128 ![0, g.val * 128] x h (ix2 n (sf s o)) = x (ix2 n (gso g s o)) :=
  slice2_axis1_apply _ x h n _ _ (Nat.add_assoc ..)

/-- Two blocks side by side: column `e s j` of the pair is column `j` of block `s`. -/
theorem cat2 {a b N : ℕ} {e : Fin 2 → Fin b → Fin N} (hb : Blocks e) (x y : (⟨2, ![a, b]⟩ : Shape).Idx → α)
    (h : Shape.Concatenates [⟨2, ![a, b]⟩, ⟨2, ![a, b]⟩] ⟨2, ![a, N]⟩ 1) (i : Fin a) (j : Fin b) :
    concatenate ⟨2, ![a, N]⟩ 1 [⟨_, x⟩, ⟨_, y⟩] h (ix2 i (e 0 j)) = x (ix2 i j)
    ∧ concatenate ⟨2, ![a, N]⟩ 1 [⟨_, x⟩, ⟨_, y⟩] h (ix2 i (e 1 j)) = y (ix2 i j) := by
  have h0 := hb.val 0 j
  have h1 := hb.val 1 j
  simp only [Fin.val_zero, Fin.val_one, Nat.zero_mul, Nat.one_mul, Nat.zero_add] at h0 h1
  constructor
  · exact concatenate_pair_apply_left 1 x y h _ rfl _ fun c => by
      match c with
      | ⟨0, _⟩ => rfl
      | ⟨1, _⟩ => exact h0.symm
  · exact concatenate_pair_apply_right 1 x y h _ rfl rfl _ (fun c hc => by
      match c with
      | ⟨0, _⟩ => rfl
      | ⟨1, _⟩ => exact absurd rfl hc) ((Nat.add_comm ..).trans h1.symm)

end Layout

section Slabs
variable {Val : EltTy → Type} {e : EltTy} {m a b : ℕ}

/-- The slab at leading index `k` sits at `(k, i, j)`. -/
theorem emb_slab (k : Fin m) (inb : ∀ c, (![k.val, 0, 0] : Fin 3 → ℕ) c + (⟨3, ![1, a, b]⟩ : Shape).size c ≤ (⟨3, ![m, a, b]⟩ : Shape).size c)
    (i : Fin a) (j : Fin b) :
    (Rect.unit (s := ⟨3, ![m, a, b]⟩) ![k.val, 0, 0] (⟨3, ![1, a, b]⟩ : Shape).size inb).emb (ix3 0 i j) = ix3 k i j := by
  funext c
  match c with
  | ⟨0, _⟩ => exact Fin.ext (show k.val + 1 * 0 = k.val by omega)
  | ⟨1, _⟩ => exact Fin.ext (show 0 + 1 * i.val = i.val by omega)
  | ⟨2, _⟩ => exact Fin.ext (show 0 + 1 * j.val = j.val by omega)

theorem ld_slab (x : (⟨3, ![m, a, b]⟩ : Shape).Idx → Val e) (k : Fin m) (inb) (i : Fin a) (j : Fin b) :
    View.ld x (Rect.unit ![k.val, 0, 0] (⟨3, ![1, a, b]⟩ : Shape).size inb) (ix3 0 i j) = x (ix3 k i j) :=
  congrArg x (emb_slab k inb i j)

theorem ld_whole (x : (⟨2, ![a, b]⟩ : Shape).Idx → Val e) (inb) :
    View.ld x (Rect.unit ![0, 0] (⟨2, ![a, b]⟩ : Shape).size inb) = x :=
  View.ld_unit_zero (by funext c; match c with | ⟨0, _⟩ => rfl | ⟨1, _⟩ => rfl) _ x

/-- Slabs 0 and 1 of a stack, laid side by side: column `c s j` of row `i` is element `(s, i, j)`. -/
theorem pack_apply {N : ℕ} {c : Fin 2 → Fin b → Fin N} (hb : Blocks c) (x : (⟨3, ![2, a, b]⟩ : Shape).Idx → Val e) (inb0 inb1 h0 h1)
    (hc : Shape.Concatenates [⟨2, ![a, b]⟩, ⟨2, ![a, b]⟩] ⟨2, ![a, N]⟩ 1) (s : Fin 2) (i : Fin a) (j : Fin b) :
    concatenate ⟨2, ![a, N]⟩ 1 [⟨⟨2, ![a, b]⟩, shapeCast ⟨2, ![a, b]⟩ (View.ld x (Rect.unit ![0, 0, 0] (⟨3, ![1, a, b]⟩ : Shape).size inb0)) h0⟩,
      ⟨⟨2, ![a, b]⟩, shapeCast ⟨2, ![a, b]⟩ (View.ld x (Rect.unit ![1, 0, 0] (⟨3, ![1, a, b]⟩ : Shape).size inb1)) h1⟩] hc (ix2 i (c s j))
      = x (ix3 s i j) := by
  revert s
  refine Fin.forall_fin_two.mpr ⟨?_, ?_⟩
  · exact ((cat2 hb _ _ hc i j).1.trans (shapeCast_1ab_ab_apply _ h0 i j)).trans (ld_slab x 0 inb0 i j)
  · exact ((cat2 hb _ _ hc i j).2.trans (shapeCast_1ab_ab_apply _ h1 i j)).trans (ld_slab x 1 inb1 i j)

variable [∀ e, Nonempty (Val e)]

/-- An array assembled from its two slabs reads, in slab `s`, that slab's piece. -/
theorem canon_slabs (inb0 inb1) (w0 w1 : (⟨3, ![1, a, b]⟩ : Shape).Idx → Val e) (i : Fin a) (j : Fin b) :
    View.canon ([⟨Rect.unit (s := ⟨3, ![2, a, b]⟩) ![1, 0, 0] (⟨3, ![1, a, b]⟩ : Shape).size inb1, w1⟩,
      ⟨Rect.unit ![0, 0, 0] (⟨3, ![1, a, b]⟩ : Shape).size inb0, w0⟩] : List (View.Piece Val ⟨3, ![2, a, b]⟩ e)) (ix3 0 i j) = w0 (ix3 0 i j)
    ∧ View.canon ([⟨Rect.unit (s := ⟨3, ![2, a, b]⟩) ![1, 0, 0] (⟨3, ![1, a, b]⟩ : Shape).size inb1, w1⟩,
      ⟨Rect.unit ![0, 0, 0] (⟨3, ![1, a, b]⟩ : Shape).size inb0, w0⟩] : List (View.Piece Val ⟨3, ![2, a, b]⟩ e)) (ix3 1 i j) = w1 (ix3 0 i j) := by
  have e0 : (ix3 0 i j : (⟨3, ![2, a, b]⟩ : Shape).Idx) = _ := (emb_slab 0 inb0 i j).symm
  have e1 : (ix3 1 i j : (⟨3, ![2, a, b]⟩ : Shape).Idx) = _ := (emb_slab 1 inb1 i j).symm
  constructor
  · have hm : (ix3 0 i j : (⟨3, ![2, a, b]⟩ : Shape).Idx)
        ∉ (⟨Rect.unit ![1, 0, 0] (⟨3, ![1, a, b]⟩ : Shape).size inb1, w1⟩ : View.Piece Val ⟨3, ![2, a, b]⟩ e).1.set := fun h =>
      Nat.not_succ_le_zero 0 ((Rect.mem_set_unit (inb := inb1)).mp h 0).1
    rw [View.canon_cons_of_not_mem _ _ hm, e0]
    exact View.canon_cons_emb (Rect.unit (s := ⟨3, ![2, a, b]⟩) ![0, 0, 0] (⟨3, ![1, a, b]⟩ : Shape).size inb0) w0 _ _
  · rw [e1]
    exact View.canon_cons_emb (Rect.unit (s := ⟨3, ![2, a, b]⟩) ![1, 0, 0] (⟨3, ![1, a, b]⟩ : Shape).size inb1) w1 _ _

/-- Block `s` of a packed array, cut out as slab `s`, is read back from the assembled array. -/
theorem canon_halves {N : ℕ} {c : Fin 2 → Fin b → Fin N} (hb : Blocks c) (v : FVec Ideal ⟨2, ![a, N]⟩ .f32) (inb0 inb1 hs0 hs1 hc0 hc1)
    (s : Fin 2) (i : Fin a) (j : Fin b) :
    View.canon ([⟨Rect.unit (s := ⟨3, ![2, a, b]⟩) ![1, 0, 0] (⟨3, ![1, a, b]⟩ : Shape).size inb1,
        shapeCast ⟨3, ![1, a, b]⟩ (extractStridedSlice ⟨2, ![a, b]⟩ ![0, b] v hs1) hc1⟩,
      ⟨Rect.unit ![0, 0, 0] (⟨3, ![1, a, b]⟩ : Shape).size inb0,
        shapeCast ⟨3, ![1, a, b]⟩ (extractStridedSlice ⟨2, ![a, b]⟩ ![0, 0] v hs0) hc0⟩] : List (View.Piece (Elt Ideal) ⟨3, ![2, a, b]⟩ .f32)) (ix3 s i j)
      = v (ix2 i (c s j)) := by
  have h0 := hb.val 0 j
  have h1 := hb.val 1 j
  simp only [Fin.val_zero, Fin.val_one, Nat.zero_mul, Nat.one_mul] at h0 h1
  revert s
  refine Fin.forall_fin_two.mpr ⟨?_, ?_⟩
  · exact ((canon_slabs inb0 inb1 _ _ i j).1.trans (shapeCast_ab_1ab_apply _ hc0 0 i j)).trans (slice2_axis1_apply 0 v hs0 i j _ h0)
  · exact ((canon_slabs inb0 inb1 _ _ i j).2.trans (shapeCast_ab_1ab_apply _ hc1 0 i j)).trans (slice2_axis1_apply b v hs1 i j _ h1)

end Slabs

end Cert.KBodyLayer

end
-- ==== Proof.KBodyA2.lean ====
import proofs.«156303_g19069654794669_cont_sun_m_30_8_alg».proof.Proof.KBodyLayer

noncomputable section

namespace Cert.KBodyA2

open Cert.KernelIdeal Cert.KernelIdeal.Gen Cert.KernelIdeal.Hand
open Idealize.ShloMosaic Idealize.ShloMosaic.ValueIdx
open Cert.Spec Cert.KBodyLayer

theorem bS_apply (x0 : Vec Ideal S512x512 .f32) (i j : Fin 512) : bS (F := Ideal) x0 (ix2 i j) = x0 (ix2 i j) := by
  show k1_pay6 (View.ld x0 qS) (ix2 i j) = x0 (ix2 i j)
  simp only [k1_pay6, shapeCast_self]
  rw [ld_whole]

/-- Bias, input part and the three state parts added in turn, regrouped as input sum + state sum + bias. -/
theorem gconv_arrange (b : E) (ia : Fin 1 → Fin 3 → E) (bs : Fin 64 → Fin 3 → E) :
    ((((b + ∑ k : Fin 3, ia 0 k) + ∑ f : Fin 64, bs f 0) + ∑ f : Fin 64, bs f 1) + ∑ f : Fin 64, bs f 2)
      = (∑ f : Fin 1, ∑ k : Fin 3, ia f k) + (∑ f : Fin 64, ∑ k : Fin 3, bs f k) + b := by
  simp only [Fin.sum_univ_three, Fin.sum_univ_one, Finset.sum_add_distrib]
  abel

section Body
variable (x0 : Vec Ideal S512x512 .f32) (x1 : Vec Ideal S2x512x3 .f32) (x2 : Vec Ideal S2x512x64 .f32) (x4 : Vec Ideal S6x256 .f32)
  (x5 : Vec Ideal S3x128x256 .f32) (x6 : Vec Ideal S1x256 .f32) (x7 : Vec Ideal S6x128 .f32) (x8 : Vec Ideal S3x128x128 .f32) (x9 : Vec Ideal S1x128 .f32)
  (Wrui : Fin 1 → Fin 3 → Fin 128 → E) (Wrus : Fin 64 → Fin 3 → Fin 128 → E) (bru : Fin 128 → E)
  (Wci : Fin 1 → Fin 3 → Fin 64 → E) (Wcs : Fin 64 → Fin 3 → Fin 64 → E) (bc : Fin 64 → E)

theorem bA_apply (s : Fin 2) (n : Fin 512) (k : Fin 3) : bA (F := Ideal) x1 (ix2 n (sk s k)) = x1 (ix3 s n k) :=
  pack_apply sk_blocks x1 _ _ _ _ concatenates_S512x3_S512x3_S512x6_d1 s n k

theorem bH_apply (s : Fin 2) (n : Fin 512) (f : Fin 64) : bH (F := Ideal) x2 (ix2 n (sf s f)) = x2 (ix3 s n f) :=
  pack_apply sf_blocks x2 _ _ _ _ concatenates_S512x64_S512x64_S512x128_d1 s n f

/-- Each lane of S·H is the first diffusion of its slot's state column. -/
theorem pay9_apply (s : Fin 2) (n : Fin 512) (f : Fin 64) :
    k1_pay9 (View.ld x0 qS) (View.ld x2 qH0) (View.ld x2 qH1) (ix2 n (sf s f)) = d1 (fun i j => x0 (ix2 i j)) (fun n' => x2 (ix3 s n' f)) n := by
  simp only [k1_pay9, mm]
  exact Finset.sum_congr rfl fun j _ => congrArg₂ (· * ·) (bS_apply x0 n j) (bH_apply x2 s j f)

/-- 2·S·(S·H) − H, lane by lane, is the order-2 Chebyshev term. -/
theorem cheb2_apply (s : Fin 2) (n : Fin 512) (f : Fin 64) :
    bTwo (F := Ideal) * bV28 (F := Ideal) x0 x2 (ix2 n (sf s f)) - bH (F := Ideal) x2 (ix2 n (sf s f))
      = cheb (fun i j => x0 (ix2 i j)) (fun n' => x2 (ix3 s n' f)) 2 n := by
  simp only [k1_pay11, mm, bS_apply, pay9_apply, bH_apply]
  rfl

section Weights
variable
    (h4 : ∀ (s' : Fin 2) (k : Fin 3) (g s : Fin 2) (o : Fin 64), x4 (ix2 (sk s' k) (gso g s o)) = if s' = s then Wrui 0 k (go g o) else 0)
    (h5 : ∀ (k : Fin 3) (s' : Fin 2) (f : Fin 64) (g s : Fin 2) (o : Fin 64), x5 (ix3 k (sf s' f) (gso g s o)) = if s' = s then Wrus f k (go g o) else 0)
    (h6 : ∀ (g s : Fin 2) (o : Fin 64), x6 (ix2 0 (gso g s o)) = bru (go g o))
    (h7 : ∀ (s' : Fin 2) (k : Fin 3) (s : Fin 2) (o : Fin 64), x7 (ix2 (sk s' k) (sf s o)) = if s' = s then Wci 0 k o else 0)
    (h8 : ∀ (k : Fin 3) (s' : Fin 2) (f : Fin 64) (s : Fin 2) (o : Fin 64), x8 (ix3 k (sf s' f) (sf s o)) = if s' = s then Wcs f k o else 0)
    (h9 : ∀ (s : Fin 2) (o : Fin 64), x9 (ix2 0 (sf s o)) = bc o)
include h4 h5 h6

/-- The weights vanish off the own slot's block, so each packed gate column is the cell's gate of its own slot. -/
theorem packed_gates (g s : Fin 2) (o : Fin 64) (n : Fin 512) :
    k1_pay12 (bH (F := Ideal) x2) (bV27 (F := Ideal) x0 x1 x2 x4 x5 x6) (bV28 (F := Ideal) x0 x2) (bTwo (F := Ideal)) (View.ld x5 qR2) (ix2 n (gso g s o))
      = gate (fun i j => x0 (ix2 i j)) (fun (_ : Fin 1) k n' => x1 (ix3 s n' k)) (fun f n' => x2 (ix3 s n' f)) Wrui Wrus bru g o n := by
  simp only [k1_pay12, k1_pay10, logistic_apply, addf_apply, subf_apply, mulf_apply, broadcast_apply, mm,
    broadcastTo_1b_ab_apply, shapeCast_1ab_ab_apply, shapeCast_self]
  rw [ld_whole, ld_whole]
  refine congrArg Ideal.logistic (Eq.trans ?_ (gconv_arrange (bru (go g o)) _ _))
  exact congrArg₂ (· + ·) (congrArg₂ (· + ·) (congrArg₂ (· + ·) (congrArg₂ (· + ·) (h6 g s o)
    (sum_packed sk_blocks s (fun b => bA_apply x1 s n b) (fun a b => h4 a b g s o)))
    (sum_packed sf_blocks s (fun b => bH_apply x2 s n b) (fun a b => (ld_slab x5 0 _ _ _).trans (h5 0 a b g s o))))
    (sum_packed sf_blocks s (fun b => pay9_apply x0 x2 s n b) (fun a b => (ld_slab x5 1 _ _ _).trans (h5 1 a b g s o))))
    (sum_packed sf_blocks s (fun b => cheb2_apply x0 x2 s n b)
      (fun a b => (ld_slab x5 2 _ _ _).trans (h5 2 a b g s o)))

include h7 h8 h9

/-- Likewise the candidate, with the reset gate times the state in the state's place. -/
theorem packed_cand (s : Fin 2) (o : Fin 64) (n : Fin 512) :
    bV64 (F := Ideal) x0 x1 x2 x4 x5 x6 x7 x8 x9 (ix2 n (sf s o))
      = cand (fun i j => x0 (ix2 i j)) (fun (_ : Fin 1) k n' => x1 (ix3 s n' k)) (fun f n' => x2 (ix3 s n' f)) Wrui Wrus bru Wci Wcs bc o n := by
  simp only [k1_pay14]
  generalize hv : mulf (extractStridedSlice S512x128 ![0, 0] (k1_pay12 (bH (F := Ideal) x2) (bV27 (F := Ideal) x0 x1 x2 x4 x5 x6) (bV28 (F := Ideal) x0 x2) (bTwo (F := Ideal)) (View.ld x5 qR2)) slices_S512x256_o0_0_S512x128) (bH (F := Ideal) x2) = v39
  have h39 := fun s' n' f => (congrFun hv (ix2 n' (sf s' f))).symm.trans (congrArg₂ (· * ·)
    ((sl_gate 0 _ slices_S512x256_o0_0_S512x128 n' s' f).trans (packed_gates x0 x1 x2 x4 x5 x6 Wrui Wrus bru h4 h5 h6 0 s' f n')) (bH_apply x2 s' n' f))
  simp only [tanh_apply, addf_apply, subf_apply, mulf_apply, broadcast_apply, mm, broadcastTo_1b_ab_apply, shapeCast_1ab_ab_apply, shapeCast_self]
  rw [ld_whole, ld_whole]
  refine congrArg Ideal.tanh (Eq.trans ?_ (gconv_arrange (bc o) _ _))
  exact congrArg₂ (· + ·) (congrArg₂ (· + ·) (congrArg₂ (· + ·) (congrArg₂ (· + ·) (h9 s o)
    (sum_packed sk_blocks s (fun b => bA_apply x1 s n b) (fun a b => h7 a b s o)))
    (sum_packed sf_blocks s (fun b => h39 s n b) (fun a b => (ld_slab x8 0 _ _ _).trans (h8 0 a b s o))))
    (sum_packed sf_blocks s (fun b => (cheb_packed (bS_apply x0) h39 s n b).1) (fun a b => (ld_slab x8 1 _ _ _).trans (h8 1 a b s o))))
    (sum_packed sf_blocks s (fun b => (cheb_packed (bS_apply x0) h39 s n b).2) (fun a b => (ld_slab x8 2 _ _ _).trans (h8 2 a b s o)))

end Weights

/-- Update gate, state and candidate combine lane by lane into the cell's new state. -/
theorem packed_h0
    (h4 : ∀ (s' : Fin 2) (k : Fin 3) (g s : Fin 2) (o : Fin 64), x4 (ix2 (sk s' k) (gso g s o)) = if s' = s then Wrui 0 k (go g o) else 0)
    (h5 : ∀ (k : Fin 3) (s' : Fin 2) (f : Fin 64) (g s : Fin 2) (o : Fin 64), x5 (ix3 k (sf s' f) (gso g s o)) = if s' = s then Wrus f k (go g o) else 0)
    (h6 : ∀ (g s : Fin 2) (o : Fin 64), x6 (ix2 0 (gso g s o)) = bru (go g o))
    (h7 : ∀ (s' : Fin 2) (k : Fin 3) (s : Fin 2) (o : Fin 64), x7 (ix2 (sk s' k) (sf s o)) = if s' = s then Wci 0 k o else 0)
    (h8 : ∀ (k : Fin 3) (s' : Fin 2) (f : Fin 64) (s : Fin 2) (o : Fin 64), x8 (ix3 k (sf s' f) (sf s o)) = if s' = s then Wcs f k o else 0)
    (h9 : ∀ (s : Fin 2) (o : Fin 64), x9 (ix2 0 (sf s o)) = bc o)
    (s : Fin 2) (n : Fin 512) (u : Fin 64) :
    bV69 (F := Ideal) x0 x1 x2 x4 x5 x6 x7 x8 x9 (ix2 n (sf s u))
      = cell (fun i j => x0 (ix2 i j)) (fun (_ : Fin 1) k n' => x1 (ix3 s n' k)) (fun f n' => x2 (ix3 s n' f)) Wrui Wrus bru Wci Wcs bc u n := by
  simp only [k1_pay15, addf_apply, subf_apply, mulf_apply, broadcast_apply]
  rw [packed_cand x0 x1 x2 x4 x5 x6 x7 x8 x9 Wrui Wrus bru Wci Wcs bc h4 h5 h6 h7 h8 h9, bH_apply,
    show bV38 (F := Ideal) x0 x1 x2 x4 x5 x6 (ix2 n (sf s u)) = _ from
      (sl_gate 1 _ slices_S512x256_o0_128_S512x128 n s u).trans (packed_gates x0 x1 x2 x4 x5 x6 Wrui Wrus bru h4 h5 h6 1 s u n)]
  rfl

/-- Each slot's half of the new packed state is that slot's slab of the result. -/
theorem out_h0
    (h4 : ∀ (s' : Fin 2) (k : Fin 3) (g s : Fin 2) (o : Fin 64), x4 (ix2 (sk s' k) (gso g s o)) = if s' = s then Wrui 0 k (go g o) else 0)
    (h5 : ∀ (k : Fin 3) (s' : Fin 2) (f : Fin 64) (g s : Fin 2) (o : Fin 64), x5 (ix3 k (sf s' f) (gso g s o)) = if s' = s then Wrus f k (go g o) else 0)
    (h6 : ∀ (g s : Fin 2) (o : Fin 64), x6 (ix2 0 (gso g s o)) = bru (go g o))
    (h7 : ∀ (s' : Fin 2) (k : Fin 3) (s : Fin 2) (o : Fin 64), x7 (ix2 (sk s' k) (sf s o)) = if s' = s then Wci 0 k o else 0)
    (h8 : ∀ (k : Fin 3) (s' : Fin 2) (f : Fin 64) (s : Fin 2) (o : Fin 64), x8 (ix3 k (sf s' f) (sf s o)) = if s' = s then Wcs f k o else 0)
    (h9 : ∀ (s : Fin 2) (o : Fin 64), x9 (ix2 0 (sf s o)) = bc o)
    (s : Fin 2) (n : Fin 512) (u : Fin 64) :
    out1_19 (F := Ideal) x0 x1 x2 x4 x5 x6 x7 x8 x9 (ix3 s n u)
      = cell (fun i j => x0 (ix2 i j)) (fun (_ : Fin 1) k n' => x1 (ix3 s n' k)) (fun f n' => x2 (ix3 s n' f)) Wrui Wrus bru Wci Wcs bc u n :=
  (canon_halves sf_blocks (bV69 (F := Ideal) x0 x1 x2 x4 x5 x6 x7 x8 x9) _ _ _ _ _ _ s n u).trans
    (packed_h0 x0 x1 x2 x4 x5 x6 x7 x8 x9 Wrui Wrus bru Wci Wcs bc h4 h5 h6 h7 h8 h9 s n u)

theorem packed_g1
    (h4 : ∀ (s' : Fin 2) (k : Fin 3) (g s : Fin 2) (o : Fin 64), x4 (ix2 (sk s' k) (gso g s o)) = if s' = s then Wrui 0 k (go g o) else 0)
    (h5 : ∀ (k : Fin 3) (s' : Fin 2) (f : Fin 64) (g s : Fin 2) (o : Fin 64), x5 (ix3 k (sf s' f) (gso g s o)) = if s' = s then Wrus f k (go g o) else 0)
    (h6 : ∀ (g s : Fin 2) (o : Fin 64), x6 (ix2 0 (gso g s o)) = bru (go g o))
    (h7 : ∀ (s' : Fin 2) (k : Fin 3) (s : Fin 2) (o : Fin 64), x7 (ix2 (sk s' k) (sf s o)) = if s' = s then Wci 0 k o else 0)
    (h8 : ∀ (k : Fin 3) (s' : Fin 2) (f : Fin 64) (s : Fin 2) (o : Fin 64), x8 (ix3 k (sf s' f) (sf s o)) = if s' = s then Wcs f k o else 0)
    (h9 : ∀ (s : Fin 2) (o : Fin 64), x9 (ix2 0 (sf s o)) = bc o)
    (s : Fin 2) (n : Fin 512) (u : Fin 64) :
    bV94 (F := Ideal) x0 x1 x2 x4 x5 x6 x7 x8 x9 (ix2 n (sf s u))
      = d1 (fun i j => x0 (ix2 i j)) (fun n' => cell (fun i j => x0 (ix2 i j)) (fun (_ : Fin 1) k n' => x1 (ix3 s n' k)) (fun f n' => x2 (ix3 s n' f)) Wrui Wrus bru Wci Wcs bc u n') n := by
  simp only [k1_pay20, mm]
  exact Finset.sum_congr rfl fun j _ => congrArg₂ (· * ·) (bS_apply x0 n j)
    (packed_h0 x0 x1 x2 x4 x5 x6 x7 x8 x9 Wrui Wrus bru Wci Wcs bc h4 h5 h6 h7 h8 h9 s j u)

end Body

end Cert.KBodyA2

end
-- ==== Proof.KBodyB.lean ====
import proofs.«156303_g19069654794669_cont_sun_m_30_8_alg».proof.Proof.KBodyLayer

noncomputable section

namespace Cert.KBodyB

open Cert.KernelIdeal Cert.KernelIdeal.Gen Cert.KernelIdeal.Hand
open Idealize.ShloMosaic Idealize.ShloMosaic.ValueIdx
open Cert.Spec Cert.KBodyLayer

/-- The gates add input and state parts alternately, order by order; regrouped as input sum + state sum + bias. -/
theorem arrange_ru (b : E) (a bs : Fin 64 → Fin 3 → E) :
    ((((((b + ∑ f, a f 0) + ∑ f, bs f 0) + ∑ f, a f 1) + ∑ f, bs f 1) + ∑ f, a f 2) + ∑ f, bs f 2)
      = (∑ f, ∑ k, a f k) + (∑ f, ∑ k, bs f k) + b := by
  simp only [Fin.sum_univ_three, Finset.sum_add_distrib]
  abel

/-- The candidate adds the three input parts before the three state parts. -/
theorem arrange_c (b : E) (a bs : Fin 64 → Fin 3 → E) :
    ((((((b + ∑ f, a f 0) + ∑ f, a f 1) + ∑ f, a f 2) + ∑ f, bs f 0) + ∑ f, bs f 1) + ∑ f, bs f 2)
      = (∑ f, ∑ k, a f k) + (∑ f, ∑ k, bs f k) + b := by
  simp only [Fin.sum_univ_three, Finset.sum_add_distrib]
  abel

section Body
variable (x0 : Vec Ideal S512x512 .f32) (x1 : Vec Ideal S2x512x3 .f32) (x2 x3 : Vec Ideal S2x512x64 .f32) (x4 : Vec Ideal S6x256 .f32)
  (x5 : Vec Ideal S3x128x256 .f32) (x6 : Vec Ideal S1x256 .f32) (x7 : Vec Ideal S6x128 .f32) (x8 : Vec Ideal S3x128x128 .f32) (x9 : Vec Ideal S1x128 .f32)
  (x10 x11 : Vec Ideal S3x128x256 .f32) (x12 : Vec Ideal S1x256 .f32) (x13 x14 : Vec Ideal S3x128x128 .f32) (x15 : Vec Ideal S1x128 .f32)
  (x16 : Vec Ideal S128x2 .f32) (x17 : Vec Ideal S1x1 .f32)
  (hn0 : Fin 2 → Fin 64 → Fin 512 → E)
  (Wrui Wrus : Fin 64 → Fin 3 → Fin 128 → E) (bru : Fin 128 → E)
  (Wci Wcs : Fin 64 → Fin 3 → Fin 64 → E) (bc : Fin 64 → E) (wp : Fin 64 → E) (bp : E)

theorem bK_apply (s : Fin 2) (n : Fin 512) (f : Fin 64) : bK (F := Ideal) x3 (ix2 n (sf s f)) = x3 (ix3 s n f) :=
  pack_apply sf_blocks x3 _ _ _ _ concatenates_S512x64_S512x64_S512x128_d1 s n f

section Weights
variable
    (hS : ∀ i j, bS (F := Ideal) x0 (ix2 i j) = x0 (ix2 i j))
    (h69 : ∀ (s : Fin 2) (n : Fin 512) (u : Fin 64), bV69 (F := Ideal) x0 x1 x2 x4 x5 x6 x7 x8 x9 (ix2 n (sf s u)) = hn0 s u n)
    (h94 : ∀ (s : Fin 2) (n : Fin 512) (u : Fin 64), bV94 (F := Ideal) x0 x1 x2 x4 x5 x6 x7 x8 x9 (ix2 n (sf s u))
      = d1 (fun i j => x0 (ix2 i j)) (hn0 s u) n)
    (h10 : ∀ (k : Fin 3) (s' : Fin 2) (f : Fin 64) (g s : Fin 2) (o : Fin 64),
      x10 (ix3 k (sf s' f) (gso g s o)) = if s' = s then Wrui f k (go g o) else 0)
    (h11 : ∀ (k : Fin 3) (s' : Fin 2) (f : Fin 64) (g s : Fin 2) (o : Fin 64),
      x11 (ix3 k (sf s' f) (gso g s o)) = if s' = s then Wrus f k (go g o) else 0)
    (h12 : ∀ (g s : Fin 2) (o : Fin 64), x12 (ix2 0 (gso g s o)) = bru (go g o))
    (h13 : ∀ (k : Fin 3) (s' : Fin 2) (f : Fin 64) (s : Fin 2) (o : Fin 64),
      x13 (ix3 k (sf s' f) (sf s o)) = if s' = s then Wci f k o else 0)
    (h14 : ∀ (k : Fin 3) (s' : Fin 2) (f : Fin 64) (s : Fin 2) (o : Fin 64),
      x14 (ix3 k (sf s' f) (sf s o)) = if s' = s then Wcs f k o else 0)
    (h15 : ∀ (s : Fin 2) (o : Fin 64), x15 (ix2 0 (sf s o)) = bc o)
include hS h69 h94

/-- 2·S·G1 − G0, lane by lane, is the order-2 Chebyshev term of layer 0's new state. -/
theorem v107_apply (s : Fin 2) (n : Fin 512) (f : Fin 64) :
    bV107 (F := Ideal) x0 x1 x2 x4 x5 x6 x7 x8 x9 (ix2 n (sf s f)) = cheb (fun i j => x0 (ix2 i j)) (hn0 s f) 2 n := by
  simp only [k1_pay21, subf_apply, mulf_apply, broadcast_apply, mm, hS, h69, h94]
  rfl

include h10 h11 h12

/-- Layer 1 reads layer 0's new state and its two diffusions as its input columns. -/
theorem packed_gates (g s : Fin 2) (o : Fin 64) (n : Fin 512) :
    k1_pay22 (bS (F := Ideal) x0) (bV69 (F := Ideal) x0 x1 x2 x4 x5 x6 x7 x8 x9) (bK (F := Ideal) x3)
      (bV93 (F := Ideal) x0 x1 x2 x3 x4 x5 x6 x7 x8 x9 x10 x11 x12) (bV94 (F := Ideal) x0 x1 x2 x4 x5 x6 x7 x8 x9)
      (View.ld x10 qR1) (View.ld x11 qR1) (View.ld x10 qR2) (View.ld x11 qR2) (ix2 n (gso g s o))
      = gate (fun i j => x0 (ix2 i j)) (fun (f : Fin 64) k n' => cheb (fun i j => x0 (ix2 i j)) (hn0 s f) k n') (fun f n' => x3 (ix3 s n' f)) Wrui Wrus bru g o n := by
  simp only [k1_pay22, k1_pay19, logistic_apply, addf_apply, subf_apply, mulf_apply, broadcast_apply, mm,
    broadcastTo_1b_ab_apply, shapeCast_1ab_ab_apply, shapeCast_self]
  rw [ld_whole]
  refine congrArg Ideal.logistic (Eq.trans ?_ (arrange_ru (bru (go g o)) _ _))
  exact congrArg₂ (· + ·) (congrArg₂ (· + ·) (congrArg₂ (· + ·) (congrArg₂ (· + ·) (congrArg₂ (· + ·) (congrArg₂ (· + ·) (h12 g s o)
    (sum_packed sf_blocks s (fun b => h69 s n b) (fun a b => (ld_slab x10 0 _ _ _).trans (h10 0 a b g s o))))
    (sum_packed sf_blocks s (fun b => bK_apply x3 s n b) (fun a b => (ld_slab x11 0 _ _ _).trans (h11 0 a b g s o))))
    (sum_packed sf_blocks s (fun b => h94 s n b) (fun a b => (ld_slab x10 1 _ _ _).trans (h10 1 a b g s o))))
    (sum_packed sf_blocks s (fun b => (cheb_packed hS (bK_apply x3) s n b).1) (fun a b => (ld_slab x11 1 _ _ _).trans (h11 1 a b g s o))))
    (sum_packed sf_blocks s (fun b => v107_apply x0 x1 x2 x4 x5 x6 x7 x8 x9 hn0 hS h69 h94 s n b)
      (fun a b => (ld_slab x10 2 _ _ _).trans (h10 2 a b g s o))))
    (sum_packed sf_blocks s (fun b => (cheb_packed hS (bK_apply x3) s n b).2) (fun a b => (ld_slab x11 2 _ _ _).trans (h11 2 a b g s o)))

include h13 h14 h15

/-- Update gate, state and candidate combine lane by lane into layer 1's new state. -/
theorem v161_eq (s : Fin 2) (n : Fin 512) (u : Fin 64) :
    bV161 (F := Ideal) x0 x1 x2 x3 x4 x5 x6 x7 x8 x9 x10 x11 x12 x13 x14 x15 (ix2 n (sf s u))
      = cell (fun i j => x0 (ix2 i j)) (fun (f : Fin 64) k n' => cheb (fun i j => x0 (ix2 i j)) (hn0 s f) k n')
          (fun f n' => x3 (ix3 s n' f)) Wrui Wrus bru Wci Wcs bc u n := by
  have hG := packed_gates x0 x1 x2 x3 x4 x5 x6 x7 x8 x9 x10 x11 x12 hn0 Wrui Wrus bru hS h69 h94 h10 h11 h12
  have h123 : ∀ s n f, bV123 (F := Ideal) x0 x1 x2 x3 x4 x5 x6 x7 x8 x9 x10 x11 x12 (ix2 n (sf s f)) = _ := fun s n f =>
    congrArg₂ (· * ·) ((sl_gate 0 _ slices_S512x256_o0_0_S512x128 n s f).trans (hG 0 s f n)) (bK_apply x3 s n f)
  simp only [k1_pay26, k1_pay25, tanh_apply, addf_apply, subf_apply, mulf_apply, broadcast_apply, mm,
    broadcastTo_1b_ab_apply, shapeCast_1ab_ab_apply, shapeCast_self]
  rw [ld_whole, bK_apply, show bV122 (F := Ideal) x0 x1 x2 x3 x4 x5 x6 x7 x8 x9 x10 x11 x12 (ix2 n (sf s u)) = _ from
    (sl_gate 1 _ slices_S512x256_o0_128_S512x128 n s u).trans (hG 1 s u n)]
  refine congrArg₂ (· + ·) rfl (congrArg₂ (· * ·) rfl (congrArg Ideal.tanh (Eq.trans ?_ (arrange_c (bc u) _ _))))
  exact congrArg₂ (· + ·) (congrArg₂ (· + ·) (congrArg₂ (· + ·) (congrArg₂ (· + ·) (congrArg₂ (· + ·) (congrArg₂ (· + ·) (h15 s u)
    (sum_packed sf_blocks s (fun b => h69 s n b) (fun a b => (ld_slab x13 0 _ _ _).trans (h13 0 a b s u))))
    (sum_packed sf_blocks s (fun b => h94 s n b) (fun a b => (ld_slab x13 1 _ _ _).trans (h13 1 a b s u))))
    (sum_packed sf_blocks s (fun b => v107_apply x0 x1 x2 x4 x5 x6 x7 x8 x9 hn0 hS h69 h94 s n b)
      (fun a b => (ld_slab x13 2 _ _ _).trans (h13 2 a b s u))))
    (sum_packed sf_blocks s (fun b => h123 s n b) (fun a b => (ld_slab x14 0 _ _ _).trans (h14 0 a b s u))))
    (sum_packed sf_blocks s (fun b => (cheb_packed hS h123 s n b).1) (fun a b => (ld_slab x14 1 _ _ _).trans (h14 1 a b s u))))
    (sum_packed sf_blocks s (fun b => (cheb_packed hS h123 s n b).2) (fun a b => (ld_slab x14 2 _ _ _).trans (h14 2 a b s u)))

end Weights

theorem out_h1
    (hS : ∀ i j, bS (F := Ideal) x0 (ix2 i j) = x0 (ix2 i j))
    (h69 : ∀ (s : Fin 2) (n : Fin 512) (u : Fin 64), bV69 (F := Ideal) x0 x1 x2 x4 x5 x6 x7 x8 x9 (ix2 n (sf s u)) = hn0 s u n)
    (h94 : ∀ (s : Fin 2) (n : Fin 512) (u : Fin 64), bV94 (F := Ideal) x0 x1 x2 x4 x5 x6 x7 x8 x9 (ix2 n (sf s u))
      = d1 (fun i j => x0 (ix2 i j)) (hn0 s u) n)
    (h10 : ∀ (k : Fin 3) (s' : Fin 2) (f : Fin 64) (g s : Fin 2) (o : Fin 64),
      x10 (ix3 k (sf s' f) (gso g s o)) = if s' = s then Wrui f k (go g o) else 0)
    (h11 : ∀ (k : Fin 3) (s' : Fin 2) (f : Fin 64) (g s : Fin 2) (o : Fin 64),
      x11 (ix3 k (sf s' f) (gso g s o)) = if s' = s then Wrus f k (go g o) else 0)
    (h12 : ∀ (g s : Fin 2) (o : Fin 64), x12 (ix2 0 (gso g s o)) = bru (go g o))
    (h13 : ∀ (k : Fin 3) (s' : Fin 2) (f : Fin 64) (s : Fin 2) (o : Fin 64),
      x13 (ix3 k (sf s' f) (sf s o)) = if s' = s then Wci f k o else 0)
    (h14 : ∀ (k : Fin 3) (s' : Fin 2) (f : Fin 64) (s : Fin 2) (o : Fin 64),
      x14 (ix3 k (sf s' f) (sf s o)) = if s' = s then Wcs f k o else 0)
    (h15 : ∀ (s : Fin 2) (o : Fin 64), x15 (ix2 0 (sf s o)) = bc o)
    (s : Fin 2) (n : Fin 512) (u : Fin 64) :
    out1_20 (F := Ideal) x0 x1 x2 x3 x4 x5 x6 x7 x8 x9 x10 x11 x12 x13 x14 x15 (ix3 s n u)
      = cell (fun i j => x0 (ix2 i j)) (fun (f : Fin 64) k n' => cheb (fun i j => x0 (ix2 i j)) (hn0 s f) k n')
          (fun f n' => x3 (ix3 s n' f)) Wrui Wrus bru Wci Wcs bc u n :=
  (canon_halves sf_blocks (bV161 (F := Ideal) x0 x1 x2 x3 x4 x5 x6 x7 x8 x9 x10 x11 x12 x13 x14 x15) _ _ slices_S512x128_o0_0_S512x64 _ _ _ s n u).trans
    (v161_eq x0 x1 x2 x3 x4 x5 x6 x7 x8 x9 x10 x11 x12 x13 x14 x15 hn0 Wrui Wrus bru Wci Wcs bc
    hS h69 h94 h10 h11 h12 h13 h14 h15 s n u)

/-- The projection is the new state against the slot's weight column, plus the bias. -/
theorem out_proj
    (hS : ∀ i j, bS (F := Ideal) x0 (ix2 i j) = x0 (ix2 i j))
    (h69 : ∀ (s : Fin 2) (n : Fin 512) (u : Fin 64), bV69 (F := Ideal) x0 x1 x2 x4 x5 x6 x7 x8 x9 (ix2 n (sf s u)) = hn0 s u n)
    (h94 : ∀ (s : Fin 2) (n : Fin 512) (u : Fin 64), bV94 (F := Ideal) x0 x1 x2 x4 x5 x6 x7 x8 x9 (ix2 n (sf s u))
      = d1 (fun i j => x0 (ix2 i j)) (hn0 s u) n)
    (h10 : ∀ (k : Fin 3) (s' : Fin 2) (f : Fin 64) (g s : Fin 2) (o : Fin 64),
      x10 (ix3 k (sf s' f) (gso g s o)) = if s' = s then Wrui f k (go g o) else 0)
    (h11 : ∀ (k : Fin 3) (s' : Fin 2) (f : Fin 64) (g s : Fin 2) (o : Fin 64),
      x11 (ix3 k (sf s' f) (gso g s o)) = if s' = s then Wrus f k (go g o) else 0)
    (h12 : ∀ (g s : Fin 2) (o : Fin 64), x12 (ix2 0 (gso g s o)) = bru (go g o))
    (h13 : ∀ (k : Fin 3) (s' : Fin 2) (f : Fin 64) (s : Fin 2) (o : Fin 64),
      x13 (ix3 k (sf s' f) (sf s o)) = if s' = s then Wci f k o else 0)
    (h14 : ∀ (k : Fin 3) (s' : Fin 2) (f : Fin 64) (s : Fin 2) (o : Fin 64),
      x14 (ix3 k (sf s' f) (sf s o)) = if s' = s then Wcs f k o else 0)
    (h15 : ∀ (s : Fin 2) (o : Fin 64), x15 (ix2 0 (sf s o)) = bc o)
    (h16 : ∀ (s' : Fin 2) (f : Fin 64) (s : Fin 2), x16 (ix2 (sf s' f) s) = if s' = s then wp f else 0)
    (h17 : x17 (ix2 0 0) = bp)
    (s : Fin 2) (n : Fin 512) :
    out1_18 (F := Ideal) x0 x1 x2 x3 x4 x5 x6 x7 x8 x9 x10 x11 x12 x13 x14 x15 x16 x17 (ix3 s n 0)
      = (∑ u : Fin 64, cell (fun i j => x0 (ix2 i j)) (fun (f : Fin 64) k n' => cheb (fun i j => x0 (ix2 i j)) (hn0 s f) k n')
          (fun f n' => x3 (ix3 s n' f)) Wrui Wrus bru Wci Wcs bc u n * wp u) + bp := by
  refine (canon_halves (c := fun s _ => s) ⟨rfl, fun a b => by omega⟩
    (k1_pay3 (bV161 (F := Ideal) x0 x1 x2 x3 x4 x5 x6 x7 x8 x9 x10 x11 x12 x13 x14 x15) (View.ld x16 qP) (View.ld x17 qQ)) _ _ _ _ _ _ s n 0).trans ?_
  simp only [k1_pay3, addf_apply, mm, shapeCast_self]
  rw [ld_whole, ld_whole]
  exact congrArg₂ (· + ·) (sum_packed sf_blocks s
    (fun b => v161_eq x0 x1 x2 x3 x4 x5 x6 x7 x8 x9 x10 x11 x12 x13 x14 x15 hn0 Wrui Wrus bru Wci Wcs bc
    hS h69 h94 h10 h11 h12 h13 h14 h15 s n b)
    (fun a b => h16 a b s)) ((broadcastTo_apply _ _ _ (ix2 0 0) fun a => by
      match a with
      | ⟨0, _⟩ => rfl
      | ⟨1, _⟩ => rfl).trans h17)

end Body

end Cert.KBodyB
end
-- ==== Proof.KI.Points.lean ====
import proofs.«156303_g19069654794669_cont_sun_m_30_8_alg».proof.Proof.KI.Run
import proofs.«156303_g19069654794669_cont_sun_m_30_8_alg».proof.Proof.KI.Cover
import proofs.«156303_g19069654794669_cont_sun_m_30_8_alg».proof.Proof.KI.Entry
import proofs.«156303_g19069654794669_cont_sun_m_30_8_alg».proof.Proof.KHostA
import proofs.«156303_g19069654794669_cont_sun_m_30_8_alg».proof.Proof.KHostB
import proofs.«156303_g19069654794669_cont_sun_m_30_8_alg».proof.Proof.KBodyA2
import proofs.«156303_g19069654794669_cont_sun_m_30_8_alg».proof.Proof.KBodyB

noncomputable section

namespace Cert.KernelIdeal.Points

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)
open Idealize.ShloMosaic.ValueIdx
open Cert.Spec

section Glue
variable (m : (ℓ : Loc nD τ sig) → Buf (Elt Ideal) ℓ) (ρ : Dev nD → PrngReg) (c : Dev nD)

abbrev a0 : S64x512.Idx → EReal := m ((c : Thread nD τ).loc main_arg0)
abbrev a1 : S2x64x32768.Idx → EReal := m ((c : Thread nD τ).loc main_arg1)
abbrev a2 : S512x512.Idx → EReal := m ((c : Thread nD τ).loc main_arg2)
abbrev a3 : S195x128.Idx → EReal := m ((c : Thread nD τ).loc main_arg3)
abbrev a4 : S128.Idx → EReal := m ((c : Thread nD τ).loc main_arg4)
abbrev a5 : S195x64.Idx → EReal := m ((c : Thread nD τ).loc main_arg5)
abbrev a6 : S64.Idx → EReal := m ((c : Thread nD τ).loc main_arg6)
abbrev a7 : S384x128.Idx → EReal := m ((c : Thread nD τ).loc main_arg7)
abbrev a8 : S128.Idx → EReal := m ((c : Thread nD τ).loc main_arg8)
abbrev a9 : S384x64.Idx → EReal := m ((c : Thread nD τ).loc main_arg9)
abbrev a10 : S64.Idx → EReal := m ((c : Thread nD τ).loc main_arg10)
abbrev a11 : S64x1.Idx → EReal := m ((c : Thread nD τ).loc main_arg11)
abbrev a12 : S1.Idx → EReal := m ((c : Thread nD τ).loc main_arg12)

local notation:max "𝕏[" w "," t "]" => iblk1 (V6 (F := Ideal) m ρ) c w t

theorem e0 (t : Fin cfg1.N) (i j : Fin 512) :
    (𝕏[0, t] : Vec Ideal S512x512 .f32) (ix2 i j) = sup (a2 m c) i j :=
  (congrArg (V6 m ρ c (Pipeline.arrRef spec1 0)) (emb_zero win1_0 t (idx1_full 0 (by decide) t) _ _ fun _ => rfl)).trans
    (Entry.f_S m ρ c (arr0_3 (V4 m ρ) c) i j)

theorem e1 (t : Fin cfg1.N) (s : Fin 2) (n : Fin 512) (k : Fin 3) :
    (𝕏[1, t] : Vec Ideal S2x512x3 .f32) (ix3 s n k)
      = cheb (sup (a2 m c)) (fun j => a0 m c (ix2 (ts (pt t) s) j)) k n :=
  (congrArg (V6 m ρ c (Pipeline.arrRef spec1 1)) (emb1_1 t s n k)).trans (Entry.f_A m ρ c (arr0_4 (V4 m ρ) c) (arr0_5 (V4 m ρ) c) (ts (pt t) s) n k)

theorem e2 (t : Fin cfg1.N) (s : Fin 2) (n : Fin 512) (u : Fin 64) :
    (𝕏[2, t] : Vec Ideal S2x512x64 .f32) (ix3 s n u) = a1 m c (ix3 0 (ts (pt t) s) (nu n u)) :=
  (congrArg (V6 m ρ c (Pipeline.arrRef spec1 2)) (emb1_2 t s n u)).trans (Entry.f_H m ρ c (ts (pt t) s) n u)

theorem e3 (t : Fin cfg1.N) (s : Fin 2) (n : Fin 512) (u : Fin 64) :
    (𝕏[3, t] : Vec Ideal S2x512x64 .f32) (ix3 s n u) = a1 m c (ix3 1 (ts (pt t) s) (nu n u)) :=
  (congrArg (V6 m ρ c (Pipeline.arrRef spec1 3)) (emb1_3 t s n u)).trans (Entry.f_K m ρ c (ts (pt t) s) n u)

variable (t : Fin cfg1.N)

/-- A buffer only the first host stretch writes, read at equal indices, holds that stretch's result. -/
theorem host_at (r : Ref sig .tc)
    (hr1 : r ∉ [main_v193, main_v194, main_v195, main_v196, main_v197, main_v198, main_v199, main_v200, main_v201])
    (hr0 : ∀ w, Pipeline.arrRef spec0 w ≠ r) {x i} (h : x = i) :
    V6 (F := Ideal) m ρ c r x = StableHlo.after hostOps0 (W0 m ρ c) (Proc.devRef .tc r) i :=
  (congrFun (Entry.f_w m ρ c r hr1 hr0) x).trans (congrArg _ h)

theorem w4 (s' : Fin 2) (k : Fin 3) (g s : Fin 2) (o : Fin 64) :
    (𝕏[4, t] : Vec Ideal S6x256 .f32) (ix2 (sk s' k) (gso g s o))
      = if s' = s then a3 m c (ix2 (fk (n := 65) ⟨(0 : Fin 1).val, by omega⟩ k) (go g o)) else 0 :=
  (host_at m ρ c main_v10 (by decide) (by decide) (emb_zero win1_4 t (idx1_full 4 (by decide) t) _ _ fun _ => rfl)).trans (KHostA.read_v10 (W0 m ρ c) s' s g k o)

theorem w5 (k : Fin 3) (s' : Fin 2) (f : Fin 64) (g s : Fin 2) (o : Fin 64) :
    (𝕏[5, t] : Vec Ideal S3x128x256 .f32) (ix3 k (sf s' f) (gso g s o))
      = if s' = s then a3 m c (ix2 (fk (f1 f) k) (go g o)) else 0 :=
  (host_at m ρ c main_v38 (by decide) (by decide) (emb_zero win1_5 t (idx1_full 5 (by decide) t) _ _ fun _ => rfl)).trans (KHostA.read_v38 (W0 m ρ c) s' s g k f o)

theorem w6 (g s : Fin 2) (o : Fin 64) :
    (𝕏[6, t] : Vec Ideal S1x256 .f32) (ix2 0 (gso g s o)) = a4 m c (ix1 (go g o)) :=
  (host_at m ρ c main_v175 (by decide) (by decide) (emb_zero win1_6 t (idx1_full 6 (by decide) t) _ _ fun _ => rfl)).trans (KHostA.read_v175 (W0 m ρ c) g s o)

theorem w7 (s' : Fin 2) (k : Fin 3) (s : Fin 2) (o : Fin 64) :
    (𝕏[7, t] : Vec Ideal S6x128 .f32) (ix2 (sk s' k) (sf s o))
      = if s' = s then a5 m c (ix2 (fk (n := 65) ⟨(0 : Fin 1).val, by omega⟩ k) o) else 0 :=
  (host_at m ρ c main_v45 (by decide) (by decide) (emb_zero win1_7 t (idx1_full 7 (by decide) t) _ _ fun _ => rfl)).trans (KHostA.read_v45 (W0 m ρ c) s' s k o)

theorem w8 (k : Fin 3) (s' : Fin 2) (f : Fin 64) (s : Fin 2) (o : Fin 64) :
    (𝕏[8, t] : Vec Ideal S3x128x128 .f32) (ix3 k (sf s' f) (sf s o))
      = if s' = s then a5 m c (ix2 (fk (f1 f) k) o) else 0 :=
  (host_at m ρ c main_v67 (by decide) (by decide) (emb_zero win1_8 t (idx1_full 8 (by decide) t) _ _ fun _ => rfl)).trans (KHostA.read_v67 (W0 m ρ c) s' s k f o)

theorem w9 (s : Fin 2) (o : Fin 64) :
    (𝕏[9, t] : Vec Ideal S1x128 .f32) (ix2 0 (sf s o)) = a6 m c (ix1 o) :=
  (host_at m ρ c main_v177 (by decide) (by decide) (emb_zero win1_9 t (idx1_full 9 (by decide) t) _ _ fun _ => rfl)).trans (KHostA.read_v177 (W0 m ρ c) s o)

theorem w10 (k : Fin 3) (s' : Fin 2) (f : Fin 64) (g s : Fin 2) (o : Fin 64) :
    (𝕏[10, t] : Vec Ideal S3x128x256 .f32) (ix3 k (sf s' f) (gso g s o))
      = if s' = s then a7 m c (ix2 (fk (fa f) k) (go g o)) else 0 :=
  (host_at m ρ c main_v96 (by decide) (by decide) (emb_zero win1_10 t (idx1_full 10 (by decide) t) _ _ fun _ => rfl)).trans (KHostB.read_v96 (W0 m ρ c) s' s g k f o)

theorem w11 (k : Fin 3) (s' : Fin 2) (f : Fin 64) (g s : Fin 2) (o : Fin 64) :
    (𝕏[11, t] : Vec Ideal S3x128x256 .f32) (ix3 k (sf s' f) (gso g s o))
      = if s' = s then a7 m c (ix2 (fk (fb f) k) (go g o)) else 0 :=
  (host_at m ρ c main_v124 (by decide) (by decide) (emb_zero win1_11 t (idx1_full 11 (by decide) t) _ _ fun _ => rfl)).trans (KHostB.read_v124 (W0 m ρ c) s' s g k f o)

theorem w12 (g s : Fin 2) (o : Fin 64) :
    (𝕏[12, t] : Vec Ideal S1x256 .f32) (ix2 0 (gso g s o)) = a8 m c (ix1 (go g o)) :=
  (host_at m ρ c main_v183 (by decide) (by decide) (emb_zero win1_12 t (idx1_full 12 (by decide) t) _ _ fun _ => rfl)).trans (KHostB.read_v183 (W0 m ρ c) g s o)

theorem w13 (k : Fin 3) (s' : Fin 2) (f : Fin 64) (s : Fin 2) (o : Fin 64) :
    (𝕏[13, t] : Vec Ideal S3x128x128 .f32) (ix3 k (sf s' f) (sf s o))
      = if s' = s then a9 m c (ix2 (fk (fa f) k) o) else 0 :=
  (host_at m ρ c main_v147 (by decide) (by decide) (emb_zero win1_13 t (idx1_full 13 (by decide) t) _ _ fun _ => rfl)).trans (KHostB.read_v147 (W0 m ρ c) s' s k f o)

theorem w14 (k : Fin 3) (s' : Fin 2) (f : Fin 64) (s : Fin 2) (o : Fin 64) :
    (𝕏[14, t] : Vec Ideal S3x128x128 .f32) (ix3 k (sf s' f) (sf s o))
      = if s' = s then a9 m c (ix2 (fk (fb f) k) o) else 0 :=
  (host_at m ρ c main_v169 (by decide) (by decide) (emb_zero win1_14 t (idx1_full 14 (by decide) t) _ _ fun _ => rfl)).trans (KHostB.read_v169 (W0 m ρ c) s' s k f o)

theorem w15 (s : Fin 2) (o : Fin 64) :
    (𝕏[15, t] : Vec Ideal S1x128 .f32) (ix2 0 (sf s o)) = a10 m c (ix1 o) :=
  (host_at m ρ c main_v185 (by decide) (by decide) (emb_zero win1_15 t (idx1_full 15 (by decide) t) _ _ fun _ => rfl)).trans (KHostB.read_v185 (W0 m ρ c) s o)

theorem w16 (s' : Fin 2) (f : Fin 64) (s : Fin 2) :
    (𝕏[16, t] : Vec Ideal S128x2 .f32) (ix2 (sf s' f) s) = if s' = s then a11 m c (ix2 f 0) else 0 :=
  (host_at m ρ c main_v189 (by decide) (by decide) (emb_zero win1_16 t (idx1_full 16 (by decide) t) _ _ fun _ => rfl)).trans (KHostB.read_v189 (W0 m ρ c) s' s f)

theorem w17 :
    (𝕏[17, t] : Vec Ideal S1x1 .f32) (ix2 0 0) = a12 m c (ix1 0) :=
  (host_at m ρ c main_v190 (by decide) (by decide) (emb_zero win1_17 t (idx1_full 17 (by decide) t) _ _ fun _ => rfl)).trans (KHostB.read_v190 (W0 m ρ c))

theorem eS : (fun i j => (𝕏[0, t] : Vec Ideal S512x512 .f32) (ix2 i j)) = sup (a2 m c) :=
  funext fun i => funext fun j => e0 m ρ c t i j

theorem eK (s : Fin 2) :
    (fun (f : Fin 64) (n' : Fin 512) => (𝕏[3, t] : Vec Ideal S2x512x64 .f32) (ix3 s n' f)) = hst (a1 m c) 1 (ts (pt t) s) :=
  funext fun f => funext fun n' => e3 m ρ c t s n' f

/-- On a point's blocks the cell is layer 0's new state of the slot's batch element: the blocks are the model's diffusion matrix, input columns and state. -/
theorem cell0 (s : Fin 2) (u : Fin 64) (n : Fin 512) :
    cell (fun i j => (𝕏[0, t] : Vec Ideal S512x512 .f32) (ix2 i j)) (fun (_ : Fin 1) k n' => (𝕏[1, t] : Vec Ideal S2x512x3 .f32) (ix3 s n' k)) (fun f n' => (𝕏[2, t] : Vec Ideal S2x512x64 .f32) (ix3 s n' f))
      (fun f k o => a3 m c (ix2 (fk (n := 65) ⟨f.val, by omega⟩ k) o)) (fun f k o => a3 m c (ix2 (fk (f1 f) k) o)) (fun o => a4 m c (ix1 o))
      (fun f k o => a5 m c (ix2 (fk (n := 65) ⟨f.val, by omega⟩ k) o)) (fun f k o => a5 m c (ix2 (fk (f1 f) k) o)) (fun o => a6 m c (ix1 o)) u n
      = h0n (a0 m c) (a1 m c) (a2 m c) (a3 m c) (a4 m c) (a5 m c) (a6 m c) (ts (pt t) s) u n := by
  rw [eS m ρ c t,
    show (fun (_ : Fin 1) (k : Fin 3) (n' : Fin 512) => (𝕏[1, t] : Vec Ideal S2x512x3 .f32) (ix3 s n' k)) = cin0 (a0 m c) (a2 m c) (ts (pt t) s) from
      funext fun _ => funext fun k => funext fun n' => e1 m ρ c t s n' k,
    show (fun (f : Fin 64) (n' : Fin 512) => (𝕏[2, t] : Vec Ideal S2x512x64 .f32) (ix3 s n' f)) = hst (a1 m c) 0 (ts (pt t) s) from
      funext fun f => funext fun n' => e2 m ρ c t s n' f]
  rfl

theorem q69 (s : Fin 2) (n : Fin 512) (u : Fin 64) :
    bV69 (F := Ideal) 𝕏[0, t] 𝕏[1, t] 𝕏[2, t] 𝕏[4, t] 𝕏[5, t] 𝕏[6, t] 𝕏[7, t] 𝕏[8, t] 𝕏[9, t] (ix2 n (sf s u))
      = h0n (a0 m c) (a1 m c) (a2 m c) (a3 m c) (a4 m c) (a5 m c) (a6 m c) (ts (pt t) s) u n :=
  (Cert.KBodyA2.packed_h0 𝕏[0, t] 𝕏[1, t] 𝕏[2, t] 𝕏[4, t] 𝕏[5, t] 𝕏[6, t] 𝕏[7, t] 𝕏[8, t] 𝕏[9, t]
      (fun f k o => a3 m c (ix2 (fk (n := 65) ⟨f.val, by omega⟩ k) o)) (fun f k o => a3 m c (ix2 (fk (f1 f) k) o)) (fun o => a4 m c (ix1 o))
      (fun f k o => a5 m c (ix2 (fk (n := 65) ⟨f.val, by omega⟩ k) o)) (fun f k o => a5 m c (ix2 (fk (f1 f) k) o)) (fun o => a6 m c (ix1 o))
      (w4 m ρ c t) (w5 m ρ c t) (w6 m ρ c t) (w7 m ρ c t) (w8 m ρ c t) (w9 m ρ c t) s n u).trans (cell0 m ρ c t s u n)

theorem q94 (s : Fin 2) (n : Fin 512) (u : Fin 64) :
    bV94 (F := Ideal) 𝕏[0, t] 𝕏[1, t] 𝕏[2, t] 𝕏[4, t] 𝕏[5, t] 𝕏[6, t] 𝕏[7, t] 𝕏[8, t] 𝕏[9, t] (ix2 n (sf s u))
      = d1 (fun i j => (𝕏[0, t] : Vec Ideal S512x512 .f32) (ix2 i j)) (h0n (a0 m c) (a1 m c) (a2 m c) (a3 m c) (a4 m c) (a5 m c) (a6 m c) (ts (pt t) s) u) n :=
  (Cert.KBodyA2.packed_g1 𝕏[0, t] 𝕏[1, t] 𝕏[2, t] 𝕏[4, t] 𝕏[5, t] 𝕏[6, t] 𝕏[7, t] 𝕏[8, t] 𝕏[9, t]
      (fun f k o => a3 m c (ix2 (fk (n := 65) ⟨f.val, by omega⟩ k) o)) (fun f k o => a3 m c (ix2 (fk (f1 f) k) o)) (fun o => a4 m c (ix1 o))
      (fun f k o => a5 m c (ix2 (fk (n := 65) ⟨f.val, by omega⟩ k) o)) (fun f k o => a5 m c (ix2 (fk (f1 f) k) o)) (fun o => a6 m c (ix1 o))
      (w4 m ρ c t) (w5 m ρ c t) (w6 m ρ c t) (w7 m ρ c t) (w8 m ρ c t) (w9 m ρ c t) s n u).trans (congrArg (fun x => d1 _ x n) (funext fun n' => cell0 m ρ c t s u n'))

theorem p19 (s : Fin 2) (n : Fin 512) (u : Fin 64) :
    ((dat1 (V6 (F := Ideal) m ρ) c).after 19 t : Vec Ideal S2x512x64 .f32) (ix3 s n u)
      = h0n (a0 m c) (a1 m c) (a2 m c) (a3 m c) (a4 m c) (a5 m c) (a6 m c) (ts (pt t) s) u n := by
  rw [after1_19]
  exact (Cert.KBodyA2.out_h0 𝕏[0, t] 𝕏[1, t] 𝕏[2, t] 𝕏[4, t] 𝕏[5, t] 𝕏[6, t] 𝕏[7, t] 𝕏[8, t] 𝕏[9, t]
      (fun f k o => a3 m c (ix2 (fk (n := 65) ⟨f.val, by omega⟩ k) o)) (fun f k o => a3 m c (ix2 (fk (f1 f) k) o)) (fun o => a4 m c (ix1 o))
      (fun f k o => a5 m c (ix2 (fk (n := 65) ⟨f.val, by omega⟩ k) o)) (fun f k o => a5 m c (ix2 (fk (f1 f) k) o)) (fun o => a6 m c (ix1 o))
      (w4 m ρ c t) (w5 m ρ c t) (w6 m ρ c t) (w7 m ρ c t) (w8 m ρ c t) (w9 m ρ c t) s n u).trans (cell0 m ρ c t s u n)

theorem p20 (s : Fin 2) (n : Fin 512) (u : Fin 64) :
    ((dat1 (V6 (F := Ideal) m ρ) c).after 20 t : Vec Ideal S2x512x64 .f32) (ix3 s n u)
      = h1n (a0 m c) (a1 m c) (a2 m c) (a3 m c) (a4 m c) (a5 m c) (a6 m c) (a7 m c) (a8 m c) (a9 m c) (a10 m c) (ts (pt t) s) u n := by
  rw [after1_20]
  refine (Cert.KBodyB.out_h1 𝕏[0, t] 𝕏[1, t] 𝕏[2, t] 𝕏[3, t] 𝕏[4, t] 𝕏[5, t] 𝕏[6, t] 𝕏[7, t] 𝕏[8, t] 𝕏[9, t] 𝕏[10, t] 𝕏[11, t] 𝕏[12, t] 𝕏[13, t] 𝕏[14, t] 𝕏[15, t]
      (fun s u n => h0n (a0 m c) (a1 m c) (a2 m c) (a3 m c) (a4 m c) (a5 m c) (a6 m c) (ts (pt t) s) u n)
      (fun f k o => a7 m c (ix2 (fk (fa f) k) o)) (fun f k o => a7 m c (ix2 (fk (fb f) k) o)) (fun o => a8 m c (ix1 o))
      (fun f k o => a9 m c (ix2 (fk (fa f) k) o)) (fun f k o => a9 m c (ix2 (fk (fb f) k) o)) (fun o => a10 m c (ix1 o))
      (Cert.KBodyA2.bS_apply _) (q69 m ρ c t) (q94 m ρ c t) (w10 m ρ c t) (w11 m ρ c t) (w12 m ρ c t) (w13 m ρ c t) (w14 m ρ c t) (w15 m ρ c t) s n u).trans ?_
  rw [eS m ρ c t, eK m ρ c t s]
  rfl

theorem p18 (s : Fin 2) (n : Fin 512) :
    ((dat1 (V6 (F := Ideal) m ρ) c).after 18 t : Vec Ideal S2x512x1 .f32) (ix3 s n (0 : Fin 1))
      = outv (a0 m c) (a1 m c) (a2 m c) (a3 m c) (a4 m c) (a5 m c) (a6 m c) (a7 m c) (a8 m c) (a9 m c) (a10 m c) (a11 m c) (a12 m c) (ts (pt t) s) n := by
  rw [after1_18]
  refine (Cert.KBodyB.out_proj 𝕏[0, t] 𝕏[1, t] 𝕏[2, t] 𝕏[3, t] 𝕏[4, t] 𝕏[5, t] 𝕏[6, t] 𝕏[7, t] 𝕏[8, t] 𝕏[9, t] 𝕏[10, t] 𝕏[11, t] 𝕏[12, t] 𝕏[13, t] 𝕏[14, t] 𝕏[15, t] 𝕏[16, t] 𝕏[17, t]
      (fun s u n => h0n (a0 m c) (a1 m c) (a2 m c) (a3 m c) (a4 m c) (a5 m c) (a6 m c) (ts (pt t) s) u n)
      (fun f k o => a7 m c (ix2 (fk (fa f) k) o)) (fun f k o => a7 m c (ix2 (fk (fb f) k) o)) (fun o => a8 m c (ix1 o))
      (fun f k o => a9 m c (ix2 (fk (fa f) k) o)) (fun f k o => a9 m c (ix2 (fk (fb f) k) o)) (fun o => a10 m c (ix1 o))
      (fun u => a11 m c (ix2 u 0)) (a12 m c (ix1 0))
      (Cert.KBodyA2.bS_apply _) (q69 m ρ c t) (q94 m ρ c t) (w10 m ρ c t) (w11 m ρ c t) (w12 m ρ c t) (w13 m ρ c t) (w14 m ρ c t) (w15 m ρ c t) (w16 m ρ c t) (w17 m ρ c t) s n).trans ?_
  rw [eS m ρ c t, eK m ρ c t s]
  rfl

theorem g18 (b : Fin 64) (n : Fin 512) :
    (W7 (F := Ideal) m ρ c (Proc.devRef .tc main_v202_0) : S64x512x1.Idx → EReal) (ix3 b n 0)
      = outv (a0 m c) (a1 m c) (a2 m c) (a3 m c) (a4 m c) (a5 m c) (a6 m c) (a7 m c) (a8 m c) (a9 m c) (a10 m c) (a11 m c) (a12 m c) b n :=
  congrFun ((W7_arr (F := Ideal) m ρ c 18).trans (arr1_18 (V6 m ρ) c
    (fun i => outv (a0 m c) (a1 m c) (a2 m c) (a3 m c) (a4 m c) (a5 m c) (a6 m c) (a7 m c) (a8 m c) (a9 m c) (a10 m c) (a11 m c) (a12 m c) (i 0) (i 1))
    (p18 m ρ c))) (ix3 b n 0)

theorem g19 (b : Fin 64) (n : Fin 512) (u : Fin 64) :
    (W7 (F := Ideal) m ρ c (Proc.devRef .tc main_v202_1) : S64x512x64.Idx → EReal) (ix3 b n u)
      = h0n (a0 m c) (a1 m c) (a2 m c) (a3 m c) (a4 m c) (a5 m c) (a6 m c) b u n :=
  congrFun ((W7_arr (F := Ideal) m ρ c 19).trans (arr1_19 (V6 m ρ) c
    (fun i => h0n (a0 m c) (a1 m c) (a2 m c) (a3 m c) (a4 m c) (a5 m c) (a6 m c) (i 0) (i 2) (i 1))
    (p19 m ρ c))) (ix3 b n u)

theorem g20 (b : Fin 64) (n : Fin 512) (u : Fin 64) :
    (W7 (F := Ideal) m ρ c (Proc.devRef .tc main_v202_2) : S64x512x64.Idx → EReal) (ix3 b n u)
      = h1n (a0 m c) (a1 m c) (a2 m c) (a3 m c) (a4 m c) (a5 m c) (a6 m c) (a7 m c) (a8 m c) (a9 m c) (a10 m c) b u n :=
  congrFun ((W7_arr (F := Ideal) m ρ c 20).trans (arr1_20 (V6 m ρ) c
    (fun i => h1n (a0 m c) (a1 m c) (a2 m c) (a3 m c) (a4 m c) (a5 m c) (a6 m c) (a7 m c) (a8 m c) (a9 m c) (a10 m c) (i 0) (i 2) (i 1))
    (p20 m ρ c))) (ix3 b n u)

end Glue

end Cert.KernelIdeal.Points

end
-- ==== Proof.KI.Results.lean ====
import proofs.«156303_g19069654794669_cont_sun_m_30_8_alg».proof.Proof.KI.Frame
import proofs.«156303_g19069654794669_cont_sun_m_30_8_alg».proof.Proof.KI.Tail
import proofs.«156303_g19069654794669_cont_sun_m_30_8_alg».proof.Proof.KI.Points
import proofs.«156303_g19069654794669_cont_sun_m_30_8_alg».proof.Proof.Spec

set_option maxRecDepth 16384

noncomputable section

namespace Cert.KernelIdeal.Results

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v203) = Cert.Spec.res0
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
      ∧ r.2.mem ((c.tc : Thread nD τ).loc main_v208) = Cert.Spec.res1
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have k : ∀ a : Ref sig .tc, a.idx.val < 13 → ¬ (Proc.devRef .tc a : DevRef τ sig).isScoped →
        r.2.mem ((c.tc : Thread nD τ).loc a) = m ((c.tc : Thread nD τ).loc a) :=
      fun a ha hs => (h c _ (mem_uc a hs)).trans (W8_arg m ρ ha c)
    ⟨
      (h c _ (mem_uc main_v203 (by decide))).trans
        (Cert.KernelIdeal.Tail.kernel_res0 m ρ c (Cert.KernelIdeal.Points.g18 m ρ c)),
      (h c _ (mem_uc main_v208 (by decide))).trans
        (Cert.KernelIdeal.Tail.kernel_res1 m ρ c (Cert.KernelIdeal.Points.g19 m ρ c) (Cert.KernelIdeal.Points.g20 m ρ c)),
      k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide)⟩)
    (run_main m ρ)

end Cert.KernelIdeal.Results

end
-- ==== Proof.RefRun.lean ====
import proofs.«156303_g19069654794669_cont_sun_m_30_8_alg».proof.Proof.Gen.ReferenceIdeal
import proofs.«156303_g19069654794669_cont_sun_m_30_8_alg».proof.Proof.RefStages
import Idealize.ShloMosaic.Lib.StableHlo.Run

set_option maxRecDepth 16384

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) :=
  StableHlo.after_append l₁ l₂ V

section Nary3
variable {Val : EltTy → Type} {x a b y : Ref sig .tc}
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end Nary3

/-- The contents of the thirteen arguments. -/
structure Inputs (F : FTy → Type) where
  x0 : (⟨S64x512, .f32⟩ : BufTy).Contents (Elt F)
  x1 : (⟨S2x64x32768, .f32⟩ : BufTy).Contents (Elt F)
  x2 : (⟨S512x512, .f32⟩ : BufTy).Contents (Elt F)
  x3 : (⟨S195x128, .f32⟩ : BufTy).Contents (Elt F)
  x4 : (⟨S128, .f32⟩ : BufTy).Contents (Elt F)
  x5 : (⟨S195x64, .f32⟩ : BufTy).Contents (Elt F)
  x6 : (⟨S64, .f32⟩ : BufTy).Contents (Elt F)
  x7 : (⟨S384x128, .f32⟩ : BufTy).Contents (Elt F)
  x8 : (⟨S128, .f32⟩ : BufTy).Contents (Elt F)
  x9 : (⟨S384x64, .f32⟩ : BufTy).Contents (Elt F)
  x10 : (⟨S64, .f32⟩ : BufTy).Contents (Elt F)
  x11 : (⟨S64x1, .f32⟩ : BufTy).Contents (Elt F)
  x12 : (⟨S1, .f32⟩ : BufTy).Contents (Elt F)

abbrev Args (V : Valuation τ sig (Elt F)) (X : Inputs F) : Prop :=
  V (Proc.devRef .tc main_arg0) = X.x0
    ∧ V (Proc.devRef .tc main_arg1) = X.x1
    ∧ V (Proc.devRef .tc main_arg2) = X.x2
    ∧ V (Proc.devRef .tc main_arg3) = X.x3
    ∧ V (Proc.devRef .tc main_arg4) = X.x4
    ∧ V (Proc.devRef .tc main_arg5) = X.x5
    ∧ V (Proc.devRef .tc main_arg6) = X.x6
    ∧ V (Proc.devRef .tc main_arg7) = X.x7
    ∧ V (Proc.devRef .tc main_arg8) = X.x8
    ∧ V (Proc.devRef .tc main_arg9) = X.x9
    ∧ V (Proc.devRef .tc main_arg10) = X.x10
    ∧ V (Proc.devRef .tc main_arg11) = X.x11
    ∧ V (Proc.devRef .tc main_arg12) = X.x12

macro "after_simp" : tactic =>
  `(tactic| (simp (disch := decide) only [Args, after_cons, after_nil,
      nullary_result', unary_result', binary_result', ternary_result', reshape_result', nary3_result',
      nullary_result_ne', unary_result_ne', binary_result_ne', ternary_result_ne', reshape_result_ne', nary_result_ne']))

abbrev ch0 : List (HloOp τ sig (Elt F)) :=
  [ unary main_arg2 main_v0 (transpose S512x512 [1, 0] · transposes_S512x512_S512x512_1_0),
    binary main_arg2 main_v0 main_v1 maximumf,
    nullary main_cst (constant S_ .f32 0x00000000#32),
    binary main_v1 main_cst main_v2 (fun x v => Host.reduceAdd x v reducesTo_S512x512_S512_d1 h_S_),
    nullary main_cst_0 (constant S_ .f32 0x00000000#32),
    unary main_cst_0 main_v3 (broadcastInDim S512 ![] bcast_S_S512),
    binary main_v2 main_v3 main_v4 (cmpf .ogt),
    unary main_v2 main_v5 Host.sqrt,
    nullary main_cst_1 (constant S_ .f32 0x3F800000#32),
    unary main_cst_1 main_v6 (broadcastInDim S512 ![] bcast_S_S512),
    binary main_v6 main_v5 main_v7 Host.divf,
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S512, .f32⟩) main_call0_v1) (broadcastInDim S512 ![] bcast_S_S512),
    TRef.ternary (TRef.of (T := ⟨S512, .i1⟩) main_v4) (TRef.of (T := ⟨S512, .f32⟩) main_v7) (TRef.of (T := ⟨S512, .f32⟩) main_call0_v1) (TRef.of (T := ⟨S512, .f32⟩) main_v8) select,
    nullary main_v9 (iotaInDim S512x512 32 0),
    nullary main_v10 (iotaInDim S512x512 32 1),
    nullary main_c (constantI S_ 32 0#32),
    unary main_c main_v11 (broadcastInDim S512x512 ![] bcast_S_S512x512),
    binary main_v9 main_v11 main_v12 addi,
    binary main_v12 main_v10 main_v13 (cmpi .eq),
    unary main_v13 main_v14 (uitofp .f32),
    unary main_v8 main_v15 (broadcastInDim S512x1 ![0] bcast_S512_S512x1_0),
    unary main_v15 main_v16 (broadcastInDim S512x512 ![0, 1] bcast_S512x1_S512x512_0_1),
    binary main_v16 main_v1 main_v17 mulf,
    unary main_v8 main_v18 (broadcastInDim S1x512 ![1] bcast_S512_S1x512_1),
    unary main_v18 main_v19 (broadcastInDim S512x512 ![0, 1] bcast_S1x512_S512x512_0_1),
    binary main_v17 main_v19 main_v20 mulf,
    binary main_v14 main_v20 main_v21 subf,
    nullary main_cst_3 (constant S_ .f32 0x3F800000#32),
    unary main_cst_3 main_v22 (broadcastInDim S512x512 ![] bcast_S_S512x512),
    binary main_v22 main_v21 main_v23 mulf,
    nullary main_v24 (iotaInDim S512x512 32 0),
    nullary main_v25 (iotaInDim S512x512 32 1),
    nullary main_c_4 (constantI S_ 32 0#32),
    unary main_c_4 main_v26 (broadcastInDim S512x512 ![] bcast_S_S512x512),
    binary main_v24 main_v26 main_v27 addi,
    binary main_v27 main_v25 main_v28 (cmpi .eq),
    unary main_v28 main_v29 (uitofp .f32),
    binary main_v23 main_v29 main_v30 subf,
    unary main_arg1 main_v31 (extractStridedSlice S1x64x32768 ![0, 0, 0] · slices_S2x64x32768_S1x64x32768_0_0_0),
    reshape main_v31 main_v32 rfl shapeCasts_S1x64x32768_S64x32768,
    reshape main_arg0 main_v33 rfl shapeCasts_S64x512_S64x512x1,
    reshape main_v32 main_v34 rfl shapeCasts_S64x32768_S64x512x64 ]

abbrev ch1 : List (HloOp τ sig (Elt F)) :=
  [ binary main_v33 main_v34 main_v35 (fun a b => concatenate S64x512x65 2 [⟨S64x512x1, a⟩, ⟨S64x512x64, b⟩] concatenates_S64x512x1_S64x512x64_S64x512x65_d2),
    unary main_v35 main_v36 (transpose S512x65x64 [1, 2, 0] · transposes_S64x512x65_S512x65x64_1_2_0),
    reshape main_v36 main_v37 rfl shapeCasts_S512x65x64_S512x4160,
    binary main_v30 main_v37 main_v38 (fun l r => Host.dotGeneral dot_S512x512_S512x4160_S512x4160_1_0_0_1_n_n none l r),
    binary main_v30 main_v38 main_v39 (fun l r => Host.dotGeneral dot_S512x512_S512x4160_S512x4160_1_0_0_1_n_n none l r),
    nullary main_cst_5 (constant S_ .f32 0x40000000#32),
    unary main_cst_5 main_v40 (broadcastInDim S512x4160 ![] bcast_S_S512x4160),
    binary main_v40 main_v39 main_v41 mulf,
    binary main_v41 main_v37 main_v42 subf,
    unary main_v37 main_v43 (broadcastInDim S1x512x4160 ![1, 2] bcast_S512x4160_S1x512x4160_1_2),
    unary main_v38 main_v44 (broadcastInDim S1x512x4160 ![1, 2] bcast_S512x4160_S1x512x4160_1_2),
    unary main_v42 main_v45 (broadcastInDim S1x512x4160 ![1, 2] bcast_S512x4160_S1x512x4160_1_2) ]

abbrev ch2 : List (HloOp τ sig (Elt F)) :=
  [ nary ![main_v43, main_v44, main_v45] main_v46 (fun u => concatenate S3x512x4160 0 [⟨S1x512x4160, u 0⟩, ⟨S1x512x4160, u 1⟩, ⟨S1x512x4160, u 2⟩] concatenates_S1x512x4160_S1x512x4160_S1x512x4160_S3x512x4160_d0),
    reshape main_v46 main_v47 rfl shapeCasts_S3x512x4160_S3x512x65x64,
    unary main_v47 main_v48 (transpose S64x512x65x3 [3, 1, 2, 0] · transposes_S3x512x65x64_S64x512x65x3_3_1_2_0),
    reshape main_v48 main_v49 rfl shapeCasts_S64x512x65x3_S32768x195,
    binary main_v49 main_arg3 main_v50 (fun l r => Host.dotGeneral dot_S32768x195_S195x128_S32768x128_1_0_0_1_n_n none l r),
    unary main_arg4 main_v51 (broadcastInDim S1x128 ![1] bcast_S128_S1x128_1) ]

abbrev ch3 : List (HloOp τ sig (Elt F)) :=
  [ unary main_v51 main_v52 (broadcastInDim S32768x128 ![0, 1] bcast_S1x128_S32768x128_0_1),
    binary main_v50 main_v52 main_v53 addf,
    reshape main_v53 main_v54 rfl shapeCasts_S32768x128_S64x65536,
    unary main_v54 main_v55 Host.negf,
    unary main_v55 main_v56 Host.exp,
    nullary main_cst_6 (constant S_ .f32 0x3F800000#32),
    unary main_cst_6 main_v57 (broadcastInDim S64x65536 ![] bcast_S_S64x65536),
    binary main_v57 main_v56 main_v58 addf,
    nullary main_cst_7 (constant S_ .f32 0x3F800000#32),
    unary main_cst_7 main_v59 (broadcastInDim S64x65536 ![] bcast_S_S64x65536),
    binary main_v59 main_v58 main_v60 Host.divf,
    reshape main_v60 main_v61 rfl shapeCasts_S64x65536_S64x512x128,
    unary main_v61 main_v62 (extractStridedSlice S64x512x64 ![0, 0, 0] · slices_S64x512x128_S64x512x64_0_0_0),
    reshape main_v62 main_v63 rfl shapeCasts_S64x512x64_S64x32768,
    unary main_v61 main_v64 (extractStridedSlice S64x512x64 ![0, 0, 64] · slices_S64x512x128_S64x512x64_0_0_64),
    reshape main_v64 main_v65 rfl shapeCasts_S64x512x64_S64x32768,
    binary main_v63 main_v32 main_v66 mulf,
    reshape main_arg0 main_v67 rfl shapeCasts_S64x512_S64x512x1,
    reshape main_v66 main_v68 rfl shapeCasts_S64x32768_S64x512x64 ]

abbrev ch4 : List (HloOp τ sig (Elt F)) :=
  [ binary main_v67 main_v68 main_v69 (fun a b => concatenate S64x512x65 2 [⟨S64x512x1, a⟩, ⟨S64x512x64, b⟩] concatenates_S64x512x1_S64x512x64_S64x512x65_d2),
    unary main_v69 main_v70 (transpose S512x65x64 [1, 2, 0] · transposes_S64x512x65_S512x65x64_1_2_0),
    reshape main_v70 main_v71 rfl shapeCasts_S512x65x64_S512x4160,
    binary main_v30 main_v71 main_v72 (fun l r => Host.dotGeneral dot_S512x512_S512x4160_S512x4160_1_0_0_1_n_n none l r),
    binary main_v30 main_v72 main_v73 (fun l r => Host.dotGeneral dot_S512x512_S512x4160_S512x4160_1_0_0_1_n_n none l r),
    nullary main_cst_8 (constant S_ .f32 0x40000000#32),
    unary main_cst_8 main_v74 (broadcastInDim S512x4160 ![] bcast_S_S512x4160),
    binary main_v74 main_v73 main_v75 mulf,
    binary main_v75 main_v71 main_v76 subf,
    unary main_v71 main_v77 (broadcastInDim S1x512x4160 ![1, 2] bcast_S512x4160_S1x512x4160_1_2),
    unary main_v72 main_v78 (broadcastInDim S1x512x4160 ![1, 2] bcast_S512x4160_S1x512x4160_1_2),
    unary main_v76 main_v79 (broadcastInDim S1x512x4160 ![1, 2] bcast_S512x4160_S1x512x4160_1_2) ]

abbrev ch5 : List (HloOp τ sig (Elt F)) :=
  [ nary ![main_v77, main_v78, main_v79] main_v80 (fun u => concatenate S3x512x4160 0 [⟨S1x512x4160, u 0⟩, ⟨S1x512x4160, u 1⟩, ⟨S1x512x4160, u 2⟩] concatenates_S1x512x4160_S1x512x4160_S1x512x4160_S3x512x4160_d0),
    reshape main_v80 main_v81 rfl shapeCasts_S3x512x4160_S3x512x65x64,
    unary main_v81 main_v82 (transpose S64x512x65x3 [3, 1, 2, 0] · transposes_S3x512x65x64_S64x512x65x3_3_1_2_0),
    reshape main_v82 main_v83 rfl shapeCasts_S64x512x65x3_S32768x195,
    binary main_v83 main_arg5 main_v84 (fun l r => Host.dotGeneral dot_S32768x195_S195x64_S32768x64_1_0_0_1_n_n none l r),
    unary main_arg6 main_v85 (broadcastInDim S1x64 ![1] bcast_S64_S1x64_1),
    unary main_v85 main_v86 (broadcastInDim S32768x64 ![0, 1] bcast_S1x64_S32768x64_0_1),
    binary main_v84 main_v86 main_v87 addf,
    reshape main_v87 main_v88 rfl shapeCasts_S32768x64_S64x32768,
    unary main_v88 main_v89 Host.tanh,
    binary main_v65 main_v32 main_v90 mulf,
    nullary main_cst_9 (constant S_ .f32 0x3F800000#32),
    unary main_cst_9 main_v91 (broadcastInDim S64x32768 ![] bcast_S_S64x32768),
    binary main_v91 main_v65 main_v92 subf,
    binary main_v92 main_v89 main_v93 mulf,
    binary main_v90 main_v93 main_v94 addf,
    unary main_arg1 main_v95 (extractStridedSlice S1x64x32768 ![1, 0, 0] · slices_S2x64x32768_S1x64x32768_1_0_0),
    reshape main_v95 main_v96 rfl shapeCasts_S1x64x32768_S64x32768,
    reshape main_v94 main_v97 rfl shapeCasts_S64x32768_S64x512x64,
    reshape main_v96 main_v98 rfl shapeCasts_S64x32768_S64x512x64 ]

abbrev ch6 : List (HloOp τ sig (Elt F)) :=
  [ binary main_v97 main_v98 main_v99 (fun a b => concatenate S64x512x128 2 [⟨S64x512x64, a⟩, ⟨S64x512x64, b⟩] concatenates_S64x512x64_S64x512x64_S64x512x128_d2),
    unary main_v99 main_v100 (transpose S512x128x64 [1, 2, 0] · transposes_S64x512x128_S512x128x64_1_2_0),
    reshape main_v100 main_v101 rfl shapeCasts_S512x128x64_S512x8192,
    binary main_v30 main_v101 main_v102 (fun l r => Host.dotGeneral dot_S512x512_S512x8192_S512x8192_1_0_0_1_n_n none l r),
    binary main_v30 main_v102 main_v103 (fun l r => Host.dotGeneral dot_S512x512_S512x8192_S512x8192_1_0_0_1_n_n none l r),
    nullary main_cst_10 (constant S_ .f32 0x40000000#32),
    unary main_cst_10 main_v104 (broadcastInDim S512x8192 ![] bcast_S_S512x8192),
    binary main_v104 main_v103 main_v105 mulf,
    binary main_v105 main_v101 main_v106 subf ]

abbrev ch7 : List (HloOp τ sig (Elt F)) :=
  [ unary main_v101 main_v107 (broadcastInDim S1x512x8192 ![1, 2] bcast_S512x8192_S1x512x8192_1_2),
    unary main_v102 main_v108 (broadcastInDim S1x512x8192 ![1, 2] bcast_S512x8192_S1x512x8192_1_2),
    unary main_v106 main_v109 (broadcastInDim S1x512x8192 ![1, 2] bcast_S512x8192_S1x512x8192_1_2) ]

abbrev ch8 : List (HloOp τ sig (Elt F)) :=
  [ nary ![main_v107, main_v108, main_v109] main_v110 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v110 main_v111 rfl shapeCasts_S3x512x8192_S3x512x128x64,
    unary main_v111 main_v112 (transpose S64x512x128x3 [3, 1, 2, 0] · transposes_S3x512x128x64_S64x512x128x3_3_1_2_0),
    reshape main_v112 main_v113 rfl shapeCasts_S64x512x128x3_S32768x384,
    binary main_v113 main_arg7 main_v114 (fun l r => Host.dotGeneral dot_S32768x384_S384x128_S32768x128_1_0_0_1_n_n none l r),
    unary main_arg8 main_v115 (broadcastInDim S1x128 ![1] bcast_S128_S1x128_1),
    unary main_v115 main_v116 (broadcastInDim S32768x128 ![0, 1] bcast_S1x128_S32768x128_0_1),
    binary main_v114 main_v116 main_v117 addf,
    reshape main_v117 main_v118 rfl shapeCasts_S32768x128_S64x65536,
    unary main_v118 main_v119 Host.negf,
    unary main_v119 main_v120 Host.exp,
    nullary main_cst_11 (constant S_ .f32 0x3F800000#32),
    unary main_cst_11 main_v121 (broadcastInDim S64x65536 ![] bcast_S_S64x65536),
    binary main_v121 main_v120 main_v122 addf,
    nullary main_cst_12 (constant S_ .f32 0x3F800000#32),
    unary main_cst_12 main_v123 (broadcastInDim S64x65536 ![] bcast_S_S64x65536),
    binary main_v123 main_v122 main_v124 Host.divf,
    reshape main_v124 main_v125 rfl shapeCasts_S64x65536_S64x512x128,
    unary main_v125 main_v126 (extractStridedSlice S64x512x64 ![0, 0, 0] · slices_S64x512x128_S64x512x64_0_0_0),
    reshape main_v126 main_v127 rfl shapeCasts_S64x512x64_S64x32768,
    unary main_v125 main_v128 (extractStridedSlice S64x512x64 ![0, 0, 64] · slices_S64x512x128_S64x512x64_0_0_64),
    reshape main_v128 main_v129 rfl shapeCasts_S64x512x64_S64x32768,
    binary main_v127 main_v96 main_v130 mulf,
    reshape main_v94 main_v131 rfl shapeCasts_S64x32768_S64x512x64,
    reshape main_v130 main_v132 rfl shapeCasts_S64x32768_S64x512x64 ]

abbrev ch9 : List (HloOp τ sig (Elt F)) :=
  [ binary main_v131 main_v132 main_v133 (fun a b => concatenate S64x512x128 2 [⟨S64x512x64, a⟩, ⟨S64x512x64, b⟩] concatenates_S64x512x64_S64x512x64_S64x512x128_d2),
    unary main_v133 main_v134 (transpose S512x128x64 [1, 2, 0] · transposes_S64x512x128_S512x128x64_1_2_0),
    reshape main_v134 main_v135 rfl shapeCasts_S512x128x64_S512x8192,
    binary main_v30 main_v135 main_v136 (fun l r => Host.dotGeneral dot_S512x512_S512x8192_S512x8192_1_0_0_1_n_n none l r),
    binary main_v30 main_v136 main_v137 (fun l r => Host.dotGeneral dot_S512x512_S512x8192_S512x8192_1_0_0_1_n_n none l r),
    nullary main_cst_13 (constant S_ .f32 0x40000000#32),
    unary main_cst_13 main_v138 (broadcastInDim S512x8192 ![] bcast_S_S512x8192),
    binary main_v138 main_v137 main_v139 mulf,
    binary main_v139 main_v135 main_v140 subf,
    unary main_v135 main_v141 (broadcastInDim S1x512x8192 ![1, 2] bcast_S512x8192_S1x512x8192_1_2),
    unary main_v136 main_v142 (broadcastInDim S1x512x8192 ![1, 2] bcast_S512x8192_S1x512x8192_1_2),
    unary main_v140 main_v143 (broadcastInDim S1x512x8192 ![1, 2] bcast_S512x8192_S1x512x8192_1_2) ]

abbrev ch10 : List (HloOp τ sig (Elt F)) :=
  [ nary ![main_v141, main_v142, main_v143] main_v144 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v144 main_v145 rfl shapeCasts_S3x512x8192_S3x512x128x64,
    unary main_v145 main_v146 (transpose S64x512x128x3 [3, 1, 2, 0] · transposes_S3x512x128x64_S64x512x128x3_3_1_2_0),
    reshape main_v146 main_v147 rfl shapeCasts_S64x512x128x3_S32768x384,
    binary main_v147 main_arg9 main_v148 (fun l r => Host.dotGeneral dot_S32768x384_S384x64_S32768x64_1_0_0_1_n_n none l r),
    unary main_arg10 main_v149 (broadcastInDim S1x64 ![1] bcast_S64_S1x64_1),
    unary main_v149 main_v150 (broadcastInDim S32768x64 ![0, 1] bcast_S1x64_S32768x64_0_1),
    binary main_v148 main_v150 main_v151 addf,
    reshape main_v151 main_v152 rfl shapeCasts_S32768x64_S64x32768,
    unary main_v152 main_v153 Host.tanh,
    binary main_v129 main_v96 main_v154 mulf,
    nullary main_cst_14 (constant S_ .f32 0x3F800000#32),
    unary main_cst_14 main_v155 (broadcastInDim S64x32768 ![] bcast_S_S64x32768),
    binary main_v155 main_v129 main_v156 subf,
    binary main_v156 main_v153 main_v157 mulf,
    binary main_v154 main_v157 main_v158 addf,
    reshape main_v158 main_v159 rfl shapeCasts_S64x32768_S32768x64,
    binary main_v159 main_arg11 main_v160 (fun l r => Host.dotGeneral dot_S32768x64_S64x1_S32768x1_1_0_0_1_n_n none l r),
    unary main_arg12 main_v161 (broadcastInDim S1x1 ![1] bcast_S1_S1x1_1),
    unary main_v161 main_v162 (broadcastInDim S32768x1 ![0, 1] bcast_S1x1_S32768x1_0_1) ]

abbrev ch11 : List (HloOp τ sig (Elt F)) :=
  [ binary main_v160 main_v162 main_v163 addf,
    reshape main_v163 main_v164 rfl shapeCasts_S32768x1_S64x512,
    unary main_v94 main_v165 (broadcastInDim S1x64x32768 ![1, 2] bcast_S64x32768_S1x64x32768_1_2),
    unary main_v158 main_v166 (broadcastInDim S1x64x32768 ![1, 2] bcast_S64x32768_S1x64x32768_1_2) ]

abbrev ch12 : List (HloOp τ sig (Elt F)) :=
  [ binary main_v165 main_v166 main_v167 (fun a b => concatenate S2x64x32768 0 [⟨S1x64x32768, a⟩, ⟨S1x64x32768, b⟩] concatenates_S1x64x32768_S1x64x32768_S2x64x32768_d0) ]

abbrev opsAll : List (HloOp τ sig (Elt F)) := [ch0, ch1, ch2, ch3, ch4, ch5, ch6, ch7, ch8, ch9, ch10, ch11, ch12].flatten

theorem ok : ∀ op ∈ (opsAll : List (HloOp τ sig (Elt F))), op.bufs ⊆ tcRefs τ sig ∧ op.fresh = ∅ := fun op h => by
  obtain ⟨l, hl, ho⟩ := List.mem_flatten.1 h
  repeat (cases hl with
    | head => (repeat (cases ho with
      | head => exact ⟨by simp only [nullary_bufs_sub, unary_bufs_sub, binary_bufs_sub, ternary_bufs_sub, reshape_bufs_sub, nary_bufs_sub], rfl⟩
      | tail _ ho => ?_)); exact nomatch ho
    | tail _ hl => ?_)
  exact nomatch hl

abbrev Stage1 (V : Valuation τ sig (Elt F)) (X : Inputs F) : Prop :=
  V (Proc.devRef .tc main_v30) = val_main_v30 X.x2
    ∧ V (Proc.devRef .tc main_v32) = val_main_v32 X.x1
    ∧ V (Proc.devRef .tc main_v33) = val_main_v33 X.x0
    ∧ V (Proc.devRef .tc main_v34) = val_main_v34 X.x1
    ∧ Args V X

abbrev Stage2 (V : Valuation τ sig (Elt F)) (X : Inputs F) : Prop :=
  V (Proc.devRef .tc main_v30) = val_main_v30 X.x2
    ∧ V (Proc.devRef .tc main_v32) = val_main_v32 X.x1
    ∧ V (Proc.devRef .tc main_v43) = val_main_v43 X.x0 X.x1
    ∧ V (Proc.devRef .tc main_v44) = val_main_v44 X.x0 X.x1 X.x2
    ∧ V (Proc.devRef .tc main_v45) = val_main_v45 X.x0 X.x1 X.x2
    ∧ Args V X

abbrev Stage3 (V : Valuation τ sig (Elt F)) (X : Inputs F) : Prop :=
  V (Proc.devRef .tc main_v30) = val_main_v30 X.x2
    ∧ V (Proc.devRef .tc main_v32) = val_main_v32 X.x1
    ∧ V (Proc.devRef .tc main_v50) = val_main_v50 X.x0 X.x1 X.x2 X.x3
    ∧ V (Proc.devRef .tc main_v51) = val_main_v51 X.x4
    ∧ Args V X

abbrev Stage4 (V : Valuation τ sig (Elt F)) (X : Inputs F) : Prop :=
  V (Proc.devRef .tc main_v30) = val_main_v30 X.x2
    ∧ V (Proc.devRef .tc main_v32) = val_main_v32 X.x1
    ∧ V (Proc.devRef .tc main_v65) = val_main_v65 X.x0 X.x1 X.x2 X.x3 X.x4
    ∧ V (Proc.devRef .tc main_v67) = val_main_v67 X.x0
    ∧ V (Proc.devRef .tc main_v68) = val_main_v68 X.x0 X.x1 X.x2 X.x3 X.x4
    ∧ Args V X

abbrev Stage5 (V : Valuation τ sig (Elt F)) (X : Inputs F) : Prop :=
  V (Proc.devRef .tc main_v30) = val_main_v30 X.x2
    ∧ V (Proc.devRef .tc main_v32) = val_main_v32 X.x1
    ∧ V (Proc.devRef .tc main_v65) = val_main_v65 X.x0 X.x1 X.x2 X.x3 X.x4
    ∧ V (Proc.devRef .tc main_v77) = val_main_v77 X.x0 X.x1 X.x2 X.x3 X.x4
    ∧ V (Proc.devRef .tc main_v78) = val_main_v78 X.x0 X.x1 X.x2 X.x3 X.x4
    ∧ V (Proc.devRef .tc main_v79) = val_main_v79 X.x0 X.x1 X.x2 X.x3 X.x4
    ∧ Args V X

abbrev Stage6 (V : Valuation τ sig (Elt F)) (X : Inputs F) : Prop :=
  V (Proc.devRef .tc main_v30) = val_main_v30 X.x2
    ∧ V (Proc.devRef .tc main_v94) = val_main_v94 X.x0 X.x1 X.x2 X.x3 X.x4 X.x5 X.x6
    ∧ V (Proc.devRef .tc main_v96) = val_main_v96 X.x1
    ∧ V (Proc.devRef .tc main_v97) = val_main_v97 X.x0 X.x1 X.x2 X.x3 X.x4 X.x5 X.x6
    ∧ V (Proc.devRef .tc main_v98) = val_main_v98 X.x1
    ∧ Args V X

abbrev Stage7 (V : Valuation τ sig (Elt F)) (X : Inputs F) : Prop :=
  V (Proc.devRef .tc main_v30) = val_main_v30 X.x2
    ∧ V (Proc.devRef .tc main_v94) = val_main_v94 X.x0 X.x1 X.x2 X.x3 X.x4 X.x5 X.x6
    ∧ V (Proc.devRef .tc main_v96) = val_main_v96 X.x1
    ∧ V (Proc.devRef .tc main_v101) = val_main_v101 X.x0 X.x1 X.x2 X.x3 X.x4 X.x5 X.x6
    ∧ V (Proc.devRef .tc main_v102) = val_main_v102 X.x0 X.x1 X.x2 X.x3 X.x4 X.x5 X.x6
    ∧ V (Proc.devRef .tc main_v106) = val_main_v106 X.x0 X.x1 X.x2 X.x3 X.x4 X.x5 X.x6
    ∧ Args V X

abbrev Stage8 (V : Valuation τ sig (Elt F)) (X : Inputs F) : Prop :=
  V (Proc.devRef .tc main_v30) = val_main_v30 X.x2
    ∧ V (Proc.devRef .tc main_v94) = val_main_v94 X.x0 X.x1 X.x2 X.x3 X.x4 X.x5 X.x6
    ∧ V (Proc.devRef .tc main_v96) = val_main_v96 X.x1
    ∧ V (Proc.devRef .tc main_v107) = val_main_v107 X.x0 X.x1 X.x2 X.x3 X.x4 X.x5 X.x6
    ∧ V (Proc.devRef .tc main_v108) = val_main_v108 X.x0 X.x1 X.x2 X.x3 X.x4 X.x5 X.x6
    ∧ V (Proc.devRef .tc main_v109) = val_main_v109 X.x0 X.x1 X.x2 X.x3 X.x4 X.x5 X.x6
    ∧ Args V X

abbrev Stage9 (V : Valuation τ sig (Elt F)) (X : Inputs F) : Prop :=
  V (Proc.devRef .tc main_v30) = val_main_v30 X.x2
    ∧ V (Proc.devRef .tc main_v94) = val_main_v94 X.x0 X.x1 X.x2 X.x3 X.x4 X.x5 X.x6
    ∧ V (Proc.devRef .tc main_v96) = val_main_v96 X.x1
    ∧ V (Proc.devRef .tc main_v129) = val_main_v129 X.x0 X.x1 X.x2 X.x3 X.x4 X.x5 X.x6 X.x7 X.x8
    ∧ V (Proc.devRef .tc main_v131) = val_main_v131 X.x0 X.x1 X.x2 X.x3 X.x4 X.x5 X.x6
    ∧ V (Proc.devRef .tc main_v132) = val_main_v132 X.x0 X.x1 X.x2 X.x3 X.x4 X.x5 X.x6 X.x7 X.x8
    ∧ Args V X

abbrev Stage10 (V : Valuation τ sig (Elt F)) (X : Inputs F) : Prop :=
  V (Proc.devRef .tc main_v94) = val_main_v94 X.x0 X.x1 X.x2 X.x3 X.x4 X.x5 X.x6
    ∧ V (Proc.devRef .tc main_v96) = val_main_v96 X.x1
    ∧ V (Proc.devRef .tc main_v129) = val_main_v129 X.x0 X.x1 X.x2 X.x3 X.x4 X.x5 X.x6 X.x7 X.x8
    ∧ V (Proc.devRef .tc main_v141) = val_main_v141 X.x0 X.x1 X.x2 X.x3 X.x4 X.x5 X.x6 X.x7 X.x8
    ∧ V (Proc.devRef .tc main_v142) = val_main_v142 X.x0 X.x1 X.x2 X.x3 X.x4 X.x5 X.x6 X.x7 X.x8
    ∧ V (Proc.devRef .tc main_v143) = val_main_v143 X.x0 X.x1 X.x2 X.x3 X.x4 X.x5 X.x6 X.x7 X.x8
    ∧ Args V X

abbrev Stage11 (V : Valuation τ sig (Elt F)) (X : Inputs F) : Prop :=
  V (Proc.devRef .tc main_v94) = val_main_v94 X.x0 X.x1 X.x2 X.x3 X.x4 X.x5 X.x6
    ∧ V (Proc.devRef .tc main_v158) = val_main_v158 X.x0 X.x1 X.x2 X.x3 X.x4 X.x5 X.x6 X.x7 X.x8 X.x9 X.x10
    ∧ V (Proc.devRef .tc main_v160) = val_main_v160 X.x0 X.x1 X.x2 X.x3 X.x4 X.x5 X.x6 X.x7 X.x8 X.x9 X.x10 X.x11
    ∧ V (Proc.devRef .tc main_v162) = val_main_v162 X.x12
    ∧ Args V X

abbrev Stage12 (V : Valuation τ sig (Elt F)) (X : Inputs F) : Prop :=
  V (Proc.devRef .tc main_v164) = val_main_v164 X.x0 X.x1 X.x2 X.x3 X.x4 X.x5 X.x6 X.x7 X.x8 X.x9 X.x10 X.x11 X.x12
    ∧ V (Proc.devRef .tc main_v165) = val_main_v165 X.x0 X.x1 X.x2 X.x3 X.x4 X.x5 X.x6
    ∧ V (Proc.devRef .tc main_v166) = val_main_v166 X.x0 X.x1 X.x2 X.x3 X.x4 X.x5 X.x6 X.x7 X.x8 X.x9 X.x10
    ∧ Args V X

abbrev Stage13 (V : Valuation τ sig (Elt F)) (X : Inputs F) : Prop :=
  V (Proc.devRef .tc main_v164) = val_main_v164 X.x0 X.x1 X.x2 X.x3 X.x4 X.x5 X.x6 X.x7 X.x8 X.x9 X.x10 X.x11 X.x12
    ∧ V (Proc.devRef .tc main_v167) = val_main_v167 X.x0 X.x1 X.x2 X.x3 X.x4 X.x5 X.x6 X.x7 X.x8 X.x9 X.x10
    ∧ Args V X

variable {V : Valuation τ sig (Elt F)} {X : Inputs F}

set_option maxHeartbeats 4000000 in
theorem step0 (hA : Args V X) : Stage1 (after ch0 V) X := by
  have ⟨a0, a1, a2, a3, a4, a5, a6, a7, a8, a9, a10, a11, a12⟩ := hA
  refine ⟨?_, ?_, ?_, ?_, ?_⟩ <;> (unfold ch0; after_simp; try simp only [TRef.ofBuf, TRef.toBuf, cast_eq]) <;> try assumption
  · rw [a2] <;> rfl
  · rw [a1] <;> rfl
  · rw [a0] <;> rfl
  · rw [a1] <;> rfl

theorem step1 (h : Stage1 V X) : Stage2 (after ch1 V) X := by
  obtain ⟨h30, h32, h33, h34, hA⟩ := h
  refine ⟨?_, ?_, ?_, ?_, ?_, ?_⟩ <;> (unfold ch1; after_simp) <;> try assumption
  · rw [h33, h34] <;> rfl
  · rw [h30, h33, h34] <;> rfl
  · rw [h30, h33, h34] <;> rfl

theorem step2 (h : Stage2 V X) : Stage3 (after ch2 V) X := by
  obtain ⟨h30, h32, h43, h44, h45, hA⟩ := h
  have ⟨a0, a1, a2, a3, a4, a5, a6, a7, a8, a9, a10, a11, a12⟩ := hA
  refine ⟨?_, ?_, ?_, ?_, ?_⟩ <;> (unfold ch2; after_simp) <;> try assumption
  · rw [h43, h44, h45, a3] <;> rfl
  · rw [a4] <;> rfl

theorem step3 (h : Stage3 V X) : Stage4 (after ch3 V) X := by
  obtain ⟨h30, h32, h50, h51, hA⟩ := h
  have ⟨a0, a1, a2, a3, a4, a5, a6, a7, a8, a9, a10, a11, a12⟩ := hA
  refine ⟨?_, ?_, ?_, ?_, ?_, ?_⟩ <;> (unfold ch3; after_simp) <;> try assumption
  · rw [h50, h51] <;> rfl
  · rw [a0] <;> rfl
  · rw [h50, h51, h32] <;> rfl

theorem step4 (h : Stage4 V X) : Stage5 (after ch4 V) X := by
  obtain ⟨h30, h32, h65, h67, h68, hA⟩ := h
  refine ⟨?_, ?_, ?_, ?_, ?_, ?_, ?_⟩ <;> (unfold ch4; after_simp) <;> try assumption
  · rw [h67, h68] <;> rfl
  · rw [h30, h67, h68] <;> rfl
  · rw [h30, h67, h68] <;> rfl

set_option maxHeartbeats 4000000 in
theorem step5 (h : Stage5 V X) : Stage6 (after ch5 V) X := by
  obtain ⟨h30, h32, h65, h77, h78, h79, hA⟩ := h
  have ⟨a0, a1, a2, a3, a4, a5, a6, a7, a8, a9, a10, a11, a12⟩ := hA
  refine ⟨?_, ?_, ?_, ?_, ?_, ?_⟩ <;> (unfold ch5; after_simp) <;> try assumption
  · rw [h65, h32, h77, h78, h79, a5, a6] <;> rfl
  · rw [a1] <;> rfl
  · rw [h65, h32, h77, h78, h79, a5, a6] <;> rfl
  · rw [a1] <;> rfl

theorem step6 (h : Stage6 V X) : Stage7 (after ch6 V) X := by
  obtain ⟨h30, h94, h96, h97, h98, hA⟩ := h
  refine ⟨?_, ?_, ?_, ?_, ?_, ?_, ?_⟩ <;> (unfold ch6; after_simp) <;> try assumption
  · rw [h97, h98] <;> rfl
  · rw [h30, h97, h98] <;> rfl
  · rw [h30, h97, h98] <;> rfl

theorem step7 (h : Stage7 V X) : Stage8 (after ch7 V) X := by
  obtain ⟨h30, h94, h96, h101, h102, h106, hA⟩ := h
  refine ⟨?_, ?_, ?_, ?_, ?_, ?_, ?_⟩ <;> (unfold ch7; after_simp) <;> try assumption
  · rw [h101] <;> rfl
  · rw [h102] <;> rfl
  · rw [h106] <;> rfl

theorem step8 (h : Stage8 V X) : Stage9 (after ch8 V) X := by
  obtain ⟨h30, h94, h96, h107, h108, h109, hA⟩ := h
  have ⟨a0, a1, a2, a3, a4, a5, a6, a7, a8, a9, a10, a11, a12⟩ := hA
  refine ⟨?_, ?_, ?_, ?_, ?_, ?_, ?_⟩ <;> (unfold ch8; after_simp) <;> try assumption
  · rw [h107, h108, h109, a7, a8] <;> rfl
  · rw [h94] <;> rfl
  · rw [h107, h108, h109, a7, a8, h96] <;> rfl

theorem step9 (h : Stage9 V X) : Stage10 (after ch9 V) X := by
  obtain ⟨h30, h94, h96, h129, h131, h132, hA⟩ := h
  refine ⟨?_, ?_, ?_, ?_, ?_, ?_, ?_⟩ <;> (unfold ch9; after_simp) <;> try assumption
  · rw [h131, h132] <;> rfl
  · rw [h30, h131, h132] <;> rfl
  · rw [h30, h131, h132] <;> rfl

theorem step10 (h : Stage10 V X) : Stage11 (after ch10 V) X := by
  obtain ⟨h94, h96, h129, h141, h142, h143, hA⟩ := h
  have ⟨a0, a1, a2, a3, a4, a5, a6, a7, a8, a9, a10, a11, a12⟩ := hA
  refine ⟨?_, ?_, ?_, ?_, ?_⟩ <;> (unfold ch10; after_simp) <;> try assumption
  · rw [h129, h96, h141, h142, h143, a9, a10] <;> rfl
  · rw [h129, h96, h141, h142, h143, a9, a10, a11] <;> rfl
  · rw [a12] <;> rfl

theorem step11 (h : Stage11 V X) : Stage12 (after ch11 V) X := by
  obtain ⟨h94, h158, h160, h162, hA⟩ := h
  refine ⟨?_, ?_, ?_, ?_⟩ <;> (unfold ch11; after_simp) <;> try assumption
  · rw [h160, h162] <;> rfl
  · rw [h94] <;> rfl
  · rw [h158] <;> rfl

theorem step12 (h : Stage12 V X) : Stage13 (after ch12 V) X := by
  obtain ⟨h164, h165, h166, hA⟩ := h
  refine ⟨?_, ?_, ?_⟩ <;> (unfold ch12; after_simp) <;> try assumption
  · rw [h165, h166] <;> rfl

theorem part0_eq (c : Dev nD) : main_part0 (F := F) c = seq (ch0 ++ (ch1 ++ (ch2))) := rfl
theorem part1_eq (c : Dev nD) : main_part1 (F := F) c = seq (ch3 ++ (ch4 ++ (ch5 ++ (ch6)))) := rfl
theorem part2_eq (c : Dev nD) : main_part2 (F := F) c = seq (ch7 ++ (ch8 ++ (ch9 ++ (ch10)))) := rfl
theorem part3_eq (c : Dev nD) : main_part3 (F := F) c = seq (ch11 ++ (ch12)) := rfl

theorem main_eq (c : Dev nD) : main (F := F) c = seq opsAll := by
  unfold main
  rw [part0_eq, part1_eq, part2_eq, part3_eq]
  simp only [opsAll, List.flatten_cons, List.flatten_nil, List.append_nil, seq_append, bind_assoc]

theorem live_end (m : (ℓ : Loc nD τ sig) → Buf (Elt F) ℓ) (c : Dev nD) :
    Stage13 (after opsAll (launchContents m c)) ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩ := by
  simp only [opsAll, List.flatten_cons, List.flatten_nil, List.append_nil, after_append]
  exact step12 (step11 (step10 (step9 (step8 (step7 (step6 (step5 (step4 (step3 (step2 (step1 (step0 ⟨rfl, rfl, rfl, rfl, rfl, rfl, rfl, rfl, rfl, rfl, rfl, rfl, rfl⟩))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by simp only [h c]; exact live_end m c)
    (run_seq (by decide) (by decide) defs main (fun _ => opsAll) main_eq (fun _ => List.forall_iff_forall_mem.2 fun op h => (ok op h).1) m ρ
      (fun _ op h => (ok op h).2))

end Cert.RefRun

end
-- ==== Proof.RefA.lean ====
import proofs.«156303_g19069654794669_cont_sun_m_30_8_alg».proof.Proof.RefStages
import proofs.«156303_g19069654794669_cont_sun_m_30_8_alg».proof.Proof.Spec
import Idealize.ShloMosaic.Lib.IdealHost
import Mathlib.Algebra.BigOperators.Fin

noncomputable section

namespace Cert.RefA

open Cert.Spec Idealize.ShloMosaic Idealize.ShloMosaic.ValueIdx Cert.ReferenceIdeal Cert.ReferenceIdeal.Gen Cert.ReferenceIdeal.Read

theorem sub_sub_coe (r : ℝ) (x : EReal) : ((r : EReal) - x) - (r : EReal) = -x := by
  induction x using EReal.rec with
  | bot => simp
  | top => simp
  | coe y => norm_cast; ring

theorem sum_fk {F : Nat} (g : Fin (F * 3) → E) : ∑ c, g c = ∑ f : Fin F, ∑ k : Fin 3, g (fk f k) := by
  rw [← Equiv.sum_comp finProdFinEquiv g, Fintype.sum_prod_type]
  refine Finset.sum_congr rfl fun f _ => Finset.sum_congr rfl fun k _ => congrArg g (Fin.ext ?_)
  simp [fk, finProdFinEquiv]; ring

theorem sum_65 (g : Fin 65 → E) : ∑ f, g f = g 0 + ∑ f : Fin 64, g (f1 f) := by
  rw [Fin.sum_univ_succ]
  refine congrArg (g 0 + ·) (Finset.sum_congr rfl fun f _ => congrArg g (Fin.ext ?_))
  simp [f1, Fin.val_succ]; omega

section Support
variable (x2 : (⟨S512x512, .f32⟩ : BufTy).Contents (Elt Ideal))

theorem ref_amax (i j : Fin 512) : val_main_v1 (F := Ideal) x2 (ix2 i j) = amax x2 i j := by
  rw [val_main_v1_apply, val_main_v0_apply, show idx_main_v0 (ix2 i j) = ix2 j i from eq_ix2 _]; rfl

theorem ref_deg (i : Fin 512) : val_main_v2 (F := Ideal) x2 (ix1 i) = deg x2 i := by
  rw [val_main_v2_apply, val_main_cst_apply, Ideal.ofBits_def, Ideal.ofBits_zero_f32, zero_add]
  exact Finset.sum_congr rfl fun k _ => by rw [show idx_main_v2 (ix1 i) k = ix2 i k from eq_ix2 _, ref_amax]

theorem ref_dis (i : Fin 512) : val_main_v8 (F := Ideal) x2 (ix1 i) = dis x2 i := by
  rw [val_main_v8_apply, val_main_v4_apply, val_main_v7_apply, val_main_v5_apply, ref_deg, val_main_v3_apply,
    val_main_cst_0_apply, val_main_v6_apply, val_main_cst_1_apply, val_main_call0_v1_apply, val_main_call0_v0_apply,
    val_main_cst_2_apply]
  simp only [Ideal.ofBits_def, Ideal.ofBits_zero_f32, Ideal.ofBits_one_f32, Ideal.cmpf_def, Ideal.hostDivf_def,
    Ideal.hostUnary_sqrt_def]
  unfold dis
  rw [show Ideal.cmp .ogt (deg x2 i) 0 = BitVec.ofBool (decide (0 < deg x2 i)) from rfl]
  by_cases h : 0 < deg x2 i
  · rw [if_pos h, decide_eq_true h]; exact select_one _ _
  · rw [if_neg h, decide_eq_false h]; exact select_zero _ _

theorem ref_eye (i j : Fin 512) :
    ∃ r : ℝ, val_main_v14 (F := Ideal) (ix2 i j) = (r : EReal) ∧ val_main_v29 (F := Ideal) (ix2 i j) = (r : EReal) := by
  rw [val_main_v14_apply, val_main_v13_apply, val_main_v12_apply, val_main_v11_apply, val_main_v10_apply,
    val_main_v9_apply, val_main_c_apply, val_main_v29_apply, val_main_v28_apply, val_main_v27_apply,
    val_main_v26_apply, val_main_v25_apply, val_main_v24_apply, val_main_c_4_apply]
  exact ⟨_, rfl, rfl⟩

theorem ref_sup (i j : Fin 512) : val_main_v30 (F := Ideal) x2 (ix2 i j) = Cert.Spec.sup x2 i j := by
  rw [val_main_v30_apply, val_main_v23_apply, val_main_v21_apply, val_main_v20_apply, val_main_v17_apply,
    val_main_v22_apply, val_main_cst_3_apply, val_main_v16_apply, val_main_v15_apply, val_main_v19_apply,
    val_main_v18_apply, show idx_main_v15 (idx_main_v16 (ix2 i j)) = ix1 i from eq_ix1 _,
    show idx_main_v18 (idx_main_v19 (ix2 i j)) = ix1 j from eq_ix1 _, ref_dis, ref_dis, ref_amax]
  obtain ⟨r, h14, h29⟩ := ref_eye i j
  rw [h14, h29]
  simp only [Ideal.subf_def, Ideal.mulf_def, Ideal.ofBits_def, Ideal.ofBits_one_f32, one_mul]
  rw [sub_sub_coe]; rfl

end Support

def bc (f : Fin 65) (b : Fin 64) : Fin 4160 := ⟨f.val * 64 + b.val, by omega⟩
def bn (b : Fin 64) (n : Fin 512) : Fin 32768 := ⟨b.val * 512 + n.val, by omega⟩
def no (n : Fin 512) (o : Fin 128) : Fin 65536 := ⟨n.val * 128 + o.val, by omega⟩

/-- A stack of three slabs read at slab k is the k-th slab. -/
theorem cat3 {α : Type} (y0 y1 y2 : S1x512x4160.Idx → α) (k : Fin 3) (n : Fin 512) (c : Fin 4160) :
    concatenate S3x512x4160 0 [⟨S1x512x4160, y0⟩, ⟨S1x512x4160, y1⟩, ⟨S1x512x4160, y2⟩]
      concatenates_S1x512x4160_S1x512x4160_S1x512x4160_S3x512x4160_d0 (ix3 k n c)
      = (match k with | ⟨0, _⟩ => y0 | ⟨1, _⟩ => y1 | ⟨2, _⟩ => y2) (ix3 0 n c) := by
  match k with
  | ⟨0, _⟩ =>
    exact concatenate_apply_piece (t := S3x512x4160) 0 _ _ _ 0 (by show 0 < 3; omega) S1x512x4160 y0 rfl rfl 0 rfl (ix3 0 n c)
      (fun a ha => by
        match a with
        | ⟨0, _⟩ => exact absurd rfl ha
        | ⟨1, _⟩ => rfl
        | ⟨2, _⟩ => rfl) rfl
  | ⟨1, _⟩ =>
    exact concatenate_apply_piece (t := S3x512x4160) 0 _ _ _ 1 (by show 1 < 3; omega) S1x512x4160 y1 rfl rfl 1 rfl (ix3 0 n c)
      (fun a ha => by
        match a with
        | ⟨0, _⟩ => exact absurd rfl ha
        | ⟨1, _⟩ => rfl
        | ⟨2, _⟩ => rfl) rfl
  | ⟨2, _⟩ =>
    exact concatenate_apply_piece (t := S3x512x4160) 0 _ _ _ 2 (by show 2 < 3; omega) S1x512x4160 y2 rfl rfl 2 rfl (ix3 0 n c)
      (fun a ha => by
        match a with
        | ⟨0, _⟩ => exact absurd rfl ha
        | ⟨1, _⟩ => rfl
        | ⟨2, _⟩ => rfl) rfl

section Conv
variable {S : Fin 512 → Fin 512 → E} {s : S512x512.Idx → E} {inp : S64x512.Idx → E} {h : Fin 64 → Fin 64 → Fin 512 → E}
  {y : S64x32768.Idx → E} {v33 : S64x512x1.Idx → E} {v34 : S64x512x64.Idx → E} {v35 : S64x512x65.Idx → E}
  {v36 : S512x65x64.Idx → E} {v37 v38 v39 v42 : S512x4160.Idx → E} {v43 v44 v45 : S1x512x4160.Idx → E}
  {v46 : S3x512x4160.Idx → E} {v47 : S3x512x65x64.Idx → E} {v48 : S64x512x65x3.Idx → E} {v49 : S32768x195.Idx → E}
  (hs : ∀ i j, s (ix2 i j) = S i j) (hy : ∀ b m g, y (ix2 b (nu m g)) = h b g m)
  (h33 : ∀ i, v33 i = inp (idx_main_v33 i)) (h34 : ∀ i, v34 i = y (idx_main_v34 i))
  (h35 : v35 = concatenate S64x512x65 2 [⟨_, v33⟩, ⟨_, v34⟩] concatenates_S64x512x1_S64x512x64_S64x512x65_d2)
  (h36 : ∀ i, v36 i = v35 (idx_main_v36 i)) (h37 : ∀ i, v37 i = v36 (idx_main_v37 i))
  (h38 : ∀ i, v38 i = ∑ k, s (lidx_main_v38 i k) * v37 (ridx_main_v38 i k))
  (h39 : ∀ i, v39 i = ∑ k, s (lidx_main_v38 i k) * v38 (ridx_main_v38 i k))
  (h42 : ∀ i, v42 i = two * v39 i - v37 i)
  (h43 : ∀ i, v43 i = v37 (idx_main_v43 i)) (h44 : ∀ i, v44 i = v38 (idx_main_v43 i))
  (h45 : ∀ i, v45 i = v42 (idx_main_v43 i))
  (h46 : v46 = concatenate S3x512x4160 0 [⟨_, v43⟩, ⟨_, v44⟩, ⟨_, v45⟩]
    concatenates_S1x512x4160_S1x512x4160_S1x512x4160_S3x512x4160_d0)
  (h47 : ∀ i, v47 i = v46 (idx_main_v47 i)) (h48 : ∀ i, v48 i = v47 (idx_main_v48 i))
  (h49 : ∀ i, v49 i = v48 (idx_main_v49 i))

include h33 h35 in
theorem c0 (b : Fin 64) (j : Fin 512) : v35 (ix3 b j 0) = inp (ix2 b j) := by
  have hb := b.isLt; have hj := j.isLt
  rw [h35]
  refine (concatenate_pair_apply_left 2 _ _ concatenates_S64x512x1_S64x512x64_S64x512x65_d2 (ix3 b j (0 : Fin 65)) rfl
    (ix3 b j (0 : Fin 1)) (fun a => ?_)).trans ?_
  · match a with
    | ⟨0, _⟩ => rfl
    | ⟨1, _⟩ => rfl
    | ⟨2, _⟩ => rfl
  · rw [h33]
    refine congrArg inp (funext fun a => Fin.ext ?_)
    match a with
    | ⟨0, _⟩ => show ((b.val * 512 + j.val) * 1 + 0) / 512 = b.val; omega
    | ⟨1, _⟩ => show ((b.val * 512 + j.val) * 1 + 0) % 512 = j.val; omega

include hy h34 h35 in
theorem c1 (b : Fin 64) (g : Fin 64) (j : Fin 512) : v35 (ix3 b j (f1 g)) = h b g j := by
  have hb := b.isLt; have hj := j.isLt; have hg := g.isLt
  rw [h35]
  refine (concatenate_pair_apply_right 2 _ _ concatenates_S64x512x1_S64x512x64_S64x512x65_d2 (ix3 b j (f1 g)) rfl rfl
    (ix3 b j g) (fun a ha => ?_) ?_).trans ?_
  · match a with
    | ⟨0, _⟩ => rfl
    | ⟨1, _⟩ => rfl
    | ⟨2, _⟩ => exact absurd rfl ha
  · show g.val + 1 = 1 + g.val; omega
  · rw [h34, ← hy]
    refine congrArg y (funext fun a => Fin.ext ?_)
    match a with
    | ⟨0, _⟩ => show ((b.val * 512 + j.val) * 64 + g.val) / 32768 = b.val; omega
    | ⟨1, _⟩ => show ((b.val * 512 + j.val) * 64 + g.val) % 32768 = j.val * 64 + g.val; omega

include h36 h37 in
theorem x37 (b : Fin 64) (f : Fin 65) (j : Fin 512) : v37 (ix2 j (bc f b)) = v35 (ix3 b j f) := by
  have hb := b.isLt; have hj := j.isLt; have hf := f.isLt
  rw [h37, h36]
  refine congrArg v35 (funext fun a => Fin.ext ?_)
  match a with
  | ⟨0, _⟩ => show (j.val * 4160 + (f.val * 64 + b.val)) % 64 = b.val; omega
  | ⟨1, _⟩ => show (j.val * 4160 + (f.val * 64 + b.val)) / 4160 = j.val; omega
  | ⟨2, _⟩ => show (j.val * 4160 + (f.val * 64 + b.val)) / 64 % 65 = f.val; omega

include hs in
theorem dot {v w : S512x4160.Idx → E} (hw : ∀ i, w i = ∑ k, s (lidx_main_v38 i k) * v (ridx_main_v38 i k))
    (m : Fin 512) (c : Fin 4160) : w (ix2 m c) = ∑ j, S m j * v (ix2 j c) := by
  rw [hw]
  exact Finset.sum_congr rfl fun j _ => by
    rw [show lidx_main_v38 (ix2 m c) j = ix2 m j from eq_ix2 _,
      show ridx_main_v38 (ix2 m c) j = ix2 j c from eq_ix2 _, hs]

include hs h36 h37 h38 in
theorem x38 (b : Fin 64) (f : Fin 65) (j : Fin 512) : v38 (ix2 j (bc f b)) = d1 S (fun j => v35 (ix3 b j f)) j :=
  (dot hs h38 j _).trans (Finset.sum_congr rfl fun i _ => by
    rw [x37 h36 h37])

include hs h36 h37 h38 h39 h42 h43 h44 h45 h46 in
theorem x46 (b : Fin 64) (n : Fin 512) (f : Fin 65) (k : Fin 3) :
    v46 (ix3 k n (bc f b)) = cheb S (fun j => v35 (ix3 b j f)) k n := by
  have e43 : ∀ m c, idx_main_v43 (ix3 (0 : Fin 1) m c) = ix2 m c := fun _ _ => eq_ix2 _
  have a37 := x37 h36 h37 b f
  have a38 := x38 hs h36 h37 h38 b f
  rw [h46, cat3]
  match k with
  | ⟨0, _⟩ => exact (h43 _).trans ((congrArg v37 (e43 _ _)).trans (a37 n))
  | ⟨1, _⟩ => exact (h44 _).trans ((congrArg v38 (e43 _ _)).trans (a38 n))
  | ⟨2, _⟩ =>
    refine (h45 _).trans ((congrArg v42 (e43 _ _)).trans ?_)
    rw [h42, dot hs h39, a37]
    simp only [a38]
    rfl

include hs h36 h37 h38 h39 h42 h43 h44 h45 h46 h47 h48 h49 in
theorem x49 (b : Fin 64) (n : Fin 512) (f : Fin 65) (k : Fin 3) :
    v49 (ix2 (bn b n) (fk f k)) = cheb S (fun j => v35 (ix3 b j f)) k n := by
  have hb := b.isLt; have hn := n.isLt; have hf := f.isLt; have hk := k.isLt
  have e49 : idx_main_v49 (ix2 (bn b n) (fk f k)) = ix4 b n f k := funext fun a => Fin.ext (by
    match a with
    | ⟨0, _⟩ => show ((b.val * 512 + n.val) * 195 + (f.val * 3 + k.val)) / 99840 = b.val; omega
    | ⟨1, _⟩ => show ((b.val * 512 + n.val) * 195 + (f.val * 3 + k.val)) / 195 % 512 = n.val; omega
    | ⟨2, _⟩ => show ((b.val * 512 + n.val) * 195 + (f.val * 3 + k.val)) / 3 % 65 = f.val; omega
    | ⟨3, _⟩ => show ((b.val * 512 + n.val) * 195 + (f.val * 3 + k.val)) % 3 = k.val; omega)
  have e47 : idx_main_v47 (ix4 k n f b) = ix3 k n (bc f b) := funext fun a => Fin.ext (by
    match a with
    | ⟨0, _⟩ => show (((k.val * 512 + n.val) * 65 + f.val) * 64 + b.val) / 2129920 = k.val; omega
    | ⟨1, _⟩ => show (((k.val * 512 + n.val) * 65 + f.val) * 64 + b.val) / 4160 % 512 = n.val; omega
    | ⟨2, _⟩ => show (((k.val * 512 + n.val) * 65 + f.val) * 64 + b.val) % 4160 = f.val * 64 + b.val; omega)
  rw [h49, e49, h48, show idx_main_v48 (ix4 b n f k) = ix4 k n f b from eq_ix4 _, h47, e47]
  exact x46 hs h36 h37 h38 h39 h42 h43 h44 h45 h46 b n f k

include hs hy h33 h34 h35 h36 h37 h38 h39 h42 h43 h44 h45 h46 h47 h48 h49 in
theorem conv (W : Fin 195 → E) (bias : E) (b : Fin 64) (n : Fin 512) :
    (∑ c, v49 (ix2 (bn b n) c) * W c) + bias
      = gconv S (fun (_ : Fin 1) k m => cheb S (fun j => inp (ix2 b j)) k m) (h b)
          (fun f k => W (fk (n := 65) ⟨f.val, by omega⟩ k)) (fun f k => W (fk (f1 f) k)) bias n := by
  rw [sum_fk (F := 65)]
  simp only [x49 hs h36 h37 h38 h39 h42 h43 h44 h45 h46 h47 h48 h49]
  unfold gconv
  rw [sum_65, Fin.sum_univ_one]
  simp only [c0 h33 h35, c1 hy h34 h35]
  rfl

end Conv

section Layer0
variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal))

theorem ref_v32 (b : Fin 64) (p : Fin 32768) : val_main_v32 (F := Ideal) x1 (ix2 b p) = x1 (ix3 0 b p) := by
  rw [val_main_v32_apply, val_main_v31_apply]
  refine congrArg x1 (funext fun a => Fin.ext ?_)
  have hb := b.isLt; have hp := p.isLt
  match a with
  | ⟨0, _⟩ => rfl
  | ⟨1, _⟩ => show (b.val * 32768 + p.val) / 32768 % 64 = b.val; omega
  | ⟨2, _⟩ => show (b.val * 32768 + p.val) % 32768 = p.val; omega

theorem ref_v53 (b : Fin 64) (n : Fin 512) (o : Fin 128) :
    val_main_v53 (F := Ideal) x0 x1 x2 x3 x4 (ix2 (bn b n) o)
      = gconv (sup x2) (cin0 x0 x2 b) (hst x1 0 b) (fun f k => x3 (ix2 (fk (n := 65) ⟨f.val, by omega⟩ k) o))
          (fun f k => x3 (ix2 (fk (f1 f) k) o)) (x4 (ix1 o)) n := by
  rw [val_main_v53_apply, val_main_v50_apply, val_main_v52_apply, val_main_v51_apply,
    show idx_main_v51 (idx_main_v52 (ix2 (bn b n) o)) = ix1 o from eq_ix1 _]
  simp only [show ∀ c, lidx_main_v50 (ix2 (bn b n) o) c = ix2 (bn b n) c from fun _ => eq_ix2 _,
    show ∀ c, ridx_main_v50 (ix2 (bn b n) o) c = ix2 c o from fun _ => eq_ix2 _]
  exact conv (ref_sup x2) (fun b m g => ref_v32 x1 b (nu m g)) (val_main_v33_apply x0) (val_main_v34_apply x1) rfl
    (val_main_v36_apply x0 x1) (val_main_v37_apply x0 x1) (val_main_v38_apply x0 x1 x2) (val_main_v39_apply x0 x1 x2)
    (fun _ => by rw [val_main_v42_apply, val_main_v41_apply, val_main_v40_apply, val_main_cst_5_apply]; rfl)
    (val_main_v43_apply x0 x1) (val_main_v44_apply x0 x1 x2) (val_main_v45_apply x0 x1 x2) rfl
    (val_main_v47_apply x0 x1 x2) (val_main_v48_apply x0 x1 x2) (val_main_v49_apply x0 x1 x2)
    (fun c => x3 (ix2 c o)) (x4 (ix1 o)) b n

abbrev Wrui : Fin 1 → Fin 3 → Fin 128 → E := fun f k o => x3 (ix2 (fk (n := 65) ⟨f.val, by omega⟩ k) o)
abbrev Wrus : Fin 64 → Fin 3 → Fin 128 → E := fun f k o => x3 (ix2 (fk (f1 f) k) o)
abbrev bru : Fin 128 → E := fun o => x4 (ix1 o)

theorem ref_v60 (b : Fin 64) (n : Fin 512) (o : Fin 128) :
    val_main_v60 (F := Ideal) x0 x1 x2 x3 x4 (ix2 b (no n o))
      = Ideal.logistic (val_main_v53 (F := Ideal) x0 x1 x2 x3 x4 (ix2 (bn b n) o)) := by
  rw [val_main_v60_apply, val_main_v59_apply, val_main_cst_7_apply, val_main_v58_apply, val_main_v57_apply,
    val_main_cst_6_apply, val_main_v56_apply, val_main_v55_apply, val_main_v54_apply]
  have e : idx_main_v54 (ix2 b (no n o)) = ix2 (bn b n) o := funext fun a => Fin.ext (by
    have hb := b.isLt; have hn := n.isLt; have ho := o.isLt
    match a with
    | ⟨0, _⟩ => show (b.val * 65536 + (n.val * 128 + o.val)) / 128 = b.val * 512 + n.val; omega
    | ⟨1, _⟩ => show (b.val * 65536 + (n.val * 128 + o.val)) % 128 = o.val; omega)
  rw [e]
  simp only [Ideal.ofBits_def, Ideal.ofBits_one_f32, Ideal.hostDivf_def, Ideal.addf_def, Ideal.hostUnary_exp_def,
    Ideal.hostNegf_def, Ideal.negf_def]
  rfl

theorem ref_v61 (b : Fin 64) (n : Fin 512) (o : Fin 128) :
    val_main_v61 (F := Ideal) x0 x1 x2 x3 x4 (ix3 b n o) = val_main_v60 (F := Ideal) x0 x1 x2 x3 x4 (ix2 b (no n o)) := by
  rw [val_main_v61_apply]
  refine congrArg _ (funext fun a => Fin.ext ?_)
  have hb := b.isLt; have hn := n.isLt; have ho := o.isLt
  match a with
  | ⟨0, _⟩ => show ((b.val * 512 + n.val) * 128 + o.val) / 65536 = b.val; omega
  | ⟨1, _⟩ => show ((b.val * 512 + n.val) * 128 + o.val) % 65536 = n.val * 128 + o.val; omega

theorem e63 (b : Fin 64) (n : Fin 512) (u : Fin 64) : idx_main_v63 (ix2 b (nu n u)) = ix3 b n u :=
  funext fun a => Fin.ext (by
    have hb := b.isLt; have hn := n.isLt; have hu := u.isLt
    match a with
    | ⟨0, _⟩ => show (b.val * 32768 + (n.val * 64 + u.val)) / 32768 = b.val; omega
    | ⟨1, _⟩ => show (b.val * 32768 + (n.val * 64 + u.val)) / 64 % 512 = n.val; omega
    | ⟨2, _⟩ => show (b.val * 32768 + (n.val * 64 + u.val)) % 64 = u.val; omega)

theorem ref_v63 (b : Fin 64) (n : Fin 512) (u : Fin 64) :
    val_main_v63 (F := Ideal) x0 x1 x2 x3 x4 (ix2 b (nu n u)) = val_main_v61 (F := Ideal) x0 x1 x2 x3 x4 (ix3 b n (go 0 u)) := by
  rw [val_main_v63_apply, e63, val_main_v62_apply]
  exact congrArg _ ((eq_ix3 _).trans (congrArg (ix3 b n) (Fin.ext (by show u.val = 0 * 64 + u.val; omega))))

theorem ref_v65 (b : Fin 64) (n : Fin 512) (u : Fin 64) :
    val_main_v65 (F := Ideal) x0 x1 x2 x3 x4 (ix2 b (nu n u)) = val_main_v61 (F := Ideal) x0 x1 x2 x3 x4 (ix3 b n (go 1 u)) := by
  rw [val_main_v65_apply, show idx_main_v65 (ix2 b (nu n u)) = ix3 b n u from e63 b n u, val_main_v64_apply]
  exact congrArg _ ((eq_ix3 _).trans (congrArg (ix3 b n) (Fin.ext (by show 64 + u.val = 1 * 64 + u.val; omega))))

theorem ref_gate (g : Fin 2) (b : Fin 64) (n : Fin 512) (u : Fin 64) :
    val_main_v61 (F := Ideal) x0 x1 x2 x3 x4 (ix3 b n (go g u))
      = gate (sup x2) (cin0 x0 x2 b) (hst x1 0 b) (Wrui x3) (Wrus x3) (bru x4) g u n := by
  rw [ref_v61, ref_v60, ref_v53]
  rfl

theorem ref_v66 (b : Fin 64) (n : Fin 512) (u : Fin 64) :
    val_main_v66 (F := Ideal) x0 x1 x2 x3 x4 (ix2 b (nu n u))
      = gate (sup x2) (cin0 x0 x2 b) (hst x1 0 b) (Wrui x3) (Wrus x3) (bru x4) 0 u n * hst x1 0 b u n := by
  rw [val_main_v66_apply, ref_v63, ref_gate, ref_v32]
  rfl

theorem ref_v87 (b : Fin 64) (n : Fin 512) (o : Fin 64) :
    val_main_v87 (F := Ideal) x0 x1 x2 x3 x4 x5 x6 (ix2 (bn b n) o)
      = gconv (sup x2) (cin0 x0 x2 b)
          (fun f n' => gate (sup x2) (cin0 x0 x2 b) (hst x1 0 b) (Wrui x3) (Wrus x3) (bru x4) 0 f n' * hst x1 0 b f n')
          (fun f k => x5 (ix2 (fk (n := 65) ⟨f.val, by omega⟩ k) o)) (fun f k => x5 (ix2 (fk (f1 f) k) o)) (x6 (ix1 o)) n := by
  rw [val_main_v87_apply, val_main_v84_apply, val_main_v86_apply, val_main_v85_apply,
    show idx_main_v85 (idx_main_v86 (ix2 (bn b n) o)) = ix1 o from eq_ix1 _]
  simp only [show ∀ c, lidx_main_v84 (ix2 (bn b n) o) c = ix2 (bn b n) c from fun _ => eq_ix2 _,
    show ∀ c, ridx_main_v84 (ix2 (bn b n) o) c = ix2 c o from fun _ => eq_ix2 _]
  exact conv (ref_sup x2) (fun b m g => ref_v66 x0 x1 x2 x3 x4 b m g) (val_main_v67_apply x0)
    (val_main_v68_apply x0 x1 x2 x3 x4) rfl (val_main_v70_apply x0 x1 x2 x3 x4) (val_main_v71_apply x0 x1 x2 x3 x4)
    (val_main_v72_apply x0 x1 x2 x3 x4) (val_main_v73_apply x0 x1 x2 x3 x4)
    (fun _ => by rw [val_main_v76_apply, val_main_v75_apply, val_main_v74_apply, val_main_cst_8_apply]; rfl)
    (val_main_v77_apply x0 x1 x2 x3 x4) (val_main_v78_apply x0 x1 x2 x3 x4) (val_main_v79_apply x0 x1 x2 x3 x4) rfl
    (val_main_v81_apply x0 x1 x2 x3 x4) (val_main_v82_apply x0 x1 x2 x3 x4) (val_main_v83_apply x0 x1 x2 x3 x4)
    (fun c => x5 (ix2 c o)) (x6 (ix1 o)) b n

theorem ref_v88 (b : Fin 64) (n : Fin 512) (u : Fin 64) :
    val_main_v88 (F := Ideal) x0 x1 x2 x3 x4 x5 x6 (ix2 b (nu n u)) = val_main_v87 (F := Ideal) x0 x1 x2 x3 x4 x5 x6 (ix2 (bn b n) u) := by
  rw [val_main_v88_apply]
  refine congrArg _ (funext fun a => Fin.ext ?_)
  have hb := b.isLt; have hn := n.isLt; have hu := u.isLt
  match a with
  | ⟨0, _⟩ => show (b.val * 32768 + (n.val * 64 + u.val)) / 64 = b.val * 512 + n.val; omega
  | ⟨1, _⟩ => show (b.val * 32768 + (n.val * 64 + u.val)) % 64 = u.val; omega

theorem ref_h0 (b : Fin 64) (n : Fin 512) (u : Fin 64) :
    val_main_v94 (F := Ideal) x0 x1 x2 x3 x4 x5 x6 (ix2 b (nu n u)) = Cert.Spec.h0n x0 x1 x2 x3 x4 x5 x6 b u n := by
  rw [val_main_v94_apply, val_main_v90_apply, val_main_v93_apply, val_main_v92_apply, val_main_v91_apply,
    val_main_cst_9_apply, val_main_v89_apply, ref_v65, ref_gate, ref_v32, ref_v88, ref_v87]
  rfl

end Layer0

end Cert.RefA
-- ==== Proof.RefB.lean ====
import proofs.«156303_g19069654794669_cont_sun_m_30_8_alg».proof.Proof.RefStages
import proofs.«156303_g19069654794669_cont_sun_m_30_8_alg».proof.Proof.Spec
import Idealize.ShloMosaic.Lib.IdealHost
import Idealize.ShloMosaic.Lib.Pipeline.Value
import Idealize.ShloMosaic.Lib.ValueIdx
import Idealize.ShloMosaic.PureOps.Ideal.Laws
import Mathlib.Algebra.BigOperators.Fin

noncomputable section

namespace Cert.RefB

open Cert.Spec Idealize.ShloMosaic Idealize.ShloMosaic.ValueIdx Idealize.ShloMosaic.TcCoe Idealize.SL.Sem
  Idealize.ShloMosaic.StableHlo Cert.ReferenceIdeal Cert.ReferenceIdeal.Gen Cert.ReferenceIdeal.Read

theorem sum_fk {n : Nat} (g : Fin (n * 3) → E) :
    ∑ c : Fin (n * 3), g c = ∑ f : Fin n, ∑ k : Fin 3, g (fk f k) := by
  rw [← Fintype.sum_prod_type']
  refine (Fintype.sum_equiv finProdFinEquiv _ _ (fun p => congrArg g (Fin.ext ?_))).symm
  show p.1.val * 3 + p.2.val = p.2.val + 3 * p.1.val
  omega

theorem sum_128 (g : Fin 128 → E) :
    ∑ f : Fin 128, g f = ∑ f : Fin 64, g (fa f) + ∑ f : Fin 64, g (fb f) :=
  Fin.sum_univ_add (a := 64) (b := 64) g

theorem sum_384 (g : Fin 384 → E) :
    ∑ c : Fin 384, g c = (∑ f : Fin 64, ∑ k : Fin 3, g (fk (fa f) k)) + (∑ f : Fin 64, ∑ k : Fin 3, g (fk (fb f) k)) := by
  rw [← sum_128 (fun f => ∑ k : Fin 3, g (fk f k))]
  exact sum_fk (n := 128) g

/-- A stack of three slabs read at slab k is the k-th slab. -/
theorem cat3 {α : Type} (y0 y1 y2 : S1x512x8192.Idx → α) (k : Fin 3) (n : Fin 512) (c : Fin 8192) :
    concatenate S3x512x8192 0 [⟨S1x512x8192, y0⟩, ⟨S1x512x8192, y1⟩, ⟨S1x512x8192, y2⟩]
      concatenates_S1x512x8192_S1x512x8192_S1x512x8192_S3x512x8192_d0 (ix3 k n c)
      = (match k with | ⟨0, _⟩ => y0 | ⟨1, _⟩ => y1 | ⟨2, _⟩ => y2) (ix3 0 n c) := by
  match k with
  | ⟨0, _⟩ =>
    exact concatenate_apply_piece (t := S3x512x8192) 0 _ _ _ 0 (by show 0 < 3; omega) S1x512x8192 y0 rfl rfl 0 rfl (ix3 0 n c)
      (fun a ha => by
        match a with
        | ⟨0, _⟩ => exact absurd rfl ha
        | ⟨1, _⟩ => rfl
        | ⟨2, _⟩ => rfl) rfl
  | ⟨1, _⟩ =>
    exact concatenate_apply_piece (t := S3x512x8192) 0 _ _ _ 1 (by show 1 < 3; omega) S1x512x8192 y1 rfl rfl 1 rfl (ix3 0 n c)
      (fun a ha => by
        match a with
        | ⟨0, _⟩ => exact absurd rfl ha
        | ⟨1, _⟩ => rfl
        | ⟨2, _⟩ => rfl) rfl
  | ⟨2, _⟩ =>
    exact concatenate_apply_piece (t := S3x512x8192) 0 _ _ _ 2 (by show 2 < 3; omega) S1x512x8192 y2 rfl rfl 2 rfl (ix3 0 n c)
      (fun a ha => by
        match a with
        | ⟨0, _⟩ => exact absurd rfl ha
        | ⟨1, _⟩ => rfl
        | ⟨2, _⟩ => rfl) rfl

theorem catR_0 {α : Type} (y0 y1 : S1x64x32768.Idx → α) (b : Fin 64) (p : Fin 32768) :
    concatenate S2x64x32768 0 [⟨S1x64x32768, y0⟩, ⟨S1x64x32768, y1⟩] concatenates_S1x64x32768_S1x64x32768_S2x64x32768_d0
      (ix3 0 b p) = y0 (ix3 0 b p) :=
  concatenate_pair_apply_left (t := S2x64x32768) 0 y0 y1 _ _ rfl _ (fun a => by
    match a with
    | ⟨0, _⟩ => rfl
    | ⟨1, _⟩ => rfl
    | ⟨2, _⟩ => rfl)

theorem catR_1 {α : Type} (y0 y1 : S1x64x32768.Idx → α) (b : Fin 64) (p : Fin 32768) :
    concatenate S2x64x32768 0 [⟨S1x64x32768, y0⟩, ⟨S1x64x32768, y1⟩] concatenates_S1x64x32768_S1x64x32768_S2x64x32768_d0
      (ix3 1 b p) = y1 (ix3 0 b p) :=
  concatenate_pair_apply_right (t := S2x64x32768) 0 y0 y1 _ _ rfl rfl (ix3 0 b p)
    (fun a ha => by
      match a with
      | ⟨0, _⟩ => exact absurd rfl ha
      | ⟨1, _⟩ => rfl
      | ⟨2, _⟩ => rfl)
    rfl

def cb (f : Fin 128) (b : Fin 64) : Fin 8192 := ⟨f.val * 64 + b.val, by omega⟩
def bn (b : Fin 64) (n : Fin 512) : Fin 32768 := ⟨b.val * 512 + n.val, by omega⟩
def no (n : Fin 512) (o : Fin 128) : Fin 65536 := ⟨n.val * 128 + o.val, by omega⟩

abbrev Arr (s : Shape) : Type := (⟨s, .f32⟩ : BufTy).Contents (Elt Ideal)

section Conv
variable {S : Fin 512 → Fin 512 → E} {s : S512x512.Idx → E} {A B : Fin 64 → Fin 64 → Fin 512 → E}
  {ya yb : S64x32768.Idx → E} {v97 v98 : S64x512x64.Idx → E} {v99 : S64x512x128.Idx → E}
  {v100 : S512x128x64.Idx → E} {v101 v102 v103 v106 : S512x8192.Idx → E} {v107 v108 v109 : S1x512x8192.Idx → E}
  {v110 : S3x512x8192.Idx → E} {v111 : S3x512x128x64.Idx → E} {v112 : S64x512x128x3.Idx → E} {v113 : S32768x384.Idx → E}
  (hs : ∀ i j, s (ix2 i j) = S i j) (hya : ∀ b m g, ya (ix2 b (nu m g)) = A b g m)
  (hyb : ∀ b m g, yb (ix2 b (nu m g)) = B b g m)
  (h97 : ∀ i, v97 i = ya (idx_main_v97 i)) (h98 : ∀ i, v98 i = yb (idx_main_v97 i))
  (h99 : v99 = concatenate S64x512x128 2 [⟨_, v97⟩, ⟨_, v98⟩] concatenates_S64x512x64_S64x512x64_S64x512x128_d2)
  (h100 : ∀ i, v100 i = v99 (idx_main_v100 i)) (h101 : ∀ i, v101 i = v100 (idx_main_v101 i))
  (h102 : ∀ i, v102 i = ∑ k, s (lidx_main_v102 i k) * v101 (ridx_main_v102 i k))
  (h103 : ∀ i, v103 i = ∑ k, s (lidx_main_v102 i k) * v102 (ridx_main_v102 i k))
  (h106 : ∀ i, v106 i = two * v103 i - v101 i)
  (h107 : ∀ i, v107 i = v101 (idx_main_v107 i)) (h108 : ∀ i, v108 i = v102 (idx_main_v107 i))
  (h109 : ∀ i, v109 i = v106 (idx_main_v107 i))
  (h110 : v110 = concatenate S3x512x8192 0 [⟨_, v107⟩, ⟨_, v108⟩, ⟨_, v109⟩]
    concatenates_S1x512x8192_S1x512x8192_S1x512x8192_S3x512x8192_d0)
  (h111 : ∀ i, v111 i = v110 (idx_main_v111 i)) (h112 : ∀ i, v112 i = v111 (idx_main_v112 i))
  (h113 : ∀ i, v113 i = v112 (idx_main_v113 i))

theorem e97 (b : Fin 64) (j : Fin 512) (g : Fin 64) : idx_main_v97 (ix3 b j g) = ix2 b (nu j g) :=
  funext fun a => Fin.ext (by
    have hb := b.isLt; have hj := j.isLt; have hg := g.isLt
    match a with
    | ⟨0, _⟩ => show ((b.val * 512 + j.val) * 64 + g.val) / 32768 = b.val; omega
    | ⟨1, _⟩ => show ((b.val * 512 + j.val) * 64 + g.val) % 32768 = j.val * 64 + g.val; omega)

include hya h97 h99 in
theorem xa (b : Fin 64) (g : Fin 64) (j : Fin 512) : v99 (ix3 b j (fa g)) = A b g j := by
  rw [h99]
  refine (concatenate_pair_apply_left (t := S64x512x128) 2 v97 v98 _ _ rfl (ix3 b j g) (fun a => ?_)).trans ?_
  · match a with
    | ⟨0, _⟩ => rfl
    | ⟨1, _⟩ => rfl
    | ⟨2, _⟩ => rfl
  · rw [h97, e97, hya]

include hyb h98 h99 in
theorem xb (b : Fin 64) (g : Fin 64) (j : Fin 512) : v99 (ix3 b j (fb g)) = B b g j := by
  rw [h99]
  refine (concatenate_pair_apply_right (t := S64x512x128) 2 v97 v98 _ _ rfl rfl (ix3 b j g) (fun a ha => ?_) ?_).trans ?_
  · match a with
    | ⟨0, _⟩ => rfl
    | ⟨1, _⟩ => rfl
    | ⟨2, _⟩ => exact absurd rfl ha
  · show g.val + 64 = 64 + g.val; omega
  · rw [h98, e97, hyb]

include h100 h101 in
theorem x101 (b : Fin 64) (f : Fin 128) (j : Fin 512) : v101 (ix2 j (cb f b)) = v99 (ix3 b j f) := by
  have hb := b.isLt; have hj := j.isLt; have hf := f.isLt
  rw [h101, h100]
  refine congrArg v99 (funext fun a => Fin.ext ?_)
  match a with
  | ⟨0, _⟩ => show (j.val * 8192 + (f.val * 64 + b.val)) % 64 = b.val; omega
  | ⟨1, _⟩ => show (j.val * 8192 + (f.val * 64 + b.val)) / 8192 = j.val; omega
  | ⟨2, _⟩ => show (j.val * 8192 + (f.val * 64 + b.val)) / 64 % 128 = f.val; omega

include hs in
theorem dot {v w : S512x8192.Idx → E} (hw : ∀ i, w i = ∑ k, s (lidx_main_v102 i k) * v (ridx_main_v102 i k))
    (m : Fin 512) (c : Fin 8192) : w (ix2 m c) = ∑ j, S m j * v (ix2 j c) := by
  rw [hw]
  exact Finset.sum_congr rfl fun j _ => by
    rw [show lidx_main_v102 (ix2 m c) j = ix2 m j from eq_ix2 _,
      show ridx_main_v102 (ix2 m c) j = ix2 j c from eq_ix2 _, hs]

include hs h100 h101 h102 in
theorem x102 (b : Fin 64) (f : Fin 128) (j : Fin 512) : v102 (ix2 j (cb f b)) = d1 S (fun j => v99 (ix3 b j f)) j :=
  (dot hs h102 j _).trans (Finset.sum_congr rfl fun i _ => by rw [x101 h100 h101])

include hs h100 h101 h102 h103 h106 h107 h108 h109 h110 in
theorem x110 (b : Fin 64) (n : Fin 512) (f : Fin 128) (k : Fin 3) :
    v110 (ix3 k n (cb f b)) = cheb S (fun j => v99 (ix3 b j f)) k n := by
  have e107 : ∀ m c, idx_main_v107 (ix3 (0 : Fin 1) m c) = ix2 m c := fun _ _ => eq_ix2 _
  have a101 := x101 h100 h101 b f
  have a102 := x102 hs h100 h101 h102 b f
  rw [h110, cat3]
  match k with
  | ⟨0, _⟩ => exact (h107 _).trans ((congrArg v101 (e107 _ _)).trans (a101 n))
  | ⟨1, _⟩ => exact (h108 _).trans ((congrArg v102 (e107 _ _)).trans (a102 n))
  | ⟨2, _⟩ =>
    refine (h109 _).trans ((congrArg v106 (e107 _ _)).trans ?_)
    rw [h106, dot hs h103, a101]
    simp only [a102]
    rfl

include hs h100 h101 h102 h103 h106 h107 h108 h109 h110 h111 h112 h113 in
theorem x113 (b : Fin 64) (n : Fin 512) (f : Fin 128) (k : Fin 3) :
    v113 (ix2 (bn b n) (fk f k)) = cheb S (fun j => v99 (ix3 b j f)) k n := by
  have hb := b.isLt; have hn := n.isLt; have hf := f.isLt; have hk := k.isLt
  have e113 : idx_main_v113 (ix2 (bn b n) (fk f k)) = ix4 b n f k := funext fun a => Fin.ext (by
    match a with
    | ⟨0, _⟩ => show ((b.val * 512 + n.val) * 384 + (f.val * 3 + k.val)) / 196608 = b.val; omega
    | ⟨1, _⟩ => show ((b.val * 512 + n.val) * 384 + (f.val * 3 + k.val)) / 384 % 512 = n.val; omega
    | ⟨2, _⟩ => show ((b.val * 512 + n.val) * 384 + (f.val * 3 + k.val)) / 3 % 128 = f.val; omega
    | ⟨3, _⟩ => show ((b.val * 512 + n.val) * 384 + (f.val * 3 + k.val)) % 3 = k.val; omega)
  have e111 : idx_main_v111 (ix4 k n f b) = ix3 k n (cb f b) := funext fun a => Fin.ext (by
    match a with
    | ⟨0, _⟩ => show (((k.val * 512 + n.val) * 128 + f.val) * 64 + b.val) / 4194304 = k.val; omega
    | ⟨1, _⟩ => show (((k.val * 512 + n.val) * 128 + f.val) * 64 + b.val) / 8192 % 512 = n.val; omega
    | ⟨2, _⟩ => show (((k.val * 512 + n.val) * 128 + f.val) * 64 + b.val) % 8192 = f.val * 64 + b.val; omega)
  rw [h113, e113, h112, show idx_main_v112 (ix4 b n f k) = ix4 k n f b from eq_ix4 _, h111, e111]
  exact x110 hs h100 h101 h102 h103 h106 h107 h108 h109 h110 b n f k

include hs hya hyb h97 h98 h99 h100 h101 h102 h103 h106 h107 h108 h109 h110 h111 h112 h113 in
theorem conv (W : Fin 384 → E) (bias : E) (b : Fin 64) (n : Fin 512) :
    (∑ c, v113 (ix2 (bn b n) c) * W c) + bias
      = gconv S (fun f k m => cheb S (A b f) k m) (B b) (fun f k => W (fk (fa f) k)) (fun f k => W (fk (fb f) k)) bias n := by
  rw [sum_384]
  simp only [x113 hs h100 h101 h102 h103 h106 h107 h108 h109 h110 h111 h112 h113, xa hya h97 h99, xb hyb h98 h99]
  rfl

end Conv

section Stages
variable {x0 : Arr S64x512} {x1 : Arr S2x64x32768} {x2 : Arr S512x512} {x3 : Arr S195x128} {x4 : Arr S128}
  {x5 : Arr S195x64} {x6 : Arr S64} {x7 : Arr S384x128} {x8 : Arr S128} {x9 : Arr S384x64} {x10 : Arr S64}
  {x11 : Arr S64x1} {x12 : Arr S1}

theorem t_hst (b : Fin 64) (p : Fin 32768) : val_main_v96 (F := Ideal) x1 (ix2 b p) = x1 (ix3 1 b p) := by
  rw [val_main_v96_apply, val_main_v95_apply]
  refine congrArg x1 (funext fun a => Fin.ext ?_)
  have hb := b.isLt; have hp := p.isLt
  match a with
  | ⟨0, _⟩ => rfl
  | ⟨1, _⟩ => show (b.val * 32768 + p.val) / 32768 % 64 = b.val; omega
  | ⟨2, _⟩ => show (b.val * 32768 + p.val) % 32768 = p.val; omega

abbrev cin1 (x0 : Arr S64x512) (x1 : Arr S2x64x32768) (x2 : Arr S512x512) (x3 : Arr S195x128) (x4 : Arr S128)
    (x5 : Arr S195x64) (x6 : Arr S64) (b : Fin 64) : Fin 64 → Fin 3 → Fin 512 → E :=
  fun f k n' => cheb (Cert.Spec.sup x2) (h0n x0 x1 x2 x3 x4 x5 x6 b f) k n'

abbrev gate1 (x0 : Arr S64x512) (x1 : Arr S2x64x32768) (x2 : Arr S512x512) (x3 : Arr S195x128) (x4 : Arr S128)
    (x5 : Arr S195x64) (x6 : Arr S64) (x7 : Arr S384x128) (x8 : Arr S128) (b : Fin 64) (g : Fin 2) (u : Fin 64)
    (n : Fin 512) : E :=
  gate (Cert.Spec.sup x2) (cin1 x0 x1 x2 x3 x4 x5 x6 b) (hst x1 1 b)
    (fun f k o => x7 (ix2 (fk (fa f) k) o)) (fun f k o => x7 (ix2 (fk (fb f) k) o)) (fun o => x8 (ix1 o)) g u n

theorem r118 (b : Fin 64) (n : Fin 512) (o : Fin 128) :
    val_main_v118 (F := Ideal) x0 x1 x2 x3 x4 x5 x6 x7 x8 (ix2 b (no n o)) = val_main_v117 (F := Ideal) x0 x1 x2 x3 x4 x5 x6 x7 x8 (ix2 (bn b n) o) := by
  rw [val_main_v118_apply]
  refine congrArg _ (funext fun a => Fin.ext ?_)
  have hb := b.isLt; have hn := n.isLt; have ho := o.isLt
  match a with
  | ⟨0, _⟩ => show (b.val * 65536 + (n.val * 128 + o.val)) / 128 = b.val * 512 + n.val; omega
  | ⟨1, _⟩ => show (b.val * 65536 + (n.val * 128 + o.val)) % 128 = o.val; omega

theorem r124 (i : S64x65536.Idx) :
    val_main_v124 (F := Ideal) x0 x1 x2 x3 x4 x5 x6 x7 x8 i = Ideal.logistic (val_main_v118 (F := Ideal) x0 x1 x2 x3 x4 x5 x6 x7 x8 i) := by
  rw [val_main_v124_apply, val_main_v123_apply, val_main_cst_12_apply, val_main_v122_apply, val_main_v121_apply,
    val_main_cst_11_apply, val_main_v120_apply, val_main_v119_apply]
  show Ideal.div (Ideal.ofBits .f32 0x3F800000#32)
    (Ideal.ofBits .f32 0x3F800000#32 + Ideal.exp (-(val_main_v118 (F := Ideal) x0 x1 x2 x3 x4 x5 x6 x7 x8 i))) = _
  rw [Ideal.ofBits_one_f32]; rfl

theorem r125 (b : Fin 64) (n : Fin 512) (o : Fin 128) :
    val_main_v125 (F := Ideal) x0 x1 x2 x3 x4 x5 x6 x7 x8 (ix3 b n o) = val_main_v124 (F := Ideal) x0 x1 x2 x3 x4 x5 x6 x7 x8 (ix2 b (no n o)) := by
  rw [val_main_v125_apply]
  refine congrArg _ (funext fun a => Fin.ext ?_)
  have hb := b.isLt; have hn := n.isLt; have ho := o.isLt
  match a with
  | ⟨0, _⟩ => show ((b.val * 512 + n.val) * 128 + o.val) / 65536 = b.val; omega
  | ⟨1, _⟩ => show ((b.val * 512 + n.val) * 128 + o.val) % 65536 = n.val * 128 + o.val; omega

theorem e127 (b : Fin 64) (n : Fin 512) (u : Fin 64) : idx_main_v127 (ix2 b (nu n u)) = ix3 b n u :=
  funext fun a => Fin.ext (by
    have hb := b.isLt; have hn := n.isLt; have hu := u.isLt
    match a with
    | ⟨0, _⟩ => show (b.val * 32768 + (n.val * 64 + u.val)) / 32768 = b.val; omega
    | ⟨1, _⟩ => show (b.val * 32768 + (n.val * 64 + u.val)) / 64 % 512 = n.val; omega
    | ⟨2, _⟩ => show (b.val * 32768 + (n.val * 64 + u.val)) % 64 = u.val; omega)

theorem r152 (b : Fin 64) (n : Fin 512) (u : Fin 64) :
    val_main_v152 (F := Ideal) x0 x1 x2 x3 x4 x5 x6 x7 x8 x9 x10 (ix2 b (nu n u)) = val_main_v151 (F := Ideal) x0 x1 x2 x3 x4 x5 x6 x7 x8 x9 x10 (ix2 (bn b n) u) := by
  rw [val_main_v152_apply]
  refine congrArg _ (funext fun a => Fin.ext ?_)
  have hb := b.isLt; have hn := n.isLt; have hu := u.isLt
  match a with
  | ⟨0, _⟩ => show (b.val * 32768 + (n.val * 64 + u.val)) / 64 = b.val * 512 + n.val; omega
  | ⟨1, _⟩ => show (b.val * 32768 + (n.val * 64 + u.val)) % 64 = u.val; omega

theorem r155 (i : S64x32768.Idx) : val_main_v155 (F := Ideal) i = Cert.Spec.one := by
  rw [val_main_v155_apply, val_main_cst_14_apply]; rfl

theorem r159 (b : Fin 64) (n : Fin 512) (u : Fin 64) :
    val_main_v159 (F := Ideal) x0 x1 x2 x3 x4 x5 x6 x7 x8 x9 x10 (ix2 (bn b n) u) = val_main_v158 (F := Ideal) x0 x1 x2 x3 x4 x5 x6 x7 x8 x9 x10 (ix2 b (nu n u)) := by
  rw [val_main_v159_apply]
  refine congrArg _ (funext fun a => Fin.ext ?_)
  have hb := b.isLt; have hn := n.isLt; have hu := u.isLt
  match a with
  | ⟨0, _⟩ => show ((b.val * 512 + n.val) * 64 + u.val) / 32768 = b.val; omega
  | ⟨1, _⟩ => show ((b.val * 512 + n.val) * 64 + u.val) % 32768 = n.val * 64 + u.val; omega

/-- A state row at position p is the state at node p / 64, unit p % 64. -/
theorem at_pos {y : S64x32768.Idx → E} {H : Fin 64 → Fin 64 → Fin 512 → E} (hy : ∀ b n u, y (ix2 b (nu n u)) = H b u n)
    (b : Fin 64) (p : Fin 32768) (h1 : p.val / 64 < 512) (h2 : p.val % 64 < 64) :
    y (ix2 b p) = H b ⟨p.val % 64, h2⟩ ⟨p.val / 64, h1⟩ := by
  have := hy b ⟨_, h1⟩ ⟨_, h2⟩
  rwa [show nu ⟨p.val / 64, h1⟩ ⟨p.val % 64, h2⟩ = p from Fin.ext (by show p.val / 64 * 64 + p.val % 64 = p.val; omega)] at this

variable (hs : ∀ i j, val_main_v30 (F := Ideal) x2 (ix2 i j) = Cert.Spec.sup x2 i j)
  (hh : ∀ b n u, val_main_v94 (F := Ideal) x0 x1 x2 x3 x4 x5 x6 (ix2 b (nu n u)) = h0n x0 x1 x2 x3 x4 x5 x6 b u n)
include hs hh

theorem t_pre_g (b : Fin 64) (n : Fin 512) (o : Fin 128) :
    val_main_v117 (F := Ideal) x0 x1 x2 x3 x4 x5 x6 x7 x8 (ix2 (bn b n) o)
      = gconv (Cert.Spec.sup x2) (cin1 x0 x1 x2 x3 x4 x5 x6 b) (hst x1 1 b)
          (fun f k => x7 (ix2 (fk (fa f) k) o)) (fun f k => x7 (ix2 (fk (fb f) k) o)) (x8 (ix1 o)) n := by
  rw [val_main_v117_apply, val_main_v114_apply, val_main_v116_apply, val_main_v115_apply,
    show idx_main_v115 (idx_main_v116 (ix2 (bn b n) o)) = ix1 o from eq_ix1 _]
  simp only [show ∀ c, lidx_main_v114 (ix2 (bn b n) o) c = ix2 (bn b n) c from fun _ => eq_ix2 _,
    show ∀ c, ridx_main_v114 (ix2 (bn b n) o) c = ix2 c o from fun _ => eq_ix2 _]
  exact conv hs hh (fun b m g => t_hst b (nu m g))
    (val_main_v97_apply x0 x1 x2 x3 x4 x5 x6) (val_main_v98_apply x1) rfl (val_main_v100_apply x0 x1 x2 x3 x4 x5 x6) (val_main_v101_apply x0 x1 x2 x3 x4 x5 x6)
    (val_main_v102_apply x0 x1 x2 x3 x4 x5 x6) (val_main_v103_apply x0 x1 x2 x3 x4 x5 x6)
    (fun _ => by rw [val_main_v106_apply, val_main_v105_apply, val_main_v104_apply, val_main_cst_10_apply]; rfl)
    (val_main_v107_apply x0 x1 x2 x3 x4 x5 x6) (val_main_v108_apply x0 x1 x2 x3 x4 x5 x6) (val_main_v109_apply x0 x1 x2 x3 x4 x5 x6) rfl
    (val_main_v111_apply x0 x1 x2 x3 x4 x5 x6) (val_main_v112_apply x0 x1 x2 x3 x4 x5 x6) (val_main_v113_apply x0 x1 x2 x3 x4 x5 x6)
    (fun c => x7 (ix2 c o)) (x8 (ix1 o)) b n

theorem t_gate (b : Fin 64) (n : Fin 512) (g : Fin 2) (u : Fin 64) :
    val_main_v125 (F := Ideal) x0 x1 x2 x3 x4 x5 x6 x7 x8 (ix3 b n (go g u)) = gate1 x0 x1 x2 x3 x4 x5 x6 x7 x8 b g u n := by
  rw [r125, r124, r118, t_pre_g hs hh]
  rfl

theorem t_r (b : Fin 64) (n : Fin 512) (u : Fin 64) :
    val_main_v127 (F := Ideal) x0 x1 x2 x3 x4 x5 x6 x7 x8 (ix2 b (nu n u)) = gate1 x0 x1 x2 x3 x4 x5 x6 x7 x8 b 0 u n := by
  rw [val_main_v127_apply, e127, val_main_v126_apply, show idx_main_v126 (ix3 b n u) = ix3 b n (go 0 u) from
    (eq_ix3 _).trans (congrArg (ix3 b n) (Fin.ext (by show u.val = 0 * 64 + u.val; omega))), t_gate hs hh]

theorem t_u (b : Fin 64) (n : Fin 512) (u : Fin 64) :
    val_main_v129 (F := Ideal) x0 x1 x2 x3 x4 x5 x6 x7 x8 (ix2 b (nu n u)) = gate1 x0 x1 x2 x3 x4 x5 x6 x7 x8 b 1 u n := by
  rw [val_main_v129_apply, show idx_main_v129 (ix2 b (nu n u)) = ix3 b n u from e127 b n u, val_main_v128_apply,
    show idx_main_v128 (ix3 b n u) = ix3 b n (go 1 u) from
    (eq_ix3 _).trans (congrArg (ix3 b n) (Fin.ext (by show 64 + u.val = 1 * 64 + u.val; omega))), t_gate hs hh]

theorem t_rh (b : Fin 64) (n : Fin 512) (u : Fin 64) :
    val_main_v130 (F := Ideal) x0 x1 x2 x3 x4 x5 x6 x7 x8 (ix2 b (nu n u)) = gate1 x0 x1 x2 x3 x4 x5 x6 x7 x8 b 0 u n * hst x1 1 b u n := by
  rw [val_main_v130_apply, t_r hs hh, t_hst]
  rfl

theorem t_pre_c (b : Fin 64) (n : Fin 512) (u : Fin 64) :
    val_main_v151 (F := Ideal) x0 x1 x2 x3 x4 x5 x6 x7 x8 x9 x10 (ix2 (bn b n) u)
      = gconv (Cert.Spec.sup x2) (cin1 x0 x1 x2 x3 x4 x5 x6 b)
          (fun f n' => gate1 x0 x1 x2 x3 x4 x5 x6 x7 x8 b 0 f n' * hst x1 1 b f n')
          (fun f k => x9 (ix2 (fk (fa f) k) u)) (fun f k => x9 (ix2 (fk (fb f) k) u)) (x10 (ix1 u)) n := by
  rw [val_main_v151_apply, val_main_v148_apply, val_main_v150_apply, val_main_v149_apply,
    show idx_main_v149 (idx_main_v150 (ix2 (bn b n) u)) = ix1 u from eq_ix1 _]
  simp only [show ∀ c, lidx_main_v148 (ix2 (bn b n) u) c = ix2 (bn b n) c from fun _ => eq_ix2 _,
    show ∀ c, ridx_main_v148 (ix2 (bn b n) u) c = ix2 c u from fun _ => eq_ix2 _]
  exact conv hs hh (fun b m g => t_rh hs hh b m g)
    (val_main_v131_apply x0 x1 x2 x3 x4 x5 x6) (val_main_v132_apply x0 x1 x2 x3 x4 x5 x6 x7 x8) rfl (val_main_v134_apply x0 x1 x2 x3 x4 x5 x6 x7 x8) (val_main_v135_apply x0 x1 x2 x3 x4 x5 x6 x7 x8)
    (val_main_v136_apply x0 x1 x2 x3 x4 x5 x6 x7 x8) (val_main_v137_apply x0 x1 x2 x3 x4 x5 x6 x7 x8)
    (fun _ => by rw [val_main_v140_apply, val_main_v139_apply, val_main_v138_apply, val_main_cst_13_apply]; rfl)
    (val_main_v141_apply x0 x1 x2 x3 x4 x5 x6 x7 x8) (val_main_v142_apply x0 x1 x2 x3 x4 x5 x6 x7 x8) (val_main_v143_apply x0 x1 x2 x3 x4 x5 x6 x7 x8) rfl
    (val_main_v145_apply x0 x1 x2 x3 x4 x5 x6 x7 x8) (val_main_v146_apply x0 x1 x2 x3 x4 x5 x6 x7 x8) (val_main_v147_apply x0 x1 x2 x3 x4 x5 x6 x7 x8)
    (fun c => x9 (ix2 c u)) (x10 (ix1 u)) b n

theorem t_h1 (b : Fin 64) (n : Fin 512) (u : Fin 64) :
    val_main_v158 (F := Ideal) x0 x1 x2 x3 x4 x5 x6 x7 x8 x9 x10 (ix2 b (nu n u)) = h1n x0 x1 x2 x3 x4 x5 x6 x7 x8 x9 x10 b u n := by
  rw [val_main_v158_apply, val_main_v154_apply, val_main_v157_apply, val_main_v156_apply, val_main_v153_apply,
    r155, r152, t_pre_c hs hh, t_u hs hh, t_hst]
  rfl

theorem t_out (b : Fin 64) (n : Fin 512) :
    val_main_v164 (F := Ideal) x0 x1 x2 x3 x4 x5 x6 x7 x8 x9 x10 x11 x12 (ix2 b n) = outv x0 x1 x2 x3 x4 x5 x6 x7 x8 x9 x10 x11 x12 b n := by
  rw [val_main_v164_apply, show idx_main_v164 (ix2 b n) = ix2 (bn b n) 0 from
    funext fun a => Fin.ext (by
      match a with
      | ⟨0, _⟩ => show (b.val * 512 + n.val) / 1 = b.val * 512 + n.val; omega
      | ⟨1, _⟩ => rfl),
    val_main_v163_apply, val_main_v160_apply, val_main_v162_apply, val_main_v161_apply,
    show idx_main_v161 (idx_main_v162 (ix2 (bn b n) 0)) = ix1 0 from eq_ix1 _]
  simp only [show ∀ k, lidx_main_v160 (ix2 (bn b n) 0) k = ix2 (bn b n) k from fun _ => eq_ix2 _,
    show ∀ k, ridx_main_v160 (ix2 (bn b n) 0) k = ix2 k 0 from fun _ => eq_ix2 _, r159, t_h1 hs hh]
  rfl

theorem t_stack (l : Fin 2) (b : Fin 64) (p : Fin 32768) :
    val_main_v167 (F := Ideal) x0 x1 x2 x3 x4 x5 x6 x7 x8 x9 x10 (ix3 l b p) = res1 x0 x1 x2 x3 x4 x5 x6 x7 x8 x9 x10 (ix3 l b p) := by
  have h1 : p.val / 64 < 512 := by have := p.isLt; omega
  have h2 : p.val % 64 < 64 := Nat.mod_lt _ (by norm_num)
  unfold val_main_v167
  match l with
  | ⟨0, _⟩ =>
    have e : res1 x0 x1 x2 x3 x4 x5 x6 x7 x8 x9 x10 (ix3 0 b p) = h0n x0 x1 x2 x3 x4 x5 x6 b ⟨p.val % 64, h2⟩ ⟨p.val / 64, h1⟩ := by
      unfold res1; exact if_pos rfl
    refine (catR_0 _ _ b p).trans (Eq.trans ?_ e.symm)
    rw [val_main_v165_apply, show idx_main_v165 (ix3 0 b p) = ix2 b p from eq_ix2 _, at_pos hh b p h1 h2]
  | ⟨1, _⟩ =>
    have e : res1 x0 x1 x2 x3 x4 x5 x6 x7 x8 x9 x10 (ix3 1 b p) = h1n x0 x1 x2 x3 x4 x5 x6 x7 x8 x9 x10 b ⟨p.val % 64, h2⟩ ⟨p.val / 64, h1⟩ := by
      unfold res1; exact if_neg Nat.one_ne_zero
    refine (catR_1 _ _ b p).trans (Eq.trans ?_ e.symm)
    rw [val_main_v166_apply, show idx_main_v166 (ix3 0 b p) = ix2 b p from eq_ix2 _, at_pos (t_h1 hs hh) b p h1 h2]

end Stages

theorem ref_res0
    (hsup : ∀ (x2 : Arr S512x512) (i j : Fin 512), val_main_v30 (F := Ideal) x2 (ix2 i j) = Cert.Spec.sup x2 i j)
    (hh0 : ∀ (x0 : Arr S64x512) (x1 : Arr S2x64x32768) (x2 : Arr S512x512) (x3 : Arr S195x128) (x4 : Arr S128)
      (x5 : Arr S195x64) (x6 : Arr S64) (b : Fin 64) (n : Fin 512) (u : Fin 64),
      val_main_v94 (F := Ideal) x0 x1 x2 x3 x4 x5 x6 (ix2 b (nu n u)) = Cert.Spec.h0n x0 x1 x2 x3 x4 x5 x6 b u n)
    (x0 : Arr S64x512) (x1 : Arr S2x64x32768) (x2 : Arr S512x512) (x3 : Arr S195x128) (x4 : Arr S128)
    (x5 : Arr S195x64) (x6 : Arr S64) (x7 : Arr S384x128) (x8 : Arr S128) (x9 : Arr S384x64) (x10 : Arr S64)
    (x11 : Arr S64x1) (x12 : Arr S1) :
    val_main_v164 (F := Ideal) x0 x1 x2 x3 x4 x5 x6 x7 x8 x9 x10 x11 x12 = Cert.Spec.res0 x0 x1 x2 x3 x4 x5 x6 x7 x8 x9 x10 x11 x12 := by
  funext i
  obtain ⟨b, n, rfl⟩ : ∃ b n, i = ix2 b n := ⟨i 0, i 1, eq_ix2 i⟩
  exact t_out (hsup x2) (hh0 x0 x1 x2 x3 x4 x5 x6) b n

theorem ref_res1
    (hsup : ∀ (x2 : Arr S512x512) (i j : Fin 512), val_main_v30 (F := Ideal) x2 (ix2 i j) = Cert.Spec.sup x2 i j)
    (hh0 : ∀ (x0 : Arr S64x512) (x1 : Arr S2x64x32768) (x2 : Arr S512x512) (x3 : Arr S195x128) (x4 : Arr S128)
      (x5 : Arr S195x64) (x6 : Arr S64) (b : Fin 64) (n : Fin 512) (u : Fin 64),
      val_main_v94 (F := Ideal) x0 x1 x2 x3 x4 x5 x6 (ix2 b (nu n u)) = Cert.Spec.h0n x0 x1 x2 x3 x4 x5 x6 b u n)
    (x0 : Arr S64x512) (x1 : Arr S2x64x32768) (x2 : Arr S512x512) (x3 : Arr S195x128) (x4 : Arr S128)
    (x5 : Arr S195x64) (x6 : Arr S64) (x7 : Arr S384x128) (x8 : Arr S128) (x9 : Arr S384x64) (x10 : Arr S64) :
    val_main_v167 (F := Ideal) x0 x1 x2 x3 x4 x5 x6 x7 x8 x9 x10 = Cert.Spec.res1 x0 x1 x2 x3 x4 x5 x6 x7 x8 x9 x10 := by
  funext i
  obtain ⟨l, b, p, rfl⟩ : ∃ l b p, i = ix3 l b p := ⟨i 0, i 1, i 2, eq_ix3 i⟩
  exact t_stack (hsup x2) (hh0 x0 x1 x2 x3 x4 x5 x6) l b p

end Cert.RefB

end
-- ==== Proof.Algebraic.lean ====
import proofs.«156303_g19069654794669_cont_sun_m_30_8_alg».proof.Defs
import proofs.«156303_g19069654794669_cont_sun_m_30_8_alg».proof.Proof.Gen.KernelIdeal
import proofs.«156303_g19069654794669_cont_sun_m_30_8_alg».proof.Proof.Gen.ReferenceIdeal
import proofs.«156303_g19069654794669_cont_sun_m_30_8_alg».proof.Proof.Gen.Pre_finite_inputs
import proofs.«156303_g19069654794669_cont_sun_m_30_8_alg».proof.Proof.KI.Results
import proofs.«156303_g19069654794669_cont_sun_m_30_8_alg».proof.Proof.RefRun
import proofs.«156303_g19069654794669_cont_sun_m_30_8_alg».proof.Proof.RefA
import proofs.«156303_g19069654794669_cont_sun_m_30_8_alg».proof.Proof.RefB
import proofs.«156303_g19069654794669_cont_sun_m_30_8_alg».proof.Proof.Spec

set_option maxRecDepth 16384

noncomputable section

namespace Cert.Alg

open Idealize.ShloMosaic Idealize.SL.Sem

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, _, Cert.KernelIdeal.Results.run m ρ, ?_⟩
  refine (θ_run (Cert.ReferenceIdeal.defs (F := Ideal)) _ _).mono
    (fun r h c => ⟨(h c).1.trans ?_, (h c).2.1.trans ?_, (h c).2.2⟩) (Cert.RefRun.run (F := Ideal) m' ρ')
  · obtain ⟨e0, e1, e2, e3, e4, e5, e6, e7, e8, e9, e10, e11, e12⟩ := hagree c
    rw [e0, e1, e2, e3, e4, e5, e6, e7, e8, e9, e10, e11, e12]
    exact Cert.RefB.ref_res0 Cert.RefA.ref_sup Cert.RefA.ref_h0 _ _ _ _ _ _ _ _ _ _ _ _ _
  · obtain ⟨e0, e1, e2, e3, e4, e5, e6, e7, e8, e9, e10, e11, e12⟩ := hagree c
    rw [e0, e1, e2, e3, e4, e5, e6, e7, e8, e9, e10]
    exact Cert.RefB.ref_res1 Cert.RefA.ref_sup Cert.RefA.ref_h0 _ _ _ _ _ _ _ _ _ _ _

theorem frame_ri :
    Cert.frame_ReferenceIdeal (hReferenceIdeal := Cert.ReferenceIdeal.Gen.facts)
      (hPre_finite_inputs := Cert.Pre_finite_inputs.Gen.facts) :=
  fun m ρ _ => (θ_run (Cert.ReferenceIdeal.defs (F := Ideal)) _ _).mono (fun _ h c => (h c).2.2) (Cert.RefRun.run (F := Ideal) m ρ)

end Cert.Alg

end
-- ==== Proof.lean ====
import proofs.«156303_g19069654794669_cont_sun_m_30_8_alg».proof.Defs
import proofs.«156303_g19069654794669_cont_sun_m_30_8_alg».proof.Proof.Gen.Kernel
import proofs.«156303_g19069654794669_cont_sun_m_30_8_alg».proof.Proof.Gen.KernelIdeal
import proofs.«156303_g19069654794669_cont_sun_m_30_8_alg».proof.Proof.Gen.ReferenceIdeal
import proofs.«156303_g19069654794669_cont_sun_m_30_8_alg».proof.Proof.Gen.Pre_finite_inputs
import proofs.«156303_g19069654794669_cont_sun_m_30_8_alg».proof.Proof.KB.Frame
import proofs.«156303_g19069654794669_cont_sun_m_30_8_alg».proof.Proof.KI.Frame
import proofs.«156303_g19069654794669_cont_sun_m_30_8_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Alg.frame_ri, trivial, Cert.Alg.algebraic⟩

end Cert.Proof

end
